-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x512 : Shape := ⟨2, ![12288, 512]⟩
abbrev S12288x12288 : Shape := ⟨2, ![12288, 12288]⟩
abbrev S512x16 : Shape := ⟨2, ![512, 16]⟩
abbrev S16 : Shape := ⟨1, ![16]⟩
abbrev S16x40 : Shape := ⟨2, ![16, 40]⟩
abbrev S40 : Shape := ⟨1, ![40]⟩
abbrev S_ : Shape := ⟨0, ![]⟩
abbrev S12288 : Shape := ⟨1, ![12288]⟩

class Facts : Prop where
  bcast_S_S12288x512 : S_.BroadcastsInDim S12288x512 (![] : Fin 0 → Fin S12288x512.rank)
  reducesTo_S12288x512_S_d0_1 : S12288x512.ReducesTo [0, 1] S_
  h_S_ : 0 < S_.numel
  bcast_S_S12288x12288 : S_.BroadcastsInDim S12288x12288 (![] : Fin 0 → Fin S12288x12288.rank)
  reducesTo_S12288x12288_S_d0_1 : S12288x12288.ReducesTo [0, 1] S_
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_
  reducesTo_S12288x12288_S12288_d1 : S12288x12288.ReducesTo [1] S12288
  bcast_S_S12288 : S_.BroadcastsInDim S12288 (![] : Fin 0 → Fin S12288.rank)
  reducesTo_S12288_S_d0 : S12288.ReducesTo [0] S_

variable [Facts]

def fn_part2 {F : FTy → Type} [FloatOps F] (main_arg1 : FVec F S12288x12288 .f32) (main_v28 : IVec S_ 1) (main_v34 : FVec F S12288x12288 .f32) : IVec S_ 1 :=
  let main_v35 : FVec F S12288x12288 .f32 := addf main_arg1 main_v34
  let main_cst_11 : FVec F S_ .f32 := constant S_ .f32 0x00000000#32
  let main_v36 : FVec F S12288 .f32 := (fun x v => Host.reduceAdd x v reducesTo_S12288x12288_S12288_d1 h_S_) main_v35 main_cst_11
  let main_cst_12 : FVec F S_ .f32 := constant S_ .f32 0x00000000#32
  let main_v37 : FVec F S12288 .f32 := broadcastInDim S12288 ![] bcast_S_S12288 main_cst_12
  let main_v38 : IVec S12288 1 := cmpf .ogt main_v36 main_v37
  let main_c_13 : IVec S_ 1 := constantI S_ 1 1#1
  let main_v39 : IVec S_ 1 := (fun x v => Host.reduce IntOp.andi x v reducesTo_S12288_S_d0 h_S_) main_v38 main_c_13
  let main_v40 : IVec S_ 1 := andi main_v28 main_v39
  main_v40

def fn_part1 {F : FTy → Type} [FloatOps F] (main_arg1 : FVec F S12288x12288 .f32) (main_arg4 : FVec F S16x40 .f32) (main_arg5 : FVec F S40 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x40 .f32 := Host.absf main_arg4
  let main_cst_6 : FVec F S_ .f32 := constant S_ .f32 0x7F800000#32
  let main_v20 : FVec F S16x40 .f32 := broadcastInDim S16x40 ![] bcast_S_S16x40 main_cst_6
  let main_v21 : IVec S16x40 1 := cmpf .olt main_v19 main_v20
  let main_c_7 : IVec S_ 1 := constantI S_ 1 1#1
  let main_v22 : IVec S_ 1 := (fun x v => Host.reduce IntOp.andi x v reducesTo_S16x40_S_d0_1 h_S_) main_v21 main_c_7
  let main_v23 : IVec S_ 1 := andi main_v18 main_v22
  let main_v24 : FVec F S40 .f32 := Host.absf main_arg5
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  let main_v29 : IVec S12288x12288 32 := iotaInDim S12288x12288 32 0
  let main_v30 : IVec S12288x12288 32 := iotaInDim S12288x12288 32 1
  let main_c_10 : IVec S_ 32 := constantI S_ 32 0#32
  let main_v31 : IVec S12288x12288 32 := broadcastInDim S12288x12288 ![] bcast_S_S12288x12288 main_c_10
  let main_v32 : IVec S12288x12288 32 := addi main_v29 main_v31
  let main_v33 : IVec S12288x12288 1 := cmpi .eq main_v32 main_v30
  let main_v34 : FVec F S12288x12288 .f32 := uitofp .f32 main_v33
  fn_part2 (F := F) main_arg1 main_v28 main_v34

def fn {F : FTy → Type} [FloatOps F] (main_arg0 : FVec F S12288x512 .f32) (main_arg1 : FVec F S12288x12288 .f32) (main_arg2 : FVec F S512x16 .f32) (main_arg3 : FVec F S16 .f32) (main_arg4 : FVec F S16x40 .f32) (main_arg5 : FVec F S40 .f32) : IVec S_ 1 :=
  let main_v0 : FVec F S12288x512 .f32 := Host.absf main_arg0
  let main_cst : FVec F S_ .f32 := constant S_ .f32 0x7F800000#32
  let main_v1 : FVec F S12288x512 .f32 := broadcastInDim S12288x512 ![] bcast_S_S12288x512 main_cst
  let main_v2 : IVec S12288x512 1 := cmpf .olt main_v0 main_v1
  let main_c : IVec S_ 1 := constantI S_ 1 1#1
  let main_v3 : IVec S_ 1 := (fun x v => Host.reduce IntOp.andi x v reducesTo_S12288x512_S_d0_1 h_S_) main_v2 main_c
  let main_v4 : FVec F S12288x12288 .f32 := Host.absf main_arg1
  let main_cst_0 : FVec F S_ .f32 := constant S_ .f32 0x7F800000#32
  let main_v5 : FVec F S12288x12288 .f32 := broadcastInDim S12288x12288 ![] bcast_S_S12288x12288 main_cst_0
  let main_v6 : IVec S12288x12288 1 := cmpf .olt main_v4 main_v5
  let main_c_1 : IVec S_ 1 := constantI S_ 1 1#1
  let main_v7 : IVec S_ 1 := (fun x v => Host.reduce IntOp.andi x v reducesTo_S12288x12288_S_d0_1 h_S_) main_v6 main_c_1
  let main_v8 : IVec S_ 1 := andi main_v3 main_v7
  let main_v9 : FVec F S512x16 .f32 := Host.absf main_arg2
  let main_cst_2 : FVec F S_ .f32 := constant S_ .f32 0x7F800000#32
  let main_v10 : FVec F S512x16 .f32 := broadcastInDim S512x16 ![] bcast_S_S512x16 main_cst_2
  let main_v11 : IVec S512x16 1 := cmpf .olt main_v9 main_v10
  let main_c_3 : IVec S_ 1 := constantI S_ 1 1#1
  let main_v12 : IVec S_ 1 := (fun x v => Host.reduce IntOp.andi x v reducesTo_S512x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg1 main_arg4 main_arg5 main_v13 main_v16
-- ==== Kernel.lean ====
abbrev S12288x512 : Shape := ⟨2, ![12288, 512]⟩
abbrev S12288x12288 : Shape := ⟨2, ![12288, 12288]⟩
abbrev S512x16 : Shape := ⟨2, ![512, 16]⟩
abbrev S16 : Shape := ⟨1, ![16]⟩
abbrev S16x40 : Shape := ⟨2, ![16, 40]⟩
abbrev S40 : Shape := ⟨1, ![40]⟩
abbrev S12288x1 : Shape := ⟨2, ![12288, 1]⟩
abbrev S2048x1024 : Shape := ⟨2, ![2048, 1024]⟩
abbrev S2048x1 : Shape := ⟨2, ![2048, 1]⟩
abbrev S2048 : Shape := ⟨1, ![2048]⟩
abbrev S12288x16 : Shape := ⟨2, ![12288, 16]⟩
abbrev S2048x512 : Shape := ⟨2, ![2048, 512]⟩
abbrev S2048x16 : Shape := ⟨2, ![2048, 16]⟩
abbrev S1x16 : Shape := ⟨2, ![1, 16]⟩
abbrev S1024x16 : Shape := ⟨2, ![1024, 16]⟩
abbrev S1024x1 : Shape := ⟨2, ![1024, 1]⟩
abbrev S12288x40 : Shape := ⟨2, ![12288, 40]⟩
abbrev S2048x40 : Shape := ⟨2, ![2048, 40]⟩
abbrev S1x40 : Shape := ⟨2, ![1, 40]⟩
abbrev S1024x40 : Shape := ⟨2, ![1024, 40]⟩

abbrev nBuf : Space → Nat
  | .hbm => 13
  | .vmem => 43
  | .smem => 0
  | _ => 0

abbrev bufTy : (tb : Table) → Fin (tcTables nBuf tb) → BufTy
  | .hbm, ⟨0, _⟩ => ⟨S12288x512, .f32⟩
  | .hbm, ⟨1, _⟩ => ⟨S12288x12288, .f32⟩
  | .hbm, ⟨2, _⟩ => ⟨S512x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S12288x1, .f32⟩
  | .hbm, ⟨7, _⟩ => ⟨S12288x16, .f32⟩
  | .hbm, ⟨8, _⟩ => ⟨S1x16, .f32⟩
  | .hbm, ⟨9, _⟩ => ⟨S12288x16, .f32⟩
  | .hbm, ⟨10, _⟩ => ⟨S12288x40, .f32⟩
  | .hbm, ⟨11, _⟩ => ⟨S1x40, .f32⟩
  | .hbm, ⟨12, _⟩ => ⟨S12288x40, .f32⟩
  | .local _ .vmem, ⟨0, _⟩ => ⟨S2048x1024, .f32⟩
  | .local _ .vmem, ⟨1, _⟩ => ⟨S2048x1024, .f32⟩
  | .local _ .vmem, ⟨2, _⟩ => ⟨S2048x1, .f32⟩
  | .local _ .vmem, ⟨3, _⟩ => ⟨S2048x1, .f32⟩
  | .local _ .vmem, ⟨4, _⟩ => ⟨S2048x1, .f32⟩
  | .local _ .vmem, ⟨5, _⟩ => ⟨S2048x512, .f32⟩
  | .local _ .vmem, ⟨6, _⟩ => ⟨S2048x512, .f32⟩
  | .local _ .vmem, ⟨7, _⟩ => ⟨S512x16, .f32⟩
  | .local _ .vmem, ⟨8, _⟩ => ⟨S2048x16, .f32⟩
  | .local _ .vmem, ⟨9, _⟩ => ⟨S2048x16, .f32⟩
  | .local _ .vmem, ⟨10, _⟩ => ⟨S2048x1024, .f32⟩
  | .local _ .vmem, ⟨11, _⟩ => ⟨S2048x1024, .f32⟩
  | .local _ .vmem, ⟨12, _⟩ => ⟨S1024x16, .f32⟩
  | .local _ .vmem, ⟨13, _⟩ => ⟨S1024x16, .f32⟩
  | .local _ .vmem, ⟨14, _⟩ => ⟨S1024x1, .f32⟩
  | .local _ .vmem, ⟨15, _⟩ => ⟨S1024x1, .f32⟩
  | .local _ .vmem, ⟨16, _⟩ => ⟨S2048x16, .f32⟩
  | .local _ .vmem, ⟨17, _⟩ => ⟨S2048x16, .f32⟩
  | .local _ .vmem, ⟨18, _⟩ => ⟨S2048x1, .f32⟩
  | .local _ .vmem, ⟨19, _⟩ => ⟨S2048x1, .f32⟩
  | .local _ .vmem, ⟨20, _⟩ => ⟨S1x16, .f32⟩
  | .local _ .vmem, ⟨21, _⟩ => ⟨S2048x16, .f32⟩
  | .local _ .vmem, ⟨22, _⟩ => ⟨S2048x16, .f32⟩
  | .local _ .vmem, ⟨23, _⟩ => ⟨S2048x16, .f32⟩
  | .local _ .vmem, ⟨24, _⟩ => ⟨S2048x16, .f32⟩
  | .local _ .vmem, ⟨25, _⟩ => ⟨S2048x16, .f32⟩
  | .local _ .vmem, ⟨26, _⟩ => ⟨S16x40, .f32⟩
  | .local _ .vmem, ⟨27, _⟩ => ⟨S2048x40, .f32⟩
  | .local _ .vmem, ⟨28, _⟩ => ⟨S2048x40, .f32⟩
  | .local _ .vmem, ⟨29, _⟩ => ⟨S2048x1024, .f32⟩
  | .local _ .vmem, ⟨30, _⟩ => ⟨S2048x1024, .f32⟩
  | .local _ .vmem, ⟨31, _⟩ => ⟨S1024x40, .f32⟩
  | .local _ .vmem, ⟨32, _⟩ => ⟨S1024x40, .f32⟩
  | .local _ .vmem, ⟨33, _⟩ => ⟨S1024x1, .f32⟩
  | .local _ .vmem, ⟨34, _⟩ => ⟨S1024x1, .f32⟩
  | .local _ .vmem, ⟨35, _⟩ => ⟨S2048x40, .f32⟩
  | .local _ .vmem, ⟨36, _⟩ => ⟨S2048x40, .f32⟩
  | .local _ .vmem, ⟨37, _⟩ => ⟨S2048x1, .f32⟩
  | .local _ .vmem, ⟨38, _⟩ => ⟨S2048x1, .f32⟩
  | .local _ .vmem, ⟨39, _⟩ => ⟨S1x40, .f32⟩
  | .local _ .vmem, ⟨40, _⟩ => ⟨S2048x40, .f32⟩
  | .local _ .vmem, ⟨41, _⟩ => ⟨S2048x40, .f32⟩
  | .local _ .vmem, ⟨42, _⟩ => ⟨S2048x40, .f32⟩
  | _, _ => ⟨S12288x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg4_1 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg6_1 : Ref sig .tc := ⟨.vmem, 22, rfl⟩
abbrev cc2_scratch0 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg2_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg2_1 : Ref sig .tc := ⟨.vmem, 34, rfl⟩
abbrev cc4_stg3_0 : Ref sig .tc := ⟨.vmem, 35, rfl⟩
abbrev cc4_stg3_1 : Ref sig .tc := ⟨.vmem, 36, rfl⟩
abbrev cc4_stg4_0 : Ref sig .tc := ⟨.vmem, 37, rfl⟩
abbrev cc4_stg4_1 : Ref sig .tc := ⟨.vmem, 38, rfl⟩
abbrev cc4_stg5_0 : Ref sig .tc := ⟨.vmem, 39, rfl⟩
abbrev cc4_stg6_0 : Ref sig .tc := ⟨.vmem, 40, rfl⟩
abbrev cc4_stg6_1 : Ref sig .tc := ⟨.vmem, 41, rfl⟩
abbrev cc4_scratch0 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc2_sem0_0 : DmaSem sig := 9
abbrev cc2_sem0_1 : DmaSem sig := 10
abbrev cc2_sem1_0 : DmaSem sig := 11
abbrev cc2_sem1_1 : DmaSem sig := 12
abbrev cc2_sem2_0 : DmaSem sig := 13
abbrev cc2_sem2_1 : DmaSem sig := 14
abbrev cc2_sem3_0 : DmaSem sig := 15
abbrev cc2_sem3_1 : DmaSem sig := 16
abbrev cc2_sem4_0 : DmaSem sig := 17
abbrev cc2_sem4_1 : DmaSem sig := 18
abbrev cc2_sem5_0 : DmaSem sig := 19
abbrev cc2_sem6_0 : DmaSem sig := 20
abbrev cc2_sem6_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem2_1 : DmaSem sig := 32
abbrev cc4_sem3_0 : DmaSem sig := 33
abbrev cc4_sem3_1 : DmaSem sig := 34
abbrev cc4_sem4_0 : DmaSem sig := 35
abbrev cc4_sem4_1 : DmaSem sig := 36
abbrev cc4_sem5_0 : DmaSem sig := 37
abbrev cc4_sem6_0 : DmaSem sig := 38
abbrev cc4_sem6_1 : DmaSem sig := 39

abbrev nD : Nat := 1
abbrev τ : Topo := Topo.v7x

variable {F : FTy → Type} [FloatOps F]

abbrev grid0 : Pipeline.Grid := ⟨2, ![6, 12], ![false, false]⟩

def k0_cond2 (i : grid0.Coords) : BitVec 1 :=
  let arg1 : BitVec 32 := BitVec.ofNat 32 (i 1).val
  let c11_i32 : BitVec 32 := 11#32
  let v11 : BitVec 1 := Scalar.cmpi .eq arg1 c11_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨1, ![6], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![6, 12], ![false, false]⟩

def k2_cond2 (i : grid2.Coords) : BitVec 1 :=
  let arg1 : BitVec 32 := BitVec.ofNat 32 (i 1).val
  let c11_i32 : BitVec 32 := 11#32
  let v18 : BitVec 1 := Scalar.cmpi .eq arg1 c11_i32
  let v19 : BitVec 32 := Scalar.extui v18
  let c0_i32_10 : BitVec 32 := 0#32
  let v20 : BitVec 1 := Scalar.cmpi .ne v19 c0_i32_10
  v20

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S2048x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S2048x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 1 → Memref sig .tc .vmem S1x16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S2048x16 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev grid3 : Pipeline.Grid := ⟨1, ![6], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2048x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨2, ![6, 12], ![false, false]⟩

def k4_cond2 (i : grid4.Coords) : BitVec 1 :=
  let arg1 : BitVec 32 := BitVec.ofNat 32 (i 1).val
  let c11_i32 : BitVec 32 := 11#32
  let v18 : BitVec 1 := Scalar.cmpi .eq arg1 c11_i32
  let v19 : BitVec 32 := Scalar.extui v18
  let c0_i32_10 : BitVec 32 := 0#32
  let v20 : BitVec 1 := Scalar.cmpi .ne v19 c0_i32_10
  v20

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S2048x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1024x40 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S2048x40 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev stage4_4 : Fin 2 → Memref sig .tc .vmem S2048x1 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, false]

abbrev stage4_5 : Fin 1 → Memref sig .tc .vmem S1x40 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false, false]

abbrev stage4_6 : Fin 2 → Memref sig .tc .vmem S2048x40 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, false]

class Facts₀ : Prop where
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x1024_S2048x1024_0_0 : ∀ a, (![0, 0] : Fin 2 → Nat) a + S2048x1024.size a ≤ S2048x1024.size a
  h_S2048x1024 : 0 < S2048x1024.numel
  reduces_S2048x1024_S2048 : S2048x1024.Reduces [1] S2048
  shapeCasts_S2048_S2048x1 : S2048.ShapeCasts S2048x1
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S2048x16_S2048x16_0_0 : ∀ a, (![0, 0] : Fin 2 → Nat) a + S2048x16.size a ≤ S2048x16.size a
  h_S2048x16 : 0 < S2048x16.numel
  shapeCasts_S16_S1x16 : S16.ShapeCasts S1x16
  shapeCasts_S2048x16_S2048x16 : S2048x16.ShapeCasts S2048x16
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x16 : S1024x1.Broadcasts S1024x16
  broadcasts_S2048x1_S2048x16 : S2048x1.Broadcasts S2048x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2048x16 : S1x16.Broadcasts S2048x16
  inb_S16x40_S16x40_0_0 : ∀ a, (![0, 0] : Fin 2 → Nat) a + S16x40.size a ≤ S16x40.size a
  h_S16x40 : 0 < S16x40.numel
  inb_S2048x40_S2048x40_0_0 : ∀ a, (![0, 0] : Fin 2 → Nat) a + S2048x40.size a ≤ S2048x40.size a
  h_S2048x40 : 0 < S2048x40.numel
  shapeCasts_S40_S1x40 : S40.ShapeCasts S1x40
  shapeCasts_S2048x40_S2048x40 : S2048x40.ShapeCasts S2048x40
  inb_S1024x40_S1024x40_0_0 : ∀ a, (![0, 0] : Fin 2 → Nat) a + S1024x40.size a ≤ S1024x40.size a
  h_S1024x40 : 0 < S1024x40.numel
  shapeCasts_S1024x40_S1024x40 : S1024x40.ShapeCasts S1024x40
  broadcasts_S1024x1_S1024x40 : S1024x1.Broadcasts S1024x40
  broadcasts_S2048x1_S2048x40 : S2048x1.Broadcasts S2048x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2048x40 : S1x40.Broadcasts S2048x40
  reduces_S2048x40_S2048 : S2048x40.Reduces [1] S2048
  dot_S2048x512_S512x16_S2048x16_1_0_0_1_n_n_wf : DotDims.WF S2048x512 S512x16 S2048x16 [1] [0] [0] [1] [] []
  dot_S2048x1024_S1024x16_S2048x16_1_0_0_1_n_n_wf : DotDims.WF S2048x1024 S1024x16 S2048x16 [1] [0] [0] [1] [] []
  dot_S2048x16_S16x40_S2048x40_1_0_0_1_n_n_wf : DotDims.WF S2048x16 S16x40 S2048x40 [1] [0] [0] [1] [] []
  dot_S2048x1024_S1024x40_S2048x40_1_0_0_1_n_n_wf : DotDims.WF S2048x1024 S1024x40 S2048x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S12288x12288.size a
  hwx0_0 : ∀ i : grid0.Coords, EltTy.bits .f32 = 32 ∨ (Rect.block (s := S12288x12288) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S12288x1.size a
  hwx0_1 : ∀ i : grid0.Coords, EltTy.bits .f32 = 32 ∨ (Rect.block (s := S12288x1) S2048x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S12288x512.size a
  hwx1_0 : ∀ i : grid1.Coords, EltTy.bits .f32 = 32 ∨ (Rect.block (s := S12288x512) S2048x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x16.size a ≤ S512x16.size a
  hwx1_1 : ∀ i : grid1.Coords, EltTy.bits .f32 = 32 ∨ (Rect.block (s := S512x16) S512x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x16.size a ≤ S12288x16.size a
  hwx1_2 : ∀ i : grid1.Coords, EltTy.bits .f32 = 32 ∨ (Rect.block (s := S12288x16) S2048x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1024.size a ≤ S12288x12288.size a
  hwx2_0 : ∀ i : grid2.Coords, EltTy.bits .f32 = 32 ∨ (Rect.block (s := S12288x12288) S2048x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x16.size a ≤ S12288x16.size a
  hwx2_1 : ∀ i : grid2.Coords, EltTy.bits .f32 = 32 ∨ (Rect.block (s := S12288x16) S1024x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S12288x1.size a
  hwx2_2 : ∀ i : grid2.Coords, EltTy.bits .f32 = 32 ∨ (Rect.block (s := S12288x1) S1024x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x16.size a ≤ S12288x16.size a
  hwx2_3 : ∀ i : grid2.Coords, EltTy.bits .f32 = 32 ∨ (Rect.block (s := S12288x16) S2048x16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2048x1.size a ≤ S12288x1.size a
  hwx2_4 : ∀ i : grid2.Coords, EltTy.bits .f32 = 32 ∨ (Rect.block (s := S12288x1) S2048x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x16.size a ≤ S1x16.size a
  hwx2_5 : ∀ i : grid2.Coords, EltTy.bits .f32 = 32 ∨ (Rect.block (s := S1x16) S1x16.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2048x16.size a ≤ S12288x16.size a
  hwx2_6 : ∀ i : grid2.Coords, EltTy.bits .f32 = 32 ∨ (Rect.block (s := S12288x16) S2048x16.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x16.size a ≤ S12288x16.size a
  hwx3_0 : ∀ i : grid3.Coords, EltTy.bits .f32 = 32 ∨ (Rect.block (s := S12288x16) S2048x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16x40.size a ≤ S16x40.size a
  hwx3_1 : ∀ i : grid3.Coords, EltTy.bits .f32 = 32 ∨ (Rect.block (s := S16x40) S16x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x40.size a ≤ S12288x40.size a
  hwx3_2 : ∀ i : grid3.Coords, EltTy.bits .f32 = 32 ∨ (Rect.block (s := S12288x40) S2048x40.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x1024.size a ≤ S12288x12288.size a
  hwx4_0 : ∀ i : grid4.Coords, EltTy.bits .f32 = 32 ∨ (Rect.block (s := S12288x12288) S2048x1024.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x40.size a ≤ S12288x40.size a
  hwx4_1 : ∀ i : grid4.Coords, EltTy.bits .f32 = 32 ∨ (Rect.block (s := S12288x40) S1024x40.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x1.size a ≤ S12288x1.size a
  hwx4_2 : ∀ i : grid4.Coords, EltTy.bits .f32 = 32 ∨ (Rect.block (s := S12288x1) S1024x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2048x40.size a ≤ S12288x40.size a
  hwx4_3 : ∀ i : grid4.Coords, EltTy.bits .f32 = 32 ∨ (Rect.block (s := S12288x40) S2048x40.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2048x1.size a ≤ S12288x1.size a
  hwx4_4 : ∀ i : grid4.Coords, EltTy.bits .f32 = 32 ∨ (Rect.block (s := S12288x1) S2048x1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x40.size a ≤ S1x40.size a
  hwx4_5 : ∀ i : grid4.Coords, EltTy.bits .f32 = 32 ∨ (Rect.block (s := S1x40) S1x40.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2048x40.size a ≤ S12288x40.size a
  hwx4_6 : ∀ i : grid4.Coords, EltTy.bits .f32 = 32 ∨ (Rect.block (s := S12288x40) S2048x40.size (cc4_transform_6 i) (hinb4_6 i)).WholeWords (EltTy.packing .f32)

variable [Facts₀]

def dot_S2048x512_S512x16_S2048x16_1_0_0_1_n_n : DotDims S2048x512 S512x16 S2048x16 where
  lhsContracting := [1]
  rhsContracting := [0]
  lhsNonContracting := [0]
  rhsNonContracting := [1]
  lhsBatch := []
  rhsBatch := []
  wf := dot_S2048x512_S512x16_S2048x16_1_0_0_1_n_n_wf
def dot_S2048x1024_S1024x16_S2048x16_1_0_0_1_n_n : DotDims S2048x1024 S1024x16 S2048x16 where
  lhsContracting := [1]
  rhsContracting := [0]
  lhsNonContracting := [0]
  rhsNonContracting := [1]
  lhsBatch := []
  rhsBatch := []
  wf := dot_S2048x1024_S1024x16_S2048x16_1_0_0_1_n_n_wf
def dot_S2048x16_S16x40_S2048x40_1_0_0_1_n_n : DotDims S2048x16 S16x40 S2048x40 where
  lhsContracting := [1]
  rhsContracting := [0]
  lhsNonContracting := [0]
  rhsNonContracting := [1]
  lhsBatch := []
  rhsBatch := []
  wf := dot_S2048x16_S16x40_S2048x40_1_0_0_1_n_n_wf
def dot_S2048x1024_S1024x40_S2048x40_1_0_0_1_n_n : DotDims S2048x1024 S1024x40 S2048x40 where
  lhsContracting := [1]
  rhsContracting := [0]
  lhsNonContracting := [0]
  rhsNonContracting := [1]
  lhsBatch := []
  rhsBatch := []
  wf := dot_S2048x1024_S1024x40_S2048x40_1_0_0_1_n_n_wf

abbrev win0_0 : Pipeline.Window sig grid0 :=
  Pipeline.Window.ofSpec (Memref.whole main_arg1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg0) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S512x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S2048x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg1) S2048x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1024x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v0) S1024x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v1) S2048x16.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v0) S2048x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v2) S1x16.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v3) S2048x16.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond2 i == 1#1) | ⟨_ + 7, h⟩ => absurd h (Nat.not_lt.2 (Nat.le_add_left _ _))

abbrev win3_0 : Pipeline.Window sig grid3 :=
  Pipeline.Window.ofSpec (Memref.whole main_v3) S2048x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S16x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v4) S2048x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_arg1) S2048x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v4) S1024x40.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v0) S1024x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v4) S2048x40.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v0) S2048x1.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v5) S1x40.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v6) S2048x40.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev idle4 : Fin 7 → grid4.Coords → Bool := fun | 0 => fun _ => false | 1 => fun _ => false | 2 => fun _ => false | 3 => fun _ => false | 4 => fun _ => false | 5 => fun _ => false | 6 => fun i => !(k4_cond2 i == 1#1) | ⟨_ + 7, h⟩ => absurd h (Nat.not_lt.2 (Nat.le_add_left _ _))

class Facts : Prop extends Facts₀ where

variable [Facts]
-- ==== ReferenceIdeal.lean ====
abbrev S12288x512 : Shape := ⟨2, ![12288, 512]⟩
abbrev S12288x12288 : Shape := ⟨2, ![12288, 12288]⟩
abbrev S512x16 : Shape := ⟨2, ![512, 16]⟩
abbrev S16 : Shape := ⟨1, ![16]⟩
abbrev S16x40 : Shape := ⟨2, ![16, 40]⟩
abbrev S40 : Shape := ⟨1, ![40]⟩
abbrev S_ : Shape := ⟨0, ![]⟩
abbrev S12288 : Shape := ⟨1, ![12288]⟩
abbrev S12288x1 : Shape := ⟨2, ![12288, 1]⟩
abbrev S1x12288 : Shape := ⟨2, ![1, 12288]⟩
abbrev S12288x16 : Shape := ⟨2, ![12288, 16]⟩
abbrev S1x16 : Shape := ⟨2, ![1, 16]⟩
abbrev S12288x40 : Shape := ⟨2, ![12288, 40]⟩
abbrev S1x40 : Shape := ⟨2, ![1, 40]⟩

abbrev nBuf : Space → Nat
  | .hbm => 51
  | .vmem => 0
  | .smem => 0
  | _ => 0

abbrev bufTy : (tb : Table) → Fin (tcTables nBuf tb) → BufTy
  | .hbm, ⟨0, _⟩ => ⟨S12288x512, .f32⟩
  | .hbm, ⟨1, _⟩ => ⟨S12288x12288, .f32⟩
  | .hbm, ⟨2, _⟩ => ⟨S512x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S12288x12288, .i32⟩
  | .hbm, ⟨7, _⟩ => ⟨S12288x12288, .i32⟩
  | .hbm, ⟨8, _⟩ => ⟨S_, .i32⟩
  | .hbm, ⟨9, _⟩ => ⟨S12288x12288, .i32⟩
  | .hbm, ⟨10, _⟩ => ⟨S12288x12288, .i32⟩
  | .hbm, ⟨11, _⟩ => ⟨S12288x12288, .i1⟩
  | .hbm, ⟨12, _⟩ => ⟨S12288x12288, .f32⟩
  | .hbm, ⟨13, _⟩ => ⟨S12288x12288, .f32⟩
  | .hbm, ⟨14, _⟩ => ⟨S_, .f32⟩
  | .hbm, ⟨15, _⟩ => ⟨S12288, .f32⟩
  | .hbm, ⟨16, _⟩ => ⟨S12288, .f32⟩
  | .hbm, ⟨17, _⟩ => ⟨S12288x1, .f32⟩
  | .hbm, ⟨18, _⟩ => ⟨S12288x12288, .f32⟩
  | .hbm, ⟨19, _⟩ => ⟨S12288x12288, .f32⟩
  | .hbm, ⟨20, _⟩ => ⟨S1x12288, .f32⟩
  | .hbm, ⟨21, _⟩ => ⟨S12288x12288, .f32⟩
  | .hbm, ⟨22, _⟩ => ⟨S12288x12288, .f32⟩
  | .hbm, ⟨23, _⟩ => ⟨S12288x16, .f32⟩
  | .hbm, ⟨24, _⟩ => ⟨S12288x16, .f32⟩
  | .hbm, ⟨25, _⟩ => ⟨S1x16, .f32⟩
  | .hbm, ⟨26, _⟩ => ⟨S12288x16, .f32⟩
  | .hbm, ⟨27, _⟩ => ⟨S12288x16, .f32⟩
  | .hbm, ⟨28, _⟩ => ⟨S_, .f32⟩
  | .hbm, ⟨29, _⟩ => ⟨S12288x16, .f32⟩
  | .hbm, ⟨30, _⟩ => ⟨S12288x16, .f32⟩
  | .hbm, ⟨31, _⟩ => ⟨S12288x40, .f32⟩
  | .hbm, ⟨32, _⟩ => ⟨S12288x40, .f32⟩
  | .hbm, ⟨33, _⟩ => ⟨S1x40, .f32⟩
  | .hbm, ⟨34, _⟩ => ⟨S12288x40, .f32⟩
  | .hbm, ⟨35, _⟩ => ⟨S12288x40, .f32⟩
  | .hbm, ⟨36, _⟩ => ⟨S_, .f32⟩
  | .hbm, ⟨37, _⟩ => ⟨S12288, .f32⟩
  | .hbm, ⟨38, _⟩ => ⟨S_, .f32⟩
  | .hbm, ⟨39, _⟩ => ⟨S12288, .f32⟩
  | .hbm, ⟨40, _⟩ => ⟨S12288, .f32⟩
  | .hbm, ⟨41, _⟩ => ⟨S12288x1, .f32⟩
  | .hbm, ⟨42, _⟩ => ⟨S12288x40, .f32⟩
  | .hbm, ⟨43, _⟩ => ⟨S12288x40, .f32⟩
  | .hbm, ⟨44, _⟩ => ⟨S12288x40, .f32⟩
  | .hbm, ⟨45, _⟩ => ⟨S_, .f32⟩
  | .hbm, ⟨46, _⟩ => ⟨S12288, .f32⟩
  | .hbm, ⟨47, _⟩ => ⟨S12288x1, .f32⟩
  | .hbm, ⟨48, _⟩ => ⟨S12288x1, .f32⟩
  | .hbm, ⟨49, _⟩ => ⟨S12288x40, .f32⟩
  | .hbm, ⟨50, _⟩ => ⟨S12288x40, .f32⟩
  | _, _ => ⟨S12288x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_cst : Ref sig .tc := ⟨.hbm, 28, rfl⟩
abbrev main_call0_v0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call1_cst : Ref sig .tc := ⟨.hbm, 36, rfl⟩
abbrev main_call1_v0 : Ref sig .tc := ⟨.hbm, 37, rfl⟩
abbrev main_call1_cst_0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_cst_1 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_v26 : Ref sig .tc := ⟨.hbm, 50, rfl⟩

abbrev nD : Nat := 1
abbrev τ : Topo := Topo.v7x

variable {F : FTy → Type} [FloatOps F]

class Facts₀ : Prop where
  bcast_S_S12288x12288 : S_.BroadcastsInDim S12288x12288 (![] : Fin 0 → Fin S12288x12288.rank)
  reducesTo_S12288x12288_S12288_d1 : S12288x12288.ReducesTo [1] S12288
  h_S_ : 0 < S_.numel
  bcast_S12288_S12288x1_0 : S12288.BroadcastsInDim S12288x1 (![0] : Fin 1 → Fin S12288x1.rank)
  bcast_S12288x1_S12288x12288_0_1 : S12288x1.BroadcastsInDim S12288x12288 (![0, 1] : Fin 2 → Fin S12288x12288.rank)
  bcast_S12288_S1x12288_1 : S12288.BroadcastsInDim S1x12288 (![1] : Fin 1 → Fin S1x12288.rank)
  bcast_S1x12288_S12288x12288_0_1 : S1x12288.BroadcastsInDim S12288x12288 (![0, 1] : Fin 2 → Fin S12288x12288.rank)
  bcast_S16_S1x16_1 : S16.BroadcastsInDim S1x16 (![1] : Fin 1 → Fin S1x16.rank)
  bcast_S1x16_S12288x16_0_1 : S1x16.BroadcastsInDim S12288x16 (![0, 1] : Fin 2 → Fin S12288x16.rank)
  bcast_S_S12288x16 : S_.BroadcastsInDim S12288x16 (![] : Fin 0 → Fin S12288x16.rank)
  bcast_S40_S1x40_1 : S40.BroadcastsInDim S1x40 (![1] : Fin 1 → Fin S1x40.rank)
  bcast_S1x40_S12288x40_0_1 : S1x40.BroadcastsInDim S12288x40 (![0, 1] : Fin 2 → Fin S12288x40.rank)
  reducesTo_S12288x40_S12288_d1 : S12288x40.ReducesTo [1] S12288
  bcast_S_S12288 : S_.BroadcastsInDim S12288 (![] : Fin 0 → Fin S12288.rank)
  bcast_S12288x1_S12288x40_0_1 : S12288x1.BroadcastsInDim S12288x40 (![0, 1] : Fin 2 → Fin S12288x40.rank)
  dot_S12288x512_S512x16_S12288x16_1_0_0_1_n_n_wf : DotDims.WF S12288x512 S512x16 S12288x16 [1] [0] [0] [1] [] []
  dot_S12288x12288_S12288x16_S12288x16_1_0_0_1_n_n_wf : DotDims.WF S12288x12288 S12288x16 S12288x16 [1] [0] [0] [1] [] []
  dot_S12288x16_S16x40_S12288x40_1_0_0_1_n_n_wf : DotDims.WF S12288x16 S16x40 S12288x40 [1] [0] [0] [1] [] []
  dot_S12288x12288_S12288x40_S12288x40_1_0_0_1_n_n_wf : DotDims.WF S12288x12288 S12288x40 S12288x40 [1] [0] [0] [1] [] []

variable [Facts₀]

def dot_S12288x512_S512x16_S12288x16_1_0_0_1_n_n : DotDims S12288x512 S512x16 S12288x16 where
  lhsContracting := [1]
  rhsContracting := [0]
  lhsNonContracting := [0]
  rhsNonContracting := [1]
  lhsBatch := []
  rhsBatch := []
  wf := dot_S12288x512_S512x16_S12288x16_1_0_0_1_n_n_wf
def dot_S12288x12288_S12288x16_S12288x16_1_0_0_1_n_n : DotDims S12288x12288 S12288x16 S12288x16 where
  lhsContracting := [1]
  rhsContracting := [0]
  lhsNonContracting := [0]
  rhsNonContracting := [1]
  lhsBatch := []
  rhsBatch := []
  wf := dot_S12288x12288_S12288x16_S12288x16_1_0_0_1_n_n_wf
def dot_S12288x16_S16x40_S12288x40_1_0_0_1_n_n : DotDims S12288x16 S16x40 S12288x40 where
  lhsContracting := [1]
  rhsContracting := [0]
  lhsNonContracting := [0]
  rhsNonContracting := [1]
  lhsBatch := []
  rhsBatch := []
  wf := dot_S12288x16_S16x40_S12288x40_1_0_0_1_n_n_wf
def dot_S12288x12288_S12288x40_S12288x40_1_0_0_1_n_n : DotDims S12288x12288 S12288x40 S12288x40 where
  lhsContracting := [1]
  rhsContracting := [0]
  lhsNonContracting := [0]
  rhsNonContracting := [1]
  lhsBatch := []
  rhsBatch := []
  wf := dot_S12288x12288_S12288x40_S12288x40_1_0_0_1_n_n_wf

class Facts : Prop extends Facts₀ where

variable [Facts]
-- ==== Proof.KReg0Runs.lean ====
import proofs.«103262_j55946243997874_1_alg».proof.Proof.Gen.Kernel.Launch
import proofs.«103262_j55946243997874_1_alg».proof.Proof.Gen.Kernel.Skeleton
import proofs.«103262_j55946243997874_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 12 = 0 :=
  (by decide +kernel : ∀ t : Fin grid0.N, cond0_0 (grid0.coords t) ↔ t.val % 12 = 0)

abbrev cond0_1 (i : grid0.Coords) : Prop := k0_cond2 i = 1#1
theorem hcond0_1 : ∀ t : Fin cfg0.N, cond0_1 (grid0.coords t) ↔ t.val % 12 = 11 :=
  (by decide +kernel : ∀ t : Fin grid0.N, cond0_1 (grid0.coords t) ↔ t.val % 12 = 11)

theorem liveAt0_0 : ∀ t : Fin cfg0.N, cfg0.idle 0 (grid0.coords t) = false := by decide +kernel
theorem idle0_1 : ∀ t : Fin cfg0.N, ¬t.val % 12 = 11 → cfg0.idle 1 (grid0.coords t) = true := by decide +kernel
theorem live0_1 : ∀ t : Fin cfg0.N, t.val % 12 = 11 → cfg0.idle 1 (grid0.coords t) = false := by decide +kernel

abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1 .f32 := win0_1.stage (cfg0.slots t 1)
abbrev hs0_1 (t : Fin cfg0.N) : (ms0_1 t).IsWhole := hstage0_1 ((cfg0.slots t 1).cast nbuf0_1)
abbrev scM0_0 : Memref sig .tc .vmem S2048x1 .f32 := Memref.whole cc0_scratch0
abbrev VS0_0 : View sig .tc .vmem S2048x1 .f32 := scM0_0.view

theorem PhiA0_eq (c : Dev nD) :
    (Pipeline.ΦA spec0 c : sProp 𝕄)
      = iprop(iprop(iprop((∃ d, owns (c : Thread nD τ) scM0_0 fullShare d)) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

variable (c : Dev nD) (i : grid0.Coords) (arg2 : Memref sig .tc .vmem S2048x1024 .f32) (harg2 : arg2.IsWhole) (arg3 : Memref sig .tc .vmem S2048x1 .f32) (harg3 : arg3.IsWhole) (arg4 : Memref sig .tc .vmem S2048x1 .f32) (harg4 : arg4.IsWhole)

set_option maxHeartbeats 1000000 in
noncomputable def kernelRun0_A (hc0 : cond0_0 i) (hc1 : ¬cond0_1 i)
    (x0 : Vec F S2048x1024 .f32) :
    { LS0 : List (View.Piece (Elt F) S2048x1 .f32) //
      ∀ (xi1 : Vec F S2048x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨?_, fun xi1 E K => ?run⟩
  case run =>
    simp only [cc0__degree_kernel_eq_skeleton]; unfold cc0__degree_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
noncomputable def kernelRun0_B (hc0 : ¬cond0_0 i) (hc1 : ¬cond0_1 i)
    (x0 : Vec F S2048x1024 .f32) (xs0 : Vec F S2048x1 .f32) :
    { LS0 : List (View.Piece (Elt F) S2048x1 .f32) //
      ∀ (xi1 : Vec F S2048x1 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨?_, fun xi1 E K => ?run⟩
  case run =>
    simp only [cc0__degree_kernel_eq_skeleton]; unfold cc0__degree_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
noncomputable def kernelRun0_C (hc0 : ¬cond0_0 i) (hc1 : cond0_1 i)
    (x0 : Vec F S2048x1024 .f32) (xs0 : Vec F S2048x1 .f32) :
    Σ' (L1 : List (View.Piece (Elt F) S2048x1 .f32)), { LS0 : List (View.Piece (Elt F) S2048x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨?_, ?_, fun E K => ?run⟩
  case run =>
    simp only [cc0__degree_kernel_eq_skeleton]; unfold cc0__degree_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.Kernel.Hand

end
-- ==== Proof.KReg0.lean ====
import proofs.«103262_j55946243997874_1_alg».proof.Proof.KReg0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def runA0 (c : Dev nD) (t : Fin cfg0.N) (h0 : t.val % 12 = 0) :=
  kernelRun0_A (F := F) c (grid0.coords t) (ms0_0 t) (hs0_0 t) (ms0_1 t) (hs0_1 t) scM0_0 (Memref.isWhole_whole _) ((hcond0_0 t).mpr h0) (fun h => by have := (hcond0_1 t).mp h; omega) (iblk0 V c 0 t)

def runB0 (c : Dev nD) (t : Fin cfg0.N) (h0 : ¬t.val % 12 = 0) (h1 : ¬t.val % 12 = 11) (xs : Vec F S2048x1 .f32) :=
  kernelRun0_B (F := F) c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) xs

def runC0 (c : Dev nD) (t : Fin cfg0.N) (h1 : t.val % 12 = 11) (xs : Vec F S2048x1 .f32) :=
  kernelRun0_C (F := F) c (grid0.coords t) (ms0_0 t) (hs0_0 t) (ms0_1 t) (hs0_1 t) scM0_0 (Memref.isWhole_whole _) (fun h => by have := (hcond0_0 t).mp h; omega) ((hcond0_1 t).mpr h1) (iblk0 V c 0 t) xs

-- What a list of stores leaves in a block of the accumulator's shape.
abbrev left0 (L : List (View.Piece (Elt F) S2048x1 .f32)) : Vec F S2048x1 .f32 :=
  VS0_0.read (Elt F) (VS0_0.writes (Elt F) VS0_0.junk L)

def accAt0 (c : Dev nD) : (n : ℕ) → n < cfg0.N → Vec F S2048x1 .f32
  | 0, hn => left0 (runA0 V c ⟨0, hn⟩ (Nat.zero_mod _)).1
  | n + 1, hn =>
    if h1 : (n + 1) % 12 = 11 then left0 (runC0 V c ⟨n + 1, hn⟩ h1 (accAt0 c n (Nat.lt_of_succ_lt hn))).2.1
    else if h0 : (n + 1) % 12 = 0 then left0 (runA0 V c ⟨n + 1, hn⟩ h0).1
    else left0 (runB0 V c ⟨n + 1, hn⟩ h0 h1 (accAt0 c n (Nat.lt_of_succ_lt hn))).1

abbrev prev0 (c : Dev nD) (t : Fin cfg0.N) : Vec F S2048x1 .f32 :=
  accAt0 V c (t.val - 1) (Nat.lt_of_le_of_lt (Nat.sub_le _ _) t.isLt)

theorem accAt0_A (c : Dev nD) (t : Fin cfg0.N) (h0 : t.val % 12 = 0) :
    accAt0 V c t.val t.isLt = left0 (runA0 V c t h0).1 := by
  obtain ⟨_ | n, hn⟩ := t
  · rfl
  · exact (dif_neg fun h => by have : (n + 1) % 12 = 0 := h0; omega).trans (dif_pos h0)

theorem accAt0_B (c : Dev nD) (t : Fin cfg0.N) (h0 : ¬t.val % 12 = 0) (h1 : ¬t.val % 12 = 11) :
    accAt0 V c t.val t.isLt = left0 (runB0 V c t h0 h1 (prev0 V c t)).1 := by
  obtain ⟨_ | n, hn⟩ := t
  · exact absurd (Nat.zero_mod _) h0
  · exact (dif_neg h1).trans (dif_neg h0)

theorem accAt0_C (c : Dev nD) (t : Fin cfg0.N) (h1 : t.val % 12 = 11) :
    accAt0 V c t.val t.isLt = left0 (runC0 V c t h1 (prev0 V c t)).2.1 := by
  obtain ⟨_ | n, hn⟩ := t
  · exact absurd h1 (by decide : ¬0 % 12 = 11)
  · exact dif_pos h1

abbrev inv0 (c : Dev nD) (x : Vec F S2048x1 .f32) : sProp 𝕄 :=
  iprop(iprop(owns (c : Thread nD τ) scM0_0 fullShare x ∗ Pipeline.scopedRestBut (Ix := Unit) (Name := ℕ) (U := UR sig nD τ) (Lvl := ℕ) (Val := Elt F) spec0 c [cc0_scratch0]) ∗ (∃ r, prngReg c r))

def PhiS0 (c : Dev nD) : (n : ℕ) → n ≤ cfg0.N → sProp 𝕄
  | 0, _ => Pipeline.ΦA spec0 c
  | n + 1, hn => inv0 c (accAt0 V c n hn)

-- Forgetting the accumulator's contents gives the entry invariant back.
theorem PhiS0_forget (c : Dev nD) : ∀ (n : ℕ) (h : n ≤ cfg0.N), PhiS0 V c n h ⊢ Pipeline.ΦA spec0 c
  | 0, _ => .rfl
  | n + 1, h => by
    rw [PhiA0_eq]; change inv0 c _ ⊢ _
    iintro ⟨⟨HS0, HR⟩, Hg⟩
    iframe HR Hg
    iexists _; iexact HS0

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => if h1 : t.val % 12 = 11 then left0 (runC0 V c t h1 (prev0 V c t)).1 else accAt0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := rfl

theorem Phi0_pos (c : Dev nD) (t : Fin cfg0.N) (hz : t.val ≠ 0) : (dat0 V c).Φ t.castSucc = inv0 c (prev0 V c t) := by
  obtain ⟨_ | n, hn⟩ := t
  · exact absurd rfl hz
  · rfl

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d

theorem sound_body0 (c : Dev nD) (t : Fin cfg0.N) :
    iprop((dat0 V c).Φ t.castSucc ∗ (dat0 V c).owesAt () t.castSucc
        ∗ (∃ d, owns (c : Thread nD τ) (ms0_0 t) fullShare ((dat0 V c).before 0 t d))
        ∗ (∃ d, owns (c : Thread nD τ) (ms0_1 t) fullShare ((dat0 V c).before 1 t d)))
      ⊢ wp frame (wpE (defs₀ (F := F)) Variants.none c none) Set.univ (bodyAt0 t) (fun _ =>
          iprop((dat0 V c).Φ t.succ ∗ (dat0 V c).owesAt () t.succ ∗ (dat0 V c).leavesExact 0 t ∗ (dat0 V c).leavesExact 1 t)) := by
  simp only [before0_0]
  rw [show (dat0 V c).owesAt () t.succ = (dat0 V c).owesAt () t.castSucc from rfl,
    show (dat0 V c).Φ t.succ = inv0 c (accAt0 V c t.val t.isLt) from rfl,
    show (dat0 V c).leavesExact 0 t = owns (c : Thread nD τ) (ms0_0 t) fullShare (iblk0 V c 0 t) from by
      unfold Dat.leavesExact; rw [liveAt0_0 t]; rfl]
  unfold inv0
  have hN : t.val < 72 := lt_of_lt_of_eq t.isLt (show cfg0.N = 72 from N_0)
  by_cases h1 : t.val % 12 = 11
  · rw [show (dat0 V c).leavesExact 1 t = owns (c : Thread nD τ) (ms0_1 t) fullShare ((dat0 V c).after 1 t) from by
        unfold Dat.leavesExact; rw [live0_1 t h1],
      show (dat0 V c).after 1 t = left0 (runC0 V c t h1 (prev0 V c t)).1 from dif_pos h1, accAt0_C V c t h1, Phi0_pos V c t (by omega)]
    iintro ⟨⟨⟨HS0, HR⟩, Hg⟩, Ho, ⟨%d0, H0⟩, ⟨%d1, H1⟩⟩
    iapply ((runC0 V c t h1 (prev0 V c t)).2.2 Set.univ _)
    iframe H0 HS0
    isplitl [H1]; · iexists _; iexact H1
    iintro ⟨H0, ⟨%e1, H1⟩, ⟨%es0, HS0⟩⟩
    iframe HR Hg Ho H0
    isplitl [HS0]
    · ihave H' := (Ring.owns_of_writes_tiledL VS0_0 S2048x1.size) $$ HS0; iapply H'; ipureintro; sl_kernel_rfl
    ihave H' := (Ring.owns_of_writes_tiledL VS0_0 S2048x1.size) $$ H1; iapply H'; ipureintro; sl_kernel_rfl
  · rw [Dat.leavesExact_idle (dat0 V c) 1 t (idle0_1 t h1) (Bool.eq_false_iff.mpr fun h => h1 ((flush0_1 t).mp h))]
    by_cases h0 : t.val % 12 = 0
    on_goal 1 =>
      rw [accAt0_A V c t h0]
      refine (sep_mono_left (PhiS0_forget V c t.val (Nat.le_of_lt t.isLt))).trans ?_
      rw [PhiA0_eq]
      iintro ⟨⟨⟨HS0, HR⟩, Hg⟩, Ho, ⟨%d0, H0⟩, ⟨%d1, H1⟩⟩
      iapply ((runA0 V c t h0).2 ((dat0 V c).before 1 t d1) Set.univ _)
    on_goal 2 =>
      rw [accAt0_B V c t h0 h1, Phi0_pos V c t (by omega)]
      iintro ⟨⟨⟨HS0, HR⟩, Hg⟩, Ho, ⟨%d0, H0⟩, ⟨%d1, H1⟩⟩
      iapply ((runB0 V c t h0 h1 (prev0 V c t)).2 ((dat0 V c).before 1 t d1) Set.univ _)
    all_goals
      iframe H0 H1 HS0
      iintro ⟨H0, H1, ⟨%es0, HS0⟩⟩
      iframe HR Hg Ho H0
      isplitl [HS0]
      · ihave H' := (Ring.owns_of_writes_tiledL VS0_0 S2048x1.size) $$ HS0; iapply H'; ipureintro; sl_kernel_rfl
      iexists _; iexact H1

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := .rfl

theorem hout0 (c : Dev nD) : (dat0 V c).Φ (Fin.last cfg0.N) ⊢ Pipeline.ΦA spec0 c := PhiS0_forget V c cfg0.N (Nat.le_refl _)

end Cert.Kernel.Hand

end
-- ==== Proof.KReg1.lean ====
import proofs.«103262_j55946243997874_1_alg».proof.Proof.Gen.Kernel.Launch
import proofs.«103262_j55946243997874_1_alg».proof.Proof.Gen.Kernel.Skeleton
import proofs.«103262_j55946243997874_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

set_option maxHeartbeats 4000000 in
theorem sound_kernel1 (c : Dev nD) (E : Set ℕ) (i : grid1.Coords)
    (arg1 : Memref sig .tc .vmem S2048x512 .f32) (harg1 : arg1.IsWhole) (arg2 : Memref sig .tc .vmem S512x16 .f32) (harg2 : arg2.IsWhole)
    (arg3 : Memref sig .tc .vmem S2048x16 .f32) (harg3 : arg3.IsWhole)
    (x0 : Vec F S2048x512 .f32) (x1 : Vec F S512x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (k1_pay1 x0 x1)) -∗ K ⟨⟩))
      ⊢ wp frame (wpE (defs₀ (F := F)) Variants.none c none) E (cc1__dense_matmul_kernel i arg1 harg1 arg2 harg2 arg3 harg3) K := by
  simp only [cc1__dense_matmul_kernel_eq_skeleton]; unfold cc1__dense_matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  have hz : (![0, 0] : Fin 2 → Nat) = fun _ => 0 := funext fun a => by fin_cases a <;> rfl
  refine (View.read_writes_eq_canon _ _ _ (View.cover_of_tiled _ S2048x16.size (by rfl))).trans ?_
  rw [View.canon_unit_zero hz]
  exact congrArg₂ k1_pay1 (View.ld_unit_zero (S := S2048x512) hz _ _) (View.ld_unit_zero (S := S512x16) hz _ _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := rfl

theorem after1_2 (c : Dev nD) (t : Fin cfg1.N) :
    (dat1 V c).after 2 t = k1_pay1 (iblk1 V c 0 t) (iblk1 V c 1 t) := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d

theorem sound_body1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d)))
      ⊢ wp frame (wpE (defs₀ (F := F)) Variants.none c none) Set.univ (bodyAt1 t) (fun _ =>
          iprop((dat1 V c).Φ t.succ ∗ (dat1 V c).owesAt () t.succ
            ∗ owns (c : Thread nD τ) (st1_0 t) fullShare ((dat1 V c).after 0 t)
            ∗ owns (c : Thread nD τ) (st1_1 t) fullShare ((dat1 V c).after 1 t)
            ∗ owns (c : Thread nD τ) (st1_2 t) fullShare ((dat1 V c).after 2 t))) := by
  simp only [before1_0, before1_1]
  dsimp only [dat1]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  iframe H0 H1
  isplitl [H2]; · iexists _; iexact H2
  iintro ⟨H0, H1, H2⟩
  iframe HΦ H0 H1 H2
  iexact Ho

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KReg2RunA.lean ====
import proofs.«103262_j55946243997874_1_alg».proof.Proof.Gen.Kernel.Launch
import proofs.«103262_j55946243997874_1_alg».proof.Proof.Gen.Kernel.Skeleton
import proofs.«103262_j55946243997874_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 12 = 0 :=
  (by decide +kernel : ∀ t : Fin grid2.N, cond2_0 (grid2.coords t) ↔ t.val % 12 = 0)

abbrev cond2_1 (i : grid2.Coords) : Prop := k2_cond2 i = 1#1
theorem hcond2_1 : ∀ t : Fin cfg2.N, cond2_1 (grid2.coords t) ↔ t.val % 12 = 11 :=
  (by decide +kernel : ∀ t : Fin grid2.N, cond2_1 (grid2.coords t) ↔ t.val % 12 = 11)

theorem live2 : ∀ (t : Fin cfg2.N) (w : Fin cfg2.W), w.val < 6 → cfg2.idle w (grid2.coords t) = false := by decide +kernel
theorem idle2_6 : ∀ t : Fin cfg2.N, ¬t.val % 12 = 11 → cfg2.idle 6 (grid2.coords t) = true := by decide +kernel
theorem live2_6 : ∀ t : Fin cfg2.N, t.val % 12 = 11 → cfg2.idle 6 (grid2.coords t) = false := by decide +kernel

abbrev ms2_0 (t : Fin cfg2.N) : Memref sig .tc .vmem S2048x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x16 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x16 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S2048x1 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x16 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S2048x16 .f32 := win2_6.stage (cfg2.slots t 6)
abbrev hs2_6 (t : Fin cfg2.N) : (ms2_6 t).IsWhole := hstage2_6 ((cfg2.slots t 6).cast nbuf2_6)
abbrev scM2 : Memref sig .tc .vmem S2048x16 .f32 := Memref.whole cc2_scratch0
abbrev VS2 : View sig .tc .vmem S2048x16 .f32 := scM2.view
-- What a list of stores leaves in a block of the accumulator's shape.
abbrev left2 (L : List (View.Piece (Elt F) S2048x16 .f32)) : Vec F S2048x16 .f32 :=
  VS2.read (Elt F) (VS2.writes (Elt F) VS2.junk L)

theorem PhiA2_eq (c : Dev nD) :
    (Pipeline.ΦA spec2 c : sProp 𝕄)
      = iprop(iprop(iprop((∃ d, owns (c : Thread nD τ) scM2 fullShare d)) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

-- A whole buffer still at the contents it was handed at reads them back.
theorem keep2 {s : Shape} (c : Dev nD) (m : Memref sig .tc .vmem s .f32) (h : m.IsWhole) (x : Vec F s .f32) :
    (m.view.loc (c : Thread nD τ) ↦[m.view.set]{fullShare} h.unread x : sProp 𝕄)
      ⊢ iprop(∃ f, ⌜m.view.read (Elt F) f = x⌝ ∗ (m.view.loc (c : Thread nD τ) ↦[m.view.set]{fullShare} f)) := by
  iintro H; iexists _; isplitr; · ipureintro; exact h.read_unread _
  iexact H

set_option maxHeartbeats 4000000 in
noncomputable def kernelRun2_A (c : Dev nD) (i : grid2.Coords) (arg2 : Memref sig .tc .vmem S2048x1024 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S2048x16 .f32) (harg5 : arg5.IsWhole) (arg6 : Memref sig .tc .vmem S2048x1 .f32) (harg6 : arg6.IsWhole) (arg7 : Memref sig .tc .vmem S1x16 .f32) (harg7 : arg7.IsWhole) (arg8 : Memref sig .tc .vmem S2048x16 .f32) (harg8 : arg8.IsWhole) (arg9 : Memref sig .tc .vmem S2048x16 .f32) (harg9 : arg9.IsWhole) (hc0 : cond2_0 i) (hc1 : ¬cond2_1 i)
    (x0 : Vec F S2048x1024 .f32) (x1 : Vec F S1024x16 .f32) (x2 : Vec F S1024x1 .f32) (x3 : Vec F S2048x16 .f32) (x4 : Vec F S2048x1 .f32) (x5 : Vec F S1x16 .f32) :
    { LS0 : List (View.Piece (Elt F) S2048x16 .f32) //
      ∀ (xi6 : Vec F S2048x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc2_kernel i arg2 harg2 arg3 harg3 arg4 harg4 arg5 harg5 arg6 harg6 arg7 harg7 arg8 harg8 arg9 harg9) K } := by
  refine ⟨?_, fun xi6 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    sl_exec (disch := first | exact hc0 | exact hc1)
    sl_step
    iapply Hk
    isplitl [H0]; · iapply keep2 c arg2 harg2 x0; iexact H0
    isplitl [H1]; · iapply keep2 c arg3 harg3 x1; iexact H1
    isplitl [H2]; · iapply keep2 c arg4 harg4 x2; iexact H2
    isplitl [H3]; · iapply keep2 c arg5 harg5 x3; iexact H3
    isplitl [H4]; · iapply keep2 c arg6 harg6 x4; iexact H4
    isplitl [H5]; · iapply keep2 c arg7 harg7 x5; iexact H5
    isplitl [H6]; · iapply keep2 c arg8 harg8 xi6; iexact H6
    iexists _; iexact HS0

end Cert.Kernel.Hand

end
-- ==== Proof.KReg2RunB.lean ====
import proofs.«103262_j55946243997874_1_alg».proof.Proof.KReg2RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_B (c : Dev nD) (i : grid2.Coords) (arg2 : Memref sig .tc .vmem S2048x1024 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S2048x16 .f32) (harg5 : arg5.IsWhole) (arg6 : Memref sig .tc .vmem S2048x1 .f32) (harg6 : arg6.IsWhole) (arg7 : Memref sig .tc .vmem S1x16 .f32) (harg7 : arg7.IsWhole) (arg8 : Memref sig .tc .vmem S2048x16 .f32) (harg8 : arg8.IsWhole) (arg9 : Memref sig .tc .vmem S2048x16 .f32) (harg9 : arg9.IsWhole) (hc0 : ¬cond2_0 i) (hc1 : ¬cond2_1 i)
    (x0 : Vec F S2048x1024 .f32) (x1 : Vec F S1024x16 .f32) (x2 : Vec F S1024x1 .f32) (x3 : Vec F S2048x16 .f32) (x4 : Vec F S2048x1 .f32) (x5 : Vec F S1x16 .f32) (xs0 : Vec F S2048x16 .f32) :
    { LS0 : List (View.Piece (Elt F) S2048x16 .f32) //
      ∀ (xi6 : Vec F S2048x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc2_kernel i arg2 harg2 arg3 harg3 arg4 harg4 arg5 harg5 arg6 harg6 arg7 harg7 arg8 harg8 arg9 harg9) K } := by
  refine ⟨?_, fun xi6 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hfs0
    sl_exec (disch := first | exact hc0 | exact hc1)
    sl_step
    iapply Hk
    isplitl [H0]; · iapply keep2 c arg2 harg2 x0; iexact H0
    isplitl [H1]; · iapply keep2 c arg3 harg3 x1; iexact H1
    isplitl [H2]; · iapply keep2 c arg4 harg4 x2; iexact H2
    isplitl [H3]; · iapply keep2 c arg5 harg5 x3; iexact H3
    isplitl [H4]; · iapply keep2 c arg6 harg6 x4; iexact H4
    isplitl [H5]; · iapply keep2 c arg7 harg7 x5; iexact H5
    isplitl [H6]; · iapply keep2 c arg8 harg8 xi6; iexact H6
    iexists _; iexact HS0

end Cert.Kernel.Hand

end
-- ==== Proof.KReg2RunC.lean ====
import proofs.«103262_j55946243997874_1_alg».proof.Proof.KReg2RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_C (c : Dev nD) (i : grid2.Coords) (arg2 : Memref sig .tc .vmem S2048x1024 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S2048x16 .f32) (harg5 : arg5.IsWhole) (arg6 : Memref sig .tc .vmem S2048x1 .f32) (harg6 : arg6.IsWhole) (arg7 : Memref sig .tc .vmem S1x16 .f32) (harg7 : arg7.IsWhole) (arg8 : Memref sig .tc .vmem S2048x16 .f32) (harg8 : arg8.IsWhole) (arg9 : Memref sig .tc .vmem S2048x16 .f32) (harg9 : arg9.IsWhole) (hc0 : ¬cond2_0 i) (hc1 : cond2_1 i)
    (x0 : Vec F S2048x1024 .f32) (x1 : Vec F S1024x16 .f32) (x2 : Vec F S1024x1 .f32) (x3 : Vec F S2048x16 .f32) (x4 : Vec F S2048x1 .f32) (x5 : Vec F S1x16 .f32) (xs0 : Vec F S2048x16 .f32) :
    Σ' (L6 : List (View.Piece (Elt F) S2048x16 .f32)), { LS0 : List (View.Piece (Elt F) S2048x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc2_kernel i arg2 harg2 arg3 harg3 arg4 harg4 arg5 harg5 arg6 harg6 arg7 harg7 arg8 harg8 arg9 harg9) K } := by
  refine ⟨?_, ?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hfs0
    sl_exec (disch := first | exact hc0 | exact hc1)
    sl_step
    iapply Hk
    isplitl [H0]; · iapply keep2 c arg2 harg2 x0; iexact H0
    isplitl [H1]; · iapply keep2 c arg3 harg3 x1; iexact H1
    isplitl [H2]; · iapply keep2 c arg4 harg4 x2; iexact H2
    isplitl [H3]; · iapply keep2 c arg5 harg5 x3; iexact H3
    isplitl [H4]; · iapply keep2 c arg6 harg6 x4; iexact H4
    isplitl [H5]; · iapply keep2 c arg7 harg7 x5; iexact H5
    isplitl [H6]; · iexists _; iexact H6
    iexists _; iexact HS0

end Cert.Kernel.Hand

end
-- ==== Proof.KReg2.lean ====
import proofs.«103262_j55946243997874_1_alg».proof.Proof.KReg2RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def runA2 (c : Dev nD) (t : Fin cfg2.N) (h0 : t.val % 12 = 0) :=
  kernelRun2_A (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) ((hcond2_0 t).mpr h0) (fun h => by have := (hcond2_1 t).mp h; omega) (iblk2 V c 0 t) (iblk2 V c 1 t) (iblk2 V c 2 t) (iblk2 V c 3 t) (iblk2 V c 4 t) (iblk2 V c 5 t)

def runB2 (c : Dev nD) (t : Fin cfg2.N) (h0 : ¬t.val % 12 = 0) (h1 : ¬t.val % 12 = 11) (xs : Vec F S2048x16 .f32) :=
  kernelRun2_B (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) xs

def runC2 (c : Dev nD) (t : Fin cfg2.N) (h1 : t.val % 12 = 11) (xs : Vec F S2048x16 .f32) :=
  kernelRun2_C (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) (fun h => by have := (hcond2_0 t).mp h; omega) ((hcond2_1 t).mpr h1) (iblk2 V c 0 t) (iblk2 V c 1 t) (iblk2 V c 2 t) (iblk2 V c 3 t) (iblk2 V c 4 t) (iblk2 V c 5 t) xs

def accAt2 (c : Dev nD) : (n : ℕ) → n < cfg2.N → Vec F S2048x16 .f32
  | 0, hn => left2 (runA2 V c ⟨0, hn⟩ (Nat.zero_mod _)).1
  | n + 1, hn =>
    if h1 : (n + 1) % 12 = 11 then left2 (runC2 V c ⟨n + 1, hn⟩ h1 (accAt2 c n (Nat.lt_of_succ_lt hn))).2.1
    else if h0 : (n + 1) % 12 = 0 then left2 (runA2 V c ⟨n + 1, hn⟩ h0).1
    else left2 (runB2 V c ⟨n + 1, hn⟩ h0 h1 (accAt2 c n (Nat.lt_of_succ_lt hn))).1

abbrev prev2 (c : Dev nD) (t : Fin cfg2.N) : Vec F S2048x16 .f32 :=
  accAt2 V c (t.val - 1) (Nat.lt_of_le_of_lt (Nat.sub_le _ _) t.isLt)

theorem accAt2_A (c : Dev nD) (t : Fin cfg2.N) (h0 : t.val % 12 = 0) :
    accAt2 V c t.val t.isLt = left2 (runA2 V c t h0).1 := by
  obtain ⟨_ | n, hn⟩ := t
  · rfl
  · exact (dif_neg fun h => by have : (n + 1) % 12 = 0 := h0; omega).trans (dif_pos h0)

theorem accAt2_B (c : Dev nD) (t : Fin cfg2.N) (h0 : ¬t.val % 12 = 0) (h1 : ¬t.val % 12 = 11) :
    accAt2 V c t.val t.isLt = left2 (runB2 V c t h0 h1 (prev2 V c t)).1 := by
  obtain ⟨_ | n, hn⟩ := t
  · exact absurd (Nat.zero_mod _) h0
  · exact (dif_neg h1).trans (dif_neg h0)

theorem accAt2_C (c : Dev nD) (t : Fin cfg2.N) (h1 : t.val % 12 = 11) :
    accAt2 V c t.val t.isLt = left2 (runC2 V c t h1 (prev2 V c t)).2.1 := by
  obtain ⟨_ | n, hn⟩ := t
  · exact absurd h1 (by decide : ¬0 % 12 = 11)
  · exact dif_pos h1

abbrev inv2 (c : Dev nD) (x : Vec F S2048x16 .f32) : sProp 𝕄 :=
  iprop(iprop(owns (c : Thread nD τ) scM2 fullShare x ∗ Pipeline.scopedRestBut (Ix := Unit) (Name := ℕ) (U := UR sig nD τ) (Lvl := ℕ) (Val := Elt F) spec2 c [cc2_scratch0]) ∗ (∃ r, prngReg c r))

def PhiS2 (c : Dev nD) : (n : ℕ) → n ≤ cfg2.N → sProp 𝕄
  | 0, _ => Pipeline.ΦA spec2 c
  | n + 1, hn => inv2 c (accAt2 V c n hn)

-- Forgetting the accumulator's contents gives the entry invariant back.
theorem PhiS2_forget (c : Dev nD) : ∀ (n : ℕ) (h : n ≤ cfg2.N), PhiS2 V c n h ⊢ Pipeline.ΦA spec2 c
  | 0, _ => .rfl
  | n + 1, h => by
    rw [PhiA2_eq]; change inv2 c _ ⊢ _
    iintro ⟨⟨HS0, HR⟩, Hg⟩
    iframe HR Hg
    iexists _; iexact HS0

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => if h1 : t.val % 12 = 11 then left2 (runC2 V c t h1 (prev2 V c t)).1 else accAt2 V c t.val t.isLt
  Φ t := PhiS2 V c t.val (Nat.le_of_lt_succ t.isLt)
  q w := match w with
    | ⟨1, _⟩ => fullShare.left
    | ⟨3, _⟩ => fullShare.right
    | ⟨2, _⟩ => fullShare.left
    | ⟨4, _⟩ => fullShare.right
    | _ => fullShare
  owed _ := 0

theorem A_eq2 (c : Dev nD) (w : Fin cfg2.W) : (dat2 V c).A w = V c (Pipeline.arrRef spec2 w) := rfl

theorem Phi2_pos (c : Dev nD) (t : Fin cfg2.N) (hz : t.val ≠ 0) : (dat2 V c).Φ t.castSucc = inv2 c (prev2 V c t) := by
  obtain ⟨_ | n, hn⟩ := t
  · exact absurd rfl hz
  · rfl

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d
theorem before2_4 (c : Dev nD) (t : Fin cfg2.N) (d) : (dat2 V c).before 4 t d = iblk2 V c 4 t :=
  (dat2 V c).before_in_eq_fetched 4 rfl (fun _ => rfl) (fun _ _ _ => rfl) (fun _ => rfl) t d
theorem before2_5 (c : Dev nD) (t : Fin cfg2.N) (d) : (dat2 V c).before 5 t d = iblk2 V c 5 t :=
  (dat2 V c).before_in_eq_fetched 5 rfl (fun _ => rfl) (fun _ _ _ => rfl) (fun _ => rfl) t d

theorem leaves2 (c : Dev nD) (t : Fin cfg2.N) (w : Fin cfg2.W) (hw : w.val < 6) :
    (dat2 V c).leavesExact w t = owns (c : Thread nD τ) ((cfg2.win w).stage (cfg2.slots t w)) fullShare ((dat2 V c).after w t) := by
  unfold Dat.leavesExact; rw [live2 t w hw]

theorem sound_body2 (c : Dev nD) (t : Fin cfg2.N) :
    iprop((dat2 V c).Φ t.castSucc ∗ (dat2 V c).owesAt () t.castSucc
        ∗ (∃ d, owns (c : Thread nD τ) (ms2_0 t) fullShare ((dat2 V c).before 0 t d))
        ∗ (∃ d, owns (c : Thread nD τ) (ms2_1 t) fullShare ((dat2 V c).before 1 t d))
        ∗ (∃ d, owns (c : Thread nD τ) (ms2_2 t) fullShare ((dat2 V c).before 2 t d))
        ∗ (∃ d, owns (c : Thread nD τ) (ms2_3 t) fullShare ((dat2 V c).before 3 t d))
        ∗ (∃ d, owns (c : Thread nD τ) (ms2_4 t) fullShare ((dat2 V c).before 4 t d))
        ∗ (∃ d, owns (c : Thread nD τ) (ms2_5 t) fullShare ((dat2 V c).before 5 t d))
        ∗ (∃ d, owns (c : Thread nD τ) (ms2_6 t) fullShare ((dat2 V c).before 6 t d)))
      ⊢ wp frame (wpE (defs₀ (F := F)) Variants.none c none) Set.univ (bodyAt2 t) (fun _ =>
          iprop((dat2 V c).Φ t.succ ∗ (dat2 V c).owesAt () t.succ ∗ (dat2 V c).leavesExact 0 t ∗ (dat2 V c).leavesExact 1 t
            ∗ (dat2 V c).leavesExact 2 t ∗ (dat2 V c).leavesExact 3 t ∗ (dat2 V c).leavesExact 4 t ∗ (dat2 V c).leavesExact 5 t
            ∗ (dat2 V c).leavesExact 6 t)) := by
  simp only [before2_0, before2_1, before2_2, before2_3, before2_4, before2_5]
  rw [show (dat2 V c).owesAt () t.succ = (dat2 V c).owesAt () t.castSucc from rfl,
    show (dat2 V c).Φ t.succ = inv2 c (accAt2 V c t.val t.isLt) from rfl,
    leaves2 V c t 0 (by decide), leaves2 V c t 1 (by decide), leaves2 V c t 2 (by decide), leaves2 V c t 3 (by decide),
    leaves2 V c t 4 (by decide), leaves2 V c t 5 (by decide)]
  unfold inv2
  have hN : t.val < 72 := lt_of_lt_of_eq t.isLt (show cfg2.N = 72 from N_2)
  by_cases h1 : t.val % 12 = 11
  · rw [show (dat2 V c).leavesExact 6 t = owns (c : Thread nD τ) (ms2_6 t) fullShare ((dat2 V c).after 6 t) from by
        unfold Dat.leavesExact; rw [live2_6 t h1],
      show (dat2 V c).after 6 t = left2 (runC2 V c t h1 (prev2 V c t)).1 from dif_pos h1, accAt2_C V c t h1, Phi2_pos V c t (by omega)]
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((runC2 V c t h1 (prev2 V c t)).2.2 Set.univ _)
    iframe H0 H1 H2 H3 H4 H5 HS0
    isplitl [H6]; · iexists _; iexact H6
    iintro ⟨H0, H1, H2, H3, H4, H5, ⟨%e6, H6⟩, ⟨%es0, HS0⟩⟩
    iframe HR Hg Ho
    isplitl [HS0]
    · ihave H' := (Ring.owns_of_writes_tiledL VS2 S2048x16.size) $$ HS0; iapply H'; ipureintro; sl_kernel_rfl
    isplitl [H0]; · iexact H0
    isplitl [H1]; · iexact H1
    isplitl [H2]; · iexact H2
    isplitl [H3]; · iexact H3
    isplitl [H4]; · iexact H4
    isplitl [H5]; · iexact H5
    ihave H' := (Ring.owns_of_writes_tiledL VS2 S2048x16.size) $$ H6; iapply H'; ipureintro; sl_kernel_rfl
  · rw [Dat.leavesExact_idle (dat2 V c) 6 t (idle2_6 t h1) (Bool.eq_false_iff.mpr fun h => h1 ((flush2_6 t).mp h))]
    by_cases h0 : t.val % 12 = 0
    on_goal 1 =>
      rw [accAt2_A V c t h0]
      refine (sep_mono_left (PhiS2_forget V c t.val (Nat.le_of_lt t.isLt))).trans ?_
      rw [PhiA2_eq]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runA2 V c t h0).2 ((dat2 V c).before 6 t d6) Set.univ _)
    on_goal 2 =>
      rw [accAt2_B V c t h0 h1, Phi2_pos V c t (by omega)]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runB2 V c t h0 h1 (prev2 V c t)).2 ((dat2 V c).before 6 t d6) Set.univ _)
    all_goals
      iframe H0 H1 H2 H3 H4 H5 H6 HS0
      iintro ⟨H0, H1, H2, H3, H4, H5, H6, ⟨%es0, HS0⟩⟩
      iframe HR Hg Ho
      isplitl [HS0]
      · ihave H' := (Ring.owns_of_writes_tiledL VS2 S2048x16.size) $$ HS0; iapply H'; ipureintro; sl_kernel_rfl
      isplitl [H0]; · iexact H0
      isplitl [H1]; · iexact H1
      isplitl [H2]; · iexact H2
      isplitl [H3]; · iexact H3
      isplitl [H4]; · iexact H4
      isplitl [H5]; · iexact H5
      iexists _; iexact H6

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := .rfl

theorem hout2 (c : Dev nD) : (dat2 V c).Φ (Fin.last cfg2.N) ⊢ Pipeline.ΦA spec2 c := PhiS2_forget V c cfg2.N (Nat.le_refl _)

end Cert.Kernel.Hand

end
-- ==== Proof.KReg3.lean ====
import proofs.«103262_j55946243997874_1_alg».proof.Proof.Gen.Kernel.Launch
import proofs.«103262_j55946243997874_1_alg».proof.Proof.Gen.Kernel.Skeleton
import proofs.«103262_j55946243997874_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

set_option maxHeartbeats 4000000 in
theorem sound_kernel3 (c : Dev nD) (E : Set ℕ) (i : grid3.Coords)
    (arg1 : Memref sig .tc .vmem S2048x16 .f32) (harg1 : arg1.IsWhole) (arg2 : Memref sig .tc .vmem S16x40 .f32) (harg2 : arg2.IsWhole)
    (arg3 : Memref sig .tc .vmem S2048x40 .f32) (harg3 : arg3.IsWhole)
    (x0 : Vec F S2048x16 .f32) (x1 : Vec F S16x40 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (k3_pay1 x0 x1)) -∗ K ⟨⟩))
      ⊢ wp frame (wpE (defs₀ (F := F)) Variants.none c none) E (cc3__dense_matmul_kernel i arg1 harg1 arg2 harg2 arg3 harg3) K := by
  simp only [cc3__dense_matmul_kernel_eq_skeleton]; unfold cc3__dense_matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  have hz : (![0, 0] : Fin 2 → Nat) = fun _ => 0 := funext fun a => by fin_cases a <;> rfl
  refine (View.read_writes_eq_canon _ _ _ (View.cover_of_tiled _ S2048x40.size (by rfl))).trans ?_
  rw [View.canon_unit_zero hz]
  exact congrArg₂ k3_pay1 (View.ld_unit_zero (S := S2048x16) hz _ _) (View.ld_unit_zero (S := S16x40) hz _ _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => k3_pay1 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := rfl

theorem after3_2 (c : Dev nD) (t : Fin cfg3.N) :
    (dat3 V c).after 2 t = k3_pay1 (iblk3 V c 0 t) (iblk3 V c 1 t) := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d

theorem sound_body3 (c : Dev nD) (t : Fin cfg3.N) :
    iprop((dat3 V c).Φ t.castSucc ∗ (dat3 V c).owesAt () t.castSucc
        ∗ (∃ d, owns (c : Thread nD τ) (st3_0 t) fullShare ((dat3 V c).before 0 t d))
        ∗ (∃ d, owns (c : Thread nD τ) (st3_1 t) fullShare ((dat3 V c).before 1 t d))
        ∗ (∃ d, owns (c : Thread nD τ) (st3_2 t) fullShare ((dat3 V c).before 2 t d)))
      ⊢ wp frame (wpE (defs₀ (F := F)) Variants.none c none) Set.univ (bodyAt3 t) (fun _ =>
          iprop((dat3 V c).Φ t.succ ∗ (dat3 V c).owesAt () t.succ
            ∗ owns (c : Thread nD τ) (st3_0 t) fullShare ((dat3 V c).after 0 t)
            ∗ owns (c : Thread nD τ) (st3_1 t) fullShare ((dat3 V c).after 1 t)
            ∗ owns (c : Thread nD τ) (st3_2 t) fullShare ((dat3 V c).after 2 t))) := by
  simp only [before3_0, before3_1]
  dsimp only [dat3]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  iframe H0 H1
  isplitl [H2]; · iexists _; iexact H2
  iintro ⟨H0, H1, H2⟩
  iframe HΦ H0 H1 H2
  iexact Ho

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KReg4RunA.lean ====
import proofs.«103262_j55946243997874_1_alg».proof.Proof.Gen.Kernel.Launch
import proofs.«103262_j55946243997874_1_alg».proof.Proof.Gen.Kernel.Skeleton
import proofs.«103262_j55946243997874_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 12 = 0 :=
  (by decide +kernel : ∀ t : Fin grid4.N, cond4_0 (grid4.coords t) ↔ t.val % 12 = 0)

abbrev cond4_1 (i : grid4.Coords) : Prop := k4_cond2 i = 1#1
theorem hcond4_1 : ∀ t : Fin cfg4.N, cond4_1 (grid4.coords t) ↔ t.val % 12 = 11 :=
  (by decide +kernel : ∀ t : Fin grid4.N, cond4_1 (grid4.coords t) ↔ t.val % 12 = 11)

theorem live4 : ∀ (t : Fin cfg4.N) (w : Fin cfg4.W), w.val < 6 → cfg4.idle w (grid4.coords t) = false := by decide +kernel
theorem idle4_6 : ∀ t : Fin cfg4.N, ¬t.val % 12 = 11 → cfg4.idle 6 (grid4.coords t) = true := by decide +kernel
theorem live4_6 : ∀ t : Fin cfg4.N, t.val % 12 = 11 → cfg4.idle 6 (grid4.coords t) = false := by decide +kernel

abbrev ms4_0 (t : Fin cfg4.N) : Memref sig .tc .vmem S2048x1024 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x40 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x1 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S2048x40 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S2048x1 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x40 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S2048x40 .f32 := win4_6.stage (cfg4.slots t 6)
abbrev hs4_6 (t : Fin cfg4.N) : (ms4_6 t).IsWhole := hstage4_6 ((cfg4.slots t 6).cast nbuf4_6)
abbrev scM4 : Memref sig .tc .vmem S2048x40 .f32 := Memref.whole cc4_scratch0
abbrev VS4 : View sig .tc .vmem S2048x40 .f32 := scM4.view
-- What a list of stores leaves in a block of the accumulator's shape.
abbrev left4 (L : List (View.Piece (Elt F) S2048x40 .f32)) : Vec F S2048x40 .f32 :=
  VS4.read (Elt F) (VS4.writes (Elt F) VS4.junk L)

theorem PhiA4_eq (c : Dev nD) :
    (Pipeline.ΦA spec4 c : sProp 𝕄)
      = iprop(iprop(iprop((∃ d, owns (c : Thread nD τ) scM4 fullShare d)) ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

-- A whole buffer still at the contents it was handed at reads them back.
theorem keep4 {s : Shape} (c : Dev nD) (m : Memref sig .tc .vmem s .f32) (h : m.IsWhole) (x : Vec F s .f32) :
    (m.view.loc (c : Thread nD τ) ↦[m.view.set]{fullShare} h.unread x : sProp 𝕄)
      ⊢ iprop(∃ f, ⌜m.view.read (Elt F) f = x⌝ ∗ (m.view.loc (c : Thread nD τ) ↦[m.view.set]{fullShare} f)) := by
  iintro H; iexists _; isplitr; · ipureintro; exact h.read_unread _
  iexact H

set_option maxHeartbeats 4000000 in
noncomputable def kernelRun4_A (c : Dev nD) (i : grid4.Coords) (arg2 : Memref sig .tc .vmem S2048x1024 .f32) (harg2 : arg2.IsWhole) (arg3 : Memref sig .tc .vmem S1024x40 .f32) (harg3 : arg3.IsWhole) (arg4 : Memref sig .tc .vmem S1024x1 .f32) (harg4 : arg4.IsWhole) (arg5 : Memref sig .tc .vmem S2048x40 .f32) (harg5 : arg5.IsWhole) (arg6 : Memref sig .tc .vmem S2048x1 .f32) (harg6 : arg6.IsWhole) (arg7 : Memref sig .tc .vmem S1x40 .f32) (harg7 : arg7.IsWhole) (arg8 : Memref sig .tc .vmem S2048x40 .f32) (harg8 : arg8.IsWhole) (arg9 : Memref sig .tc .vmem S2048x40 .f32) (harg9 : arg9.IsWhole) (hc0 : cond4_0 i) (hc1 : ¬cond4_1 i)
    (x0 : Vec F S2048x1024 .f32) (x1 : Vec F S1024x40 .f32) (x2 : Vec F S1024x1 .f32) (x3 : Vec F S2048x40 .f32) (x4 : Vec F S2048x1 .f32) (x5 : Vec F S1x40 .f32) :
    { LS0 : List (View.Piece (Elt F) S2048x40 .f32) //
      ∀ (xi6 : Vec F S2048x40 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc4_kernel i arg2 harg2 arg3 harg3 arg4 harg4 arg5 harg5 arg6 harg6 arg7 harg7 arg8 harg8 arg9 harg9) K } := by
  refine ⟨?_, fun xi6 E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    sl_exec (disch := first | exact hc0 | exact hc1)
    sl_step
    iapply Hk
    isplitl [H0]; · iapply keep4 c arg2 harg2 x0; iexact H0
    isplitl [H1]; · iapply keep4 c arg3 harg3 x1; iexact H1
    isplitl [H2]; · iapply keep4 c arg4 harg4 x2; iexact H2
    isplitl [H3]; · iapply keep4 c arg5 harg5 x3; iexact H3
    isplitl [H4]; · iapply keep4 c arg6 harg6 x4; iexact H4
    isplitl [H5]; · iapply keep4 c arg7 harg7 x5; iexact H5
    isplitl [H6]; · iapply keep4 c arg8 harg8 xi6; iexact H6
    iexists _; iexact HS0

end Cert.Kernel.Hand

end
-- ==== Proof.KReg4RunB.lean ====
import proofs.«103262_j55946243997874_1_alg».proof.Proof.KReg4RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun4_B (c : Dev nD) (i : grid4.Coords) (arg2 : Memref sig .tc .vmem S2048x1024 .f32) (harg2 : arg2.IsWhole) (arg3 : Memref sig .tc .vmem S1024x40 .f32) (harg3 : arg3.IsWhole) (arg4 : Memref sig .tc .vmem S1024x1 .f32) (harg4 : arg4.IsWhole) (arg5 : Memref sig .tc .vmem S2048x40 .f32) (harg5 : arg5.IsWhole) (arg6 : Memref sig .tc .vmem S2048x1 .f32) (harg6 : arg6.IsWhole) (arg7 : Memref sig .tc .vmem S1x40 .f32) (harg7 : arg7.IsWhole) (arg8 : Memref sig .tc .vmem S2048x40 .f32) (harg8 : arg8.IsWhole) (arg9 : Memref sig .tc .vmem S2048x40 .f32) (harg9 : arg9.IsWhole) (hc0 : ¬cond4_0 i) (hc1 : ¬cond4_1 i)
    (x0 : Vec F S2048x1024 .f32) (x1 : Vec F S1024x40 .f32) (x2 : Vec F S1024x1 .f32) (x3 : Vec F S2048x40 .f32) (x4 : Vec F S2048x1 .f32) (x5 : Vec F S1x40 .f32) (xs0 : Vec F S2048x40 .f32) :
    { LS0 : List (View.Piece (Elt F) S2048x40 .f32) //
      ∀ (xi6 : Vec F S2048x40 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc4_kernel i arg2 harg2 arg3 harg3 arg4 harg4 arg5 harg5 arg6 harg6 arg7 harg7 arg8 harg8 arg9 harg9) K } := by
  refine ⟨?_, fun xi6 E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hfs0
    sl_exec (disch := first | exact hc0 | exact hc1)
    sl_step
    iapply Hk
    isplitl [H0]; · iapply keep4 c arg2 harg2 x0; iexact H0
    isplitl [H1]; · iapply keep4 c arg3 harg3 x1; iexact H1
    isplitl [H2]; · iapply keep4 c arg4 harg4 x2; iexact H2
    isplitl [H3]; · iapply keep4 c arg5 harg5 x3; iexact H3
    isplitl [H4]; · iapply keep4 c arg6 harg6 x4; iexact H4
    isplitl [H5]; · iapply keep4 c arg7 harg7 x5; iexact H5
    isplitl [H6]; · iapply keep4 c arg8 harg8 xi6; iexact H6
    iexists _; iexact HS0

end Cert.Kernel.Hand

end
-- ==== Proof.KReg4RunC.lean ====
import proofs.«103262_j55946243997874_1_alg».proof.Proof.KReg4RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun4_C (c : Dev nD) (i : grid4.Coords) (arg2 : Memref sig .tc .vmem S2048x1024 .f32) (harg2 : arg2.IsWhole) (arg3 : Memref sig .tc .vmem S1024x40 .f32) (harg3 : arg3.IsWhole) (arg4 : Memref sig .tc .vmem S1024x1 .f32) (harg4 : arg4.IsWhole) (arg5 : Memref sig .tc .vmem S2048x40 .f32) (harg5 : arg5.IsWhole) (arg6 : Memref sig .tc .vmem S2048x1 .f32) (harg6 : arg6.IsWhole) (arg7 : Memref sig .tc .vmem S1x40 .f32) (harg7 : arg7.IsWhole) (arg8 : Memref sig .tc .vmem S2048x40 .f32) (harg8 : arg8.IsWhole) (arg9 : Memref sig .tc .vmem S2048x40 .f32) (harg9 : arg9.IsWhole) (hc0 : ¬cond4_0 i) (hc1 : cond4_1 i)
    (x0 : Vec F S2048x1024 .f32) (x1 : Vec F S1024x40 .f32) (x2 : Vec F S1024x1 .f32) (x3 : Vec F S2048x40 .f32) (x4 : Vec F S2048x1 .f32) (x5 : Vec F S1x40 .f32) (xs0 : Vec F S2048x40 .f32) :
    Σ' (L6 : List (View.Piece (Elt F) S2048x40 .f32)), { LS0 : List (View.Piece (Elt F) S2048x40 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc4_kernel i arg2 harg2 arg3 harg3 arg4 harg4 arg5 harg5 arg6 harg6 arg7 harg7 arg8 harg8 arg9 harg9) K } := by
  refine ⟨?_, ?_, fun E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hfs0
    sl_exec (disch := first | exact hc0 | exact hc1)
    sl_step
    iapply Hk
    isplitl [H0]; · iapply keep4 c arg2 harg2 x0; iexact H0
    isplitl [H1]; · iapply keep4 c arg3 harg3 x1; iexact H1
    isplitl [H2]; · iapply keep4 c arg4 harg4 x2; iexact H2
    isplitl [H3]; · iapply keep4 c arg5 harg5 x3; iexact H3
    isplitl [H4]; · iapply keep4 c arg6 harg6 x4; iexact H4
    isplitl [H5]; · iapply keep4 c arg7 harg7 x5; iexact H5
    isplitl [H6]; · iexists _; iexact H6
    iexists _; iexact HS0

end Cert.Kernel.Hand

end
-- ==== Proof.KReg4.lean ====
import proofs.«103262_j55946243997874_1_alg».proof.Proof.KReg4RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def runA4 (c : Dev nD) (t : Fin cfg4.N) (h0 : t.val % 12 = 0) :=
  kernelRun4_A (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4 (Memref.isWhole_whole _) ((hcond4_0 t).mpr h0) (fun h => by have := (hcond4_1 t).mp h; omega) (iblk4 V c 0 t) (iblk4 V c 1 t) (iblk4 V c 2 t) (iblk4 V c 3 t) (iblk4 V c 4 t) (iblk4 V c 5 t)

def runB4 (c : Dev nD) (t : Fin cfg4.N) (h0 : ¬t.val % 12 = 0) (h1 : ¬t.val % 12 = 11) (xs : Vec F S2048x40 .f32) :=
  kernelRun4_B (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) xs

def runC4 (c : Dev nD) (t : Fin cfg4.N) (h1 : t.val % 12 = 11) (xs : Vec F S2048x40 .f32) :=
  kernelRun4_C (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4 (Memref.isWhole_whole _) (fun h => by have := (hcond4_0 t).mp h; omega) ((hcond4_1 t).mpr h1) (iblk4 V c 0 t) (iblk4 V c 1 t) (iblk4 V c 2 t) (iblk4 V c 3 t) (iblk4 V c 4 t) (iblk4 V c 5 t) xs

def accAt4 (c : Dev nD) : (n : ℕ) → n < cfg4.N → Vec F S2048x40 .f32
  | 0, hn => left4 (runA4 V c ⟨0, hn⟩ (Nat.zero_mod _)).1
  | n + 1, hn =>
    if h1 : (n + 1) % 12 = 11 then left4 (runC4 V c ⟨n + 1, hn⟩ h1 (accAt4 c n (Nat.lt_of_succ_lt hn))).2.1
    else if h0 : (n + 1) % 12 = 0 then left4 (runA4 V c ⟨n + 1, hn⟩ h0).1
    else left4 (runB4 V c ⟨n + 1, hn⟩ h0 h1 (accAt4 c n (Nat.lt_of_succ_lt hn))).1

abbrev prev4 (c : Dev nD) (t : Fin cfg4.N) : Vec F S2048x40 .f32 :=
  accAt4 V c (t.val - 1) (Nat.lt_of_le_of_lt (Nat.sub_le _ _) t.isLt)

theorem accAt4_A (c : Dev nD) (t : Fin cfg4.N) (h0 : t.val % 12 = 0) :
    accAt4 V c t.val t.isLt = left4 (runA4 V c t h0).1 := by
  obtain ⟨_ | n, hn⟩ := t
  · rfl
  · exact (dif_neg fun h => by have : (n + 1) % 12 = 0 := h0; omega).trans (dif_pos h0)

theorem accAt4_B (c : Dev nD) (t : Fin cfg4.N) (h0 : ¬t.val % 12 = 0) (h1 : ¬t.val % 12 = 11) :
    accAt4 V c t.val t.isLt = left4 (runB4 V c t h0 h1 (prev4 V c t)).1 := by
  obtain ⟨_ | n, hn⟩ := t
  · exact absurd (Nat.zero_mod _) h0
  · exact (dif_neg h1).trans (dif_neg h0)

theorem accAt4_C (c : Dev nD) (t : Fin cfg4.N) (h1 : t.val % 12 = 11) :
    accAt4 V c t.val t.isLt = left4 (runC4 V c t h1 (prev4 V c t)).2.1 := by
  obtain ⟨_ | n, hn⟩ := t
  · exact absurd h1 (by decide : ¬0 % 12 = 11)
  · exact dif_pos h1

abbrev inv4 (c : Dev nD) (x : Vec F S2048x40 .f32) : sProp 𝕄 :=
  iprop(iprop(owns (c : Thread nD τ) scM4 fullShare x ∗ Pipeline.scopedRestBut (Ix := Unit) (Name := ℕ) (U := UR sig nD τ) (Lvl := ℕ) (Val := Elt F) spec4 c [cc4_scratch0]) ∗ (∃ r, prngReg c r))

def PhiS4 (c : Dev nD) : (n : ℕ) → n ≤ cfg4.N → sProp 𝕄
  | 0, _ => Pipeline.ΦA spec4 c
  | n + 1, hn => inv4 c (accAt4 V c n hn)

-- Forgetting the accumulator's contents gives the entry invariant back.
theorem PhiS4_forget (c : Dev nD) : ∀ (n : ℕ) (h : n ≤ cfg4.N), PhiS4 V c n h ⊢ Pipeline.ΦA spec4 c
  | 0, _ => .rfl
  | n + 1, h => by
    rw [PhiA4_eq]; change inv4 c _ ⊢ _
    iintro ⟨⟨HS0, HR⟩, Hg⟩
    iframe HR Hg
    iexists _; iexact HS0

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => if h1 : t.val % 12 = 11 then left4 (runC4 V c t h1 (prev4 V c t)).1 else accAt4 V c t.val t.isLt
  Φ t := PhiS4 V c t.val (Nat.le_of_lt_succ t.isLt)
  q w := match w with
    | ⟨1, _⟩ => fullShare.left
    | ⟨3, _⟩ => fullShare.right
    | ⟨2, _⟩ => fullShare.left
    | ⟨4, _⟩ => fullShare.right
    | _ => fullShare
  owed _ := 0

theorem A_eq4 (c : Dev nD) (w : Fin cfg4.W) : (dat4 V c).A w = V c (Pipeline.arrRef spec4 w) := rfl

theorem Phi4_pos (c : Dev nD) (t : Fin cfg4.N) (hz : t.val ≠ 0) : (dat4 V c).Φ t.castSucc = inv4 c (prev4 V c t) := by
  obtain ⟨_ | n, hn⟩ := t
  · exact absurd rfl hz
  · rfl

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d
theorem before4_3 (c : Dev nD) (t : Fin cfg4.N) (d) : (dat4 V c).before 3 t d = iblk4 V c 3 t :=
  (dat4 V c).before_in_eq_fetched 3 rfl (fun _ => rfl) (fun _ _ _ => rfl) (fun _ => rfl) t d
theorem before4_4 (c : Dev nD) (t : Fin cfg4.N) (d) : (dat4 V c).before 4 t d = iblk4 V c 4 t :=
  (dat4 V c).before_in_eq_fetched 4 rfl (fun _ => rfl) (fun _ _ _ => rfl) (fun _ => rfl) t d
theorem before4_5 (c : Dev nD) (t : Fin cfg4.N) (d) : (dat4 V c).before 5 t d = iblk4 V c 5 t :=
  (dat4 V c).before_in_eq_fetched 5 rfl (fun _ => rfl) (fun _ _ _ => rfl) (fun _ => rfl) t d

theorem leaves4 (c : Dev nD) (t : Fin cfg4.N) (w : Fin cfg4.W) (hw : w.val < 6) :
    (dat4 V c).leavesExact w t = owns (c : Thread nD τ) ((cfg4.win w).stage (cfg4.slots t w)) fullShare ((dat4 V c).after w t) := by
  unfold Dat.leavesExact; rw [live4 t w hw]

theorem sound_body4 (c : Dev nD) (t : Fin cfg4.N) :
    iprop((dat4 V c).Φ t.castSucc ∗ (dat4 V c).owesAt () t.castSucc
        ∗ (∃ d, owns (c : Thread nD τ) (ms4_0 t) fullShare ((dat4 V c).before 0 t d))
        ∗ (∃ d, owns (c : Thread nD τ) (ms4_1 t) fullShare ((dat4 V c).before 1 t d))
        ∗ (∃ d, owns (c : Thread nD τ) (ms4_2 t) fullShare ((dat4 V c).before 2 t d))
        ∗ (∃ d, owns (c : Thread nD τ) (ms4_3 t) fullShare ((dat4 V c).before 3 t d))
        ∗ (∃ d, owns (c : Thread nD τ) (ms4_4 t) fullShare ((dat4 V c).before 4 t d))
        ∗ (∃ d, owns (c : Thread nD τ) (ms4_5 t) fullShare ((dat4 V c).before 5 t d))
        ∗ (∃ d, owns (c : Thread nD τ) (ms4_6 t) fullShare ((dat4 V c).before 6 t d)))
      ⊢ wp frame (wpE (defs₀ (F := F)) Variants.none c none) Set.univ (bodyAt4 t) (fun _ =>
          iprop((dat4 V c).Φ t.succ ∗ (dat4 V c).owesAt () t.succ ∗ (dat4 V c).leavesExact 0 t ∗ (dat4 V c).leavesExact 1 t
            ∗ (dat4 V c).leavesExact 2 t ∗ (dat4 V c).leavesExact 3 t ∗ (dat4 V c).leavesExact 4 t ∗ (dat4 V c).leavesExact 5 t
            ∗ (dat4 V c).leavesExact 6 t)) := by
  simp only [before4_0, before4_1, before4_2, before4_3, before4_4, before4_5]
  rw [show (dat4 V c).owesAt () t.succ = (dat4 V c).owesAt () t.castSucc from rfl,
    show (dat4 V c).Φ t.succ = inv4 c (accAt4 V c t.val t.isLt) from rfl,
    leaves4 V c t 0 (by decide), leaves4 V c t 1 (by decide), leaves4 V c t 2 (by decide), leaves4 V c t 3 (by decide),
    leaves4 V c t 4 (by decide), leaves4 V c t 5 (by decide)]
  unfold inv4
  have hN : t.val < 72 := lt_of_lt_of_eq t.isLt (show cfg4.N = 72 from N_4)
  by_cases h1 : t.val % 12 = 11
  · rw [show (dat4 V c).leavesExact 6 t = owns (c : Thread nD τ) (ms4_6 t) fullShare ((dat4 V c).after 6 t) from by
        unfold Dat.leavesExact; rw [live4_6 t h1],
      show (dat4 V c).after 6 t = left4 (runC4 V c t h1 (prev4 V c t)).1 from dif_pos h1, accAt4_C V c t h1, Phi4_pos V c t (by omega)]
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((runC4 V c t h1 (prev4 V c t)).2.2 Set.univ _)
    iframe H0 H1 H2 H3 H4 H5 HS0
    isplitl [H6]; · iexists _; iexact H6
    iintro ⟨H0, H1, H2, H3, H4, H5, ⟨%e6, H6⟩, ⟨%es0, HS0⟩⟩
    iframe HR Hg Ho
    isplitl [HS0]
    · ihave H' := (Ring.owns_of_writes_tiledL VS4 S2048x40.size) $$ HS0; iapply H'; ipureintro; sl_kernel_rfl
    isplitl [H0]; · iexact H0
    isplitl [H1]; · iexact H1
    isplitl [H2]; · iexact H2
    isplitl [H3]; · iexact H3
    isplitl [H4]; · iexact H4
    isplitl [H5]; · iexact H5
    ihave H' := (Ring.owns_of_writes_tiledL VS4 S2048x40.size) $$ H6; iapply H'; ipureintro; sl_kernel_rfl
  · rw [Dat.leavesExact_idle (dat4 V c) 6 t (idle4_6 t h1) (Bool.eq_false_iff.mpr fun h => h1 ((flush4_6 t).mp h))]
    by_cases h0 : t.val % 12 = 0
    on_goal 1 =>
      rw [accAt4_A V c t h0]
      refine (sep_mono_left (PhiS4_forget V c t.val (Nat.le_of_lt t.isLt))).trans ?_
      rw [PhiA4_eq]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runA4 V c t h0).2 ((dat4 V c).before 6 t d6) Set.univ _)
    on_goal 2 =>
      rw [accAt4_B V c t h0 h1, Phi4_pos V c t (by omega)]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runB4 V c t h0 h1 (prev4 V c t)).2 ((dat4 V c).before 6 t d6) Set.univ _)
    all_goals
      iframe H0 H1 H2 H3 H4 H5 H6 HS0
      iintro ⟨H0, H1, H2, H3, H4, H5, H6, ⟨%es0, HS0⟩⟩
      iframe HR Hg Ho
      isplitl [HS0]
      · ihave H' := (Ring.owns_of_writes_tiledL VS4 S2048x40.size) $$ HS0; iapply H'; ipureintro; sl_kernel_rfl
      isplitl [H0]; · iexact H0
      isplitl [H1]; · iexact H1
      isplitl [H2]; · iexact H2
      isplitl [H3]; · iexact H3
      isplitl [H4]; · iexact H4
      isplitl [H5]; · iexact H5
      iexists _; iexact H6

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := .rfl

theorem hout4 (c : Dev nD) : (dat4 V c).Φ (Fin.last cfg4.N) ⊢ Pipeline.ΦA spec4 c := PhiS4_forget V c cfg4.N (Nat.le_refl _)

end Cert.Kernel.Hand

end
-- ==== Proof.KFold.lean ====
import proofs.«103262_j55946243997874_1_alg».proof.Proof.KReg0
import proofs.«103262_j55946243997874_1_alg».proof.Proof.KReg1
import proofs.«103262_j55946243997874_1_alg».proof.Proof.KReg2
import proofs.«103262_j55946243997874_1_alg».proof.Proof.KReg3
import proofs.«103262_j55946243997874_1_alg».proof.Proof.KReg4
import proofs.«103262_j55946243997874_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev rd (W : Dev nD → Valuation τ sig (Elt F)) : (c : Dev nD) → (b : Ref sig .tc) → Buf (Elt F) ((c : Thread nD τ).loc b) :=
  fun c b => W c b

abbrev W0 : Dev nD → Valuation τ sig (Elt F) := fun c b => m (c, b)
def o1 (c : Dev nD) : Buf (Elt F) ((c : Thread nD τ).loc main_v0) := (dat0 (rd (W0 m)) c).arrAt 1 cfg0.N
abbrev W1 : Dev nD → Valuation τ sig (Elt F) := fun c => Function.update (W0 m c) main_v0 (o1 m c)
def o2 (c : Dev nD) : Buf (Elt F) ((c : Thread nD τ).loc main_v1) := (dat1 (rd (W1 m)) c).arrAt 2 cfg1.N
abbrev W2 : Dev nD → Valuation τ sig (Elt F) := fun c => Function.update (W1 m c) main_v1 (o2 m c)
abbrev W3 : Dev nD → Valuation τ sig (Elt F) := fun c => StableHlo.after hostOps2 (W2 m c)
def o4 (c : Dev nD) : Buf (Elt F) ((c : Thread nD τ).loc main_v3) := (dat2 (rd (W3 m)) c).arrAt 6 cfg2.N
abbrev W4 : Dev nD → Valuation τ sig (Elt F) := fun c => Function.update (W3 m c) main_v3 (o4 m c)
def o5 (c : Dev nD) : Buf (Elt F) ((c : Thread nD τ).loc main_v4) := (dat3 (rd (W4 m)) c).arrAt 2 cfg3.N
abbrev W5 : Dev nD → Valuation τ sig (Elt F) := fun c => Function.update (W4 m c) main_v4 (o5 m c)
abbrev W6 : Dev nD → Valuation τ sig (Elt F) := fun c => StableHlo.after hostOps4 (W5 m c)
def o7 (c : Dev nD) : Buf (Elt F) ((c : Thread nD τ).loc main_v6) := (dat4 (rd (W6 m)) c).arrAt 6 cfg4.N
abbrev W7 : Dev nD → Valuation τ sig (Elt F) := fun c => Function.update (W6 m c) main_v6 (o7 m c)

def outs : Gen.Outs (F := F) := fun _ r c =>
  if h0 : r = main_v0 then h0 ▸ o1 m c
  else if h1 : r = main_v1 then h1 ▸ o2 m c
  else if h3 : r = main_v3 then h3 ▸ o4 m c
  else if h4 : r = main_v4 then h4 ▸ o5 m c
  else if h6 : r = main_v6 then h6 ▸ o7 m c
  else m ((c : Thread nD τ).loc r)

theorem outs_v0 (J : ℕ) (c : Dev nD) : outs m J main_v0 c = o1 m c := dif_pos rfl
theorem outs_v1 (J : ℕ) (c : Dev nD) : outs m J main_v1 c = o2 m c := (dif_neg (by decide)).trans (dif_pos rfl)
theorem outs_v3 (J : ℕ) (c : Dev nD) : outs m J main_v3 c = o4 m c :=
  (dif_neg (by decide)).trans ((dif_neg (by decide)).trans (dif_pos rfl))
theorem outs_v4 (J : ℕ) (c : Dev nD) : outs m J main_v4 c = o5 m c :=
  (dif_neg (by decide)).trans ((dif_neg (by decide)).trans ((dif_neg (by decide)).trans (dif_pos rfl)))
theorem outs_v6 (J : ℕ) (c : Dev nD) : outs m J main_v6 c = o7 m c :=
  (dif_neg (by decide)).trans ((dif_neg (by decide)).trans ((dif_neg (by decide)).trans ((dif_neg (by decide)).trans (dif_pos rfl))))

theorem V0_eq (c : Dev nD) : Gen.V0 m c = W0 m c := rfl
theorem V1_eq (c : Dev nD) : Gen.V1 m (outs m) c = W1 m c := by
  show Function.update (Gen.V0 m c) main_v0 (outs m 1 main_v0 c) = _; rw [outs_v0]
theorem V2_eq (c : Dev nD) : Gen.V2 m (outs m) c = W2 m c := by
  show Function.update (Gen.V1 m (outs m) c) main_v1 (outs m 2 main_v1 c) = _; rw [outs_v1, V1_eq]
theorem V3_eq (c : Dev nD) : Gen.V3 m (outs m) c = W3 m c := by
  show StableHlo.after hostOps2 (Gen.V2 m (outs m) c) = _; rw [V2_eq]
theorem V4_eq (c : Dev nD) : Gen.V4 m (outs m) c = W4 m c := by
  show Function.update (Gen.V3 m (outs m) c) main_v3 (outs m 4 main_v3 c) = _; rw [outs_v3, V3_eq]
theorem V5_eq (c : Dev nD) : Gen.V5 m (outs m) c = W5 m c := by
  show Function.update (Gen.V4 m (outs m) c) main_v4 (outs m 5 main_v4 c) = _; rw [outs_v4, V4_eq]
theorem V6_eq (c : Dev nD) : Gen.V6 m (outs m) c = W6 m c := by
  show StableHlo.after hostOps4 (Gen.V5 m (outs m) c) = _; rw [V5_eq]
theorem V7_eq (c : Dev nD) : Gen.V7 m (outs m) c = W7 m c := by
  show Function.update (Gen.V6 m (outs m) c) main_v6 (outs m 7 main_v6 c) = _; rw [outs_v6, V6_eq]

def pdats : (p : Fin 5) → (c : Dev nD) → Dat τ (Elt F) Unit ℕ (UR sig nD τ) ℕ (cfgs p) c
  | ⟨0, _⟩ => fun c => dat0 (rd (W0 m)) c
  | ⟨1, _⟩ => fun c => dat1 (rd (W1 m)) c
  | ⟨2, _⟩ => fun c => dat2 (rd (W3 m)) c
  | ⟨3, _⟩ => fun c => dat3 (rd (W4 m)) c
  | ⟨4, _⟩ => fun c => dat4 (rd (W6 m)) c

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

-- A window that is not the output keeps its array from entry to exit; the output window's array is the updated entry.
theorem arrAt_update {cfg : Cfg sig Λ₀} {c : Dev nD} (dat : Dat τ (Elt F) Unit ℕ (UR sig nD τ) ℕ cfg c) (V : Valuation τ sig (Elt F))
    (hA : ∀ w, dat.A w = V (Pipeline.arrRef cfg.spec w)) (wo : Fin cfg.W) (n : ℕ)
    (hin : ∀ w, w ≠ wo → (cfg.win w).isOut = false ∧ Pipeline.arrRef cfg.spec w ≠ Pipeline.arrRef cfg.spec wo) (w : Fin cfg.W) :
    dat.arrAt w n = Function.update V (Pipeline.arrRef cfg.spec wo) (dat.arrAt wo n) (Pipeline.arrRef cfg.spec w) := by
  by_cases h : w = wo
  · subst h; rw [Function.update_self]
  · exact (dat.arrAt_in w (hin w h).1 n).trans ((hA w).trans (Function.update_of_ne (StableHlo.devRef_ne_of_ne (hin w h).2) _ _).symm)

-- Off the windows' arrays the update changes nothing.
theorem rest_update {gr W : ℕ} (spec : Fin W → Pipeline.WinSpec sig gr) (wo : Fin W) (V : Valuation τ sig (Elt F)) (o) (b : Ref sig .tc)
    (hb : b ∉ Finset.univ.image (Pipeline.arrRef spec)) : Function.update V (Pipeline.arrRef spec wo) o b = V b :=
  Function.update_of_ne (StableHlo.devRef_ne_of_ne fun (e : b = Pipeline.arrRef spec wo) => hb (e ▸ Finset.mem_image_of_mem _ (Finset.mem_univ wo))) _ _

theorem hF0 (c : Dev nD) : ∀ w : Fin cfg0.W, (pdats m 0 c).arrAt w cfg0.N = rd (W1 m) c (Pipeline.arrRef spec0 w) :=
  arrAt_update (dat0 (rd (W0 m)) c) (W0 m c) (A_eq0 (rd (W0 m)) c) 1 cfg0.N (by decide)
theorem hrest0 (c : Dev nD) : ∀ b, b ∉ Finset.univ.image (Pipeline.arrRef spec0) → rd (W1 m) c b = rd (W0 m) c b :=
  rest_update spec0 1 _ _

theorem hF1 (c : Dev nD) : ∀ w : Fin cfg1.W, (pdats m 1 c).arrAt w cfg1.N = rd (W2 m) c (Pipeline.arrRef spec1 w) :=
  arrAt_update (dat1 (rd (W1 m)) c) (W1 m c) (A_eq1 (rd (W1 m)) c) 2 cfg1.N (by decide)
theorem hrest1 (c : Dev nD) : ∀ b, b ∉ Finset.univ.image (Pipeline.arrRef spec1) → rd (W2 m) c b = rd (W1 m) c b :=
  rest_update spec1 2 _ _

theorem hF2 (c : Dev nD) : ∀ w : Fin cfg2.W, (pdats m 2 c).arrAt w cfg2.N = rd (W4 m) c (Pipeline.arrRef spec2 w) :=
  arrAt_update (dat2 (rd (W3 m)) c) (W3 m c) (A_eq2 (rd (W3 m)) c) 6 cfg2.N (by decide)
theorem hrest2 (c : Dev nD) : ∀ b, b ∉ Finset.univ.image (Pipeline.arrRef spec2) → rd (W4 m) c b = rd (W3 m) c b :=
  rest_update spec2 6 _ _

theorem hF3 (c : Dev nD) : ∀ w : Fin cfg3.W, (pdats m 3 c).arrAt w cfg3.N = rd (W5 m) c (Pipeline.arrRef spec3 w) :=
  arrAt_update (dat3 (rd (W4 m)) c) (W4 m c) (A_eq3 (rd (W4 m)) c) 2 cfg3.N (by decide)
theorem hrest3 (c : Dev nD) : ∀ b, b ∉ Finset.univ.image (Pipeline.arrRef spec3) → rd (W5 m) c b = rd (W4 m) c b :=
  rest_update spec3 2 _ _

theorem hF4 (c : Dev nD) : ∀ w : Fin cfg4.W, (pdats m 4 c).arrAt w cfg4.N = rd (W7 m) c (Pipeline.arrRef spec4 w) :=
  arrAt_update (dat4 (rd (W6 m)) c) (W6 m c) (A_eq4 (rd (W6 m)) c) 6 cfg4.N (by decide)
theorem hrest4 (c : Dev nD) : ∀ b, b ∉ Finset.univ.image (Pipeline.arrRef spec4) → rd (W7 m) c b = rd (W6 m) c b :=
  rest_update spec4 6 _ _

end Cert.Kernel.Hand

end
-- ==== Proof.KShare.lean ====
import proofs.«103262_j55946243997874_1_alg».proof.Proof.Gen.Kernel.Launch
import Idealize.ShloMosaic.Lib.Pipeline.FrameBody
import Idealize.ShloMosaic.Lib.Pipeline.RegionsLoop
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable {c : Dev nD} (a t d b o : Ref sig .tc) (V : (r : Ref sig .tc) → Buf (Elt F) ((c : Thread nD τ).loc r))

-- Five buffers, each whole.
abbrev five : sProp 𝕄 :=
  iprop((((c : Thread nD τ).loc a) ↦{fullShare} V a) ∗ (((c : Thread nD τ).loc t) ↦{fullShare} V t)
    ∗ (((c : Thread nD τ).loc d) ↦{fullShare} V d) ∗ (((c : Thread nD τ).loc b) ↦{fullShare} V b) ∗ (((c : Thread nD τ).loc o) ↦{fullShare} V o))

-- The same five as seven holdings: `t` and `d` each in two halves.
abbrev seven : sProp 𝕄 :=
  iprop((((c : Thread nD τ).loc a) ↦{fullShare} V a) ∗ (((c : Thread nD τ).loc t) ↦{fullShare.left} V t)
    ∗ (((c : Thread nD τ).loc d) ↦{fullShare.left} V d) ∗ (((c : Thread nD τ).loc t) ↦{fullShare.right} V t)
    ∗ (((c : Thread nD τ).loc d) ↦{fullShare.right} V d) ∗ (((c : Thread nD τ).loc b) ↦{fullShare} V b) ∗ (((c : Thread nD τ).loc o) ↦{fullShare} V o))

-- A whole buffer is its two halves at the same contents.
theorem five_seven : (five a t d b o V : sProp 𝕄) ⊢ seven a t d b o V := by
  iintro ⟨Ha, Hm, Hd, Hb, Ho⟩
  ihave Hm' := (pointsTo_share (PosShare.mem_left_op_right fullShare)).1 $$ Hm
  icases Hm' with ⟨Hm1, Hm3⟩
  ihave Hd' := (pointsTo_share (PosShare.mem_left_op_right fullShare)).1 $$ Hd
  icases Hd' with ⟨Hd2, Hd4⟩
  isplitl [Ha]; · iexact Ha
  isplitl [Hm1]; · iexact Hm1
  isplitl [Hd2]; · iexact Hd2
  isplitl [Hm3]; · iexact Hm3
  isplitl [Hd4]; · iexact Hd4
  isplitl [Hb]; · iexact Hb
  iexact Ho

theorem seven_five : (seven a t d b o V : sProp 𝕄) ⊢ five a t d b o V := by
  iintro ⟨Ha, Hm1, Hd2, Hm3, Hd4, Hb, Ho⟩
  isplitl [Ha]; · iexact Ha
  isplitl [Hm1 Hm3]
  · iapply (pointsTo_share (PosShare.mem_left_op_right fullShare)).2
    isplitl [Hm1]; · iexact Hm1
    iexact Hm3
  isplitl [Hd2 Hd4]
  · iapply (pointsTo_share (PosShare.mem_left_op_right fullShare)).2
    isplitl [Hd2]; · iexact Hd2
    iexact Hd4
  isplitl [Hb]; · iexact Hb
  iexact Ho

end

-- The windows' arrays, each a whole buffer, at the contents `V` has at them.
theorem arrays_eq' {cfg : Cfg sig Λ₀} {c : Dev nD} (dat : Dat τ (Elt F) Unit ℕ (UR sig nD τ) ℕ cfg c) (harr : ∀ w, (cfg.spec w).arr.IsWhole)
    (V : (b : Ref sig .tc) → Buf (Elt F) ((c : Thread nD τ).loc b))
    (Fn : (w : Fin cfg.W) → Buf (Elt F) ((cfg.win w).arr.view.loc (c.tc : Thread nD τ))) (hF : ∀ w, Fn w = V (Pipeline.arrRef cfg.spec w)) :
    (dat.arrays Fn : sProp 𝕄)
      = bigSep Finset.univ fun w => (((c : Thread nD τ).loc (Pipeline.arrRef cfg.spec w)) ↦{dat.share w} V (Pipeline.arrRef cfg.spec w)) := by
  unfold Pipeline.Dat.arrays
  exact bigSep_congr fun w _ => by rw [(harr w).set_eq_univ, hF w]

-- The buffers behind no window do not see a change of contents at the windows' arrays.
theorem unscopedRest_congr {gr W : ℕ} (spec : Fin W → Pipeline.WinSpec sig gr) (c : Dev nD) (V V' : (b : Ref sig .tc) → Buf (Elt F) ((c : Thread nD τ).loc b))
    (hrest : ∀ b, b ∉ Finset.univ.image (Pipeline.arrRef spec) → V' b = V b) :
    (Pipeline.unscopedRest (Ix := Unit) (Name := ℕ) (U := UR sig nD τ) (Lvl := ℕ) spec c V : sProp 𝕄) = Pipeline.unscopedRest spec c V' := by
  unfold Pipeline.unscopedRest
  exact bigSep_congr fun b hb => by rw [hrest b (Finset.mem_sdiff.mp hb).2]

theorem arrBufs2_eq (c : Dev nD) (V : (b : Ref sig .tc) → Buf (Elt F) ((c : Thread nD τ).loc b)) :
    (Pipeline.arrBufs (Ix := Unit) (Name := ℕ) (U := UR sig nD τ) (Lvl := ℕ) spec2 c V : sProp 𝕄) = five main_arg1 main_v1 main_v0 main_v2 main_v3 V := by
  unfold Pipeline.arrBufs
  exact bigSep_eq_bigSepL_of_eq [main_arg1, main_v1, main_v0, main_v2, main_v3] (by decide) (by decide) _

section
variable (c : Dev nD) (dat : Dat τ (Elt F) Unit ℕ (UR sig nD τ) ℕ cfg2 c)
    (hs0 : dat.share 0 = fullShare) (hs1 : dat.share 1 = fullShare.left) (hs2 : dat.share 2 = fullShare.left)
    (hs3 : dat.share 3 = fullShare.right) (hs4 : dat.share 4 = fullShare.right) (hs5 : dat.share 5 = fullShare) (hs6 : dat.share 6 = fullShare)
    (V : (b : Ref sig .tc) → Buf (Elt F) ((c : Thread nD τ).loc b))
    (Fn : (w : Fin cfg2.W) → Buf (Elt F) ((cfg2.win w).arr.view.loc (c.tc : Thread nD τ)))
    (hF : ∀ w, Fn w = V (Pipeline.arrRef spec2 w))
include hs0 hs1 hs2 hs3 hs4 hs5 hs6 hF

theorem arrays2_eq : (dat.arrays Fn : sProp 𝕄) = seven main_arg1 main_v1 main_v0 main_v2 main_v3 V := by
  rw [arrays_eq' dat arr_whole2 V Fn hF, bigSep_W2, hs0, hs1, hs2, hs3, hs4, hs5, hs6]

theorem arrays_split2 :
    (Pipeline.arrBufs (Ix := Unit) (Name := ℕ) (U := UR sig nD τ) (Lvl := ℕ) spec2 c V : sProp 𝕄) ⊢ dat.arrays Fn := by
  rw [arrBufs2_eq, arrays2_eq c dat hs0 hs1 hs2 hs3 hs4 hs5 hs6 V Fn hF]; exact five_seven _ _ _ _ _ V

theorem arrays_join2 :
    (dat.arrays Fn : sProp 𝕄) ⊢ Pipeline.arrBufs (Ix := Unit) (Name := ℕ) (U := UR sig nD τ) (Lvl := ℕ) spec2 c V := by
  rw [arrBufs2_eq, arrays2_eq c dat hs0 hs1 hs2 hs3 hs4 hs5 hs6 V Fn hF]; exact seven_five _ _ _ _ _ V

end

theorem unscopedBufs_split2 (c : Dev nD) (V : (b : Ref sig .tc) → Buf (Elt F) ((c : Thread nD τ).loc b)) :
    (unscopedBufs c V : sProp 𝕄) = iprop(Pipeline.arrBufs spec2 c V ∗ Pipeline.unscopedRest spec2 c V) :=
  Pipeline.unscopedBufs_split₀ cfgs 2 winFacts₀2.arr_unscoped c V

theorem arrBufs4_eq (c : Dev nD) (V : (b : Ref sig .tc) → Buf (Elt F) ((c : Thread nD τ).loc b)) :
    (Pipeline.arrBufs (Ix := Unit) (Name := ℕ) (U := UR sig nD τ) (Lvl := ℕ) spec4 c V : sProp 𝕄) = five main_arg1 main_v4 main_v0 main_v5 main_v6 V := by
  unfold Pipeline.arrBufs
  exact bigSep_eq_bigSepL_of_eq [main_arg1, main_v4, main_v0, main_v5, main_v6] (by decide) (by decide) _

section
variable (c : Dev nD) (dat : Dat τ (Elt F) Unit ℕ (UR sig nD τ) ℕ cfg4 c)
    (hs0 : dat.share 0 = fullShare) (hs1 : dat.share 1 = fullShare.left) (hs2 : dat.share 2 = fullShare.left)
    (hs3 : dat.share 3 = fullShare.right) (hs4 : dat.share 4 = fullShare.right) (hs5 : dat.share 5 = fullShare) (hs6 : dat.share 6 = fullShare)
    (V : (b : Ref sig .tc) → Buf (Elt F) ((c : Thread nD τ).loc b))
    (Fn : (w : Fin cfg4.W) → Buf (Elt F) ((cfg4.win w).arr.view.loc (c.tc : Thread nD τ)))
    (hF : ∀ w, Fn w = V (Pipeline.arrRef spec4 w))
include hs0 hs1 hs2 hs3 hs4 hs5 hs6 hF

theorem arrays4_eq : (dat.arrays Fn : sProp 𝕄) = seven main_arg1 main_v4 main_v0 main_v5 main_v6 V := by
  rw [arrays_eq' dat arr_whole4 V Fn hF, bigSep_W4, hs0, hs1, hs2, hs3, hs4, hs5, hs6]

theorem arrays_split4 :
    (Pipeline.arrBufs (Ix := Unit) (Name := ℕ) (U := UR sig nD τ) (Lvl := ℕ) spec4 c V : sProp 𝕄) ⊢ dat.arrays Fn := by
  rw [arrBufs4_eq, arrays4_eq c dat hs0 hs1 hs2 hs3 hs4 hs5 hs6 V Fn hF]; exact five_seven _ _ _ _ _ V

theorem arrays_join4 :
    (dat.arrays Fn : sProp 𝕄) ⊢ Pipeline.arrBufs (Ix := Unit) (Name := ℕ) (U := UR sig nD τ) (Lvl := ℕ) spec4 c V := by
  rw [arrBufs4_eq, arrays4_eq c dat hs0 hs1 hs2 hs3 hs4 hs5 hs6 V Fn hF]; exact seven_five _ _ _ _ _ V

end

theorem unscopedBufs_split4 (c : Dev nD) (V : (b : Ref sig .tc) → Buf (Elt F) ((c : Thread nD τ).loc b)) :
    (unscopedBufs c V : sProp 𝕄) = iprop(Pipeline.arrBufs spec4 c V ∗ Pipeline.unscopedRest spec4 c V) :=
  Pipeline.unscopedBufs_split₀ cfgs 4 winFacts₀4.arr_unscoped c V

end Cert.Kernel.Hand

end
-- ==== Proof.KRun.lean ====
import proofs.«103262_j55946243997874_1_alg».proof.Proof.KFold
import proofs.«103262_j55946243997874_1_alg».proof.Proof.KShare

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
-- A region's four entailments, proved once for every region: its arrays are split off the unscoped buffers at entry and joined back at exit; the other buffers pass by unchanged.
def mkReg (p : Fin 5) (V V' : Dev nD → Valuation τ sig (Elt F))
    (win : Pipeline.WinFacts₀ (cfgs p).spec)
    (block_pos : ∀ w : Fin (cfgs p).W, 0 < ((cfgs p).spec w).block.numel)
    (stage_whole : ∀ (w : Fin (cfgs p).W) (s : Fin ((cfgs p).spec w).nbuf), (((cfgs p).spec w).stage s).IsWhole)
    (hbody : ∀ c, Pipeline.BodyObligationLoose (pdats m p c) defs₀ 𝒱₀ () Set.univ)
    (howed : ∀ c t, (pdats m p c).owed t = 0) (hrec : ∀ c, (pdats m p c).recorded 0 = Set.univ)
    (hsplit : ∀ c, (unscopedBufs c (rd V c) : sProp 𝕄)
      ⊢ iprop((pdats m p c).arrays ((pdats m p c).arrAt · 0) ∗ Pipeline.unscopedRest (cfgs p).spec c (rd V c)))
    (hjoin : ∀ c, iprop((pdats m p c).arrays ((pdats m p c).arrAt · (cfgs p).N) ∗ Pipeline.unscopedRest (cfgs p).spec c (rd V c))
      ⊢ (unscopedBufs c (rd V' c) : sProp 𝕄))
    (hfst : ∀ c, Pipeline.ΦA (cfgs p).spec c ⊢ (pdats m p c).Φ 0)
    (hlst : ∀ c, (pdats m p c).Φ (Fin.last (cfgs p).N) ⊢ Pipeline.ΦA (cfgs p).spec c) :
    Pipeline.RegionSeg (pcfgs (F := F)) Gen.adm (pdats m) () defs₀ 𝒱₀ L lv p where
  win := win
  block_pos := block_pos
  stage_whole := stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (V c) ∗ R c)
  post c := iprop(StableHlo.held (c : Thread nD τ) (Pipeline.ucRefs τ sig) (V' c) ∗ R c)
  X c := iprop(∃ r, prngReg c r)
  Y c := iprop(∃ r, prngReg c r)
  Z c := Pipeline.unscopedRest (Ix := Unit) (Name := ℕ) (U := UR sig nD τ) (Lvl := ℕ) (cfgs p).spec c (rd V c)
  hentry c := by
    rw [Pipeline.ownSems0_none]
    have h := hsplit c
    rw [Pipeline.unscopedBufs_held] at h
    iintro ⟨⟨Hub, Hp, HO⟩, -, -⟩
    ihave H := h $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun x _ => Or.inl ((hrec c).symm ▸ Set.mem_univ x)
      iexact HO
    isplitl [Hp]; · iexact Hp
    iexact Hrest
  hin c :=
    (show _ ⊢ (Pipeline.ΦA (cfgs p).spec c : sProp 𝕄) from by
      unfold Pipeline.ΦA
      iintro ⟨Hp, -, Hr⟩
      isplitl [Hr]; · iexact Hr
      iexact Hp).trans (hfst c)
  hout c := (hlst c).trans (by
    rw [Pipeline.ownSems0_none]
    unfold Pipeline.ΦA
    iintro ⟨Hr, Hp⟩
    isplitl [Hp]; · iexact Hp
    isplitr; · iempintro
    iexact Hr)
  hexit c := by
    have h := hjoin c
    rw [Pipeline.unscopedBufs_held] at h
    iintro ⟨Ha, HO, HY, Hrest⟩
    imodintro
    isplitl [Ha Hrest]
    · iapply h; isplitl [Ha] <;> iassumption
    isplitl [HY]; · iexact HY
    unfold Pipeline.Dat.owesAt Pipeline.owesWithin
    rw [howed c]
    icases HO with ⟨%W, -, HO⟩; iexists W; iexact HO

-- The case where each array is one whole buffer: splitting and joining are the library's lemmas.
def mkWhole (p : Fin 5) (V V' : Dev nD → Valuation τ sig (Elt F)) (lf : Pipeline.LaunchFacts (nD := nD) (τ := τ) cfgs p)
    (hbody : ∀ c, Pipeline.BodyObligationLoose (pdats m p c) defs₀ 𝒱₀ () Set.univ)
    (howed : ∀ c t, (pdats m p c).owed t = 0) (hrec : ∀ c, (pdats m p c).recorded 0 = Set.univ)
    (hshare : ∀ c w, (pdats m p c).share w = fullShare)
    (hA : ∀ c w, (pdats m p c).arrAt w 0 = rd V c (Pipeline.arrRef (cfgs p).spec w))
    (hF : ∀ c w, (pdats m p c).arrAt w (cfgs p).N = rd V' c (Pipeline.arrRef (cfgs p).spec w))
    (hrest : ∀ c b, b ∉ Finset.univ.image (Pipeline.arrRef (cfgs p).spec) → rd V' c b = rd V c b)
    (hfst : ∀ c, Pipeline.ΦA (cfgs p).spec c ⊢ (pdats m p c).Φ 0)
    (hlst : ∀ c, (pdats m p c).Φ (Fin.last (cfgs p).N) ⊢ Pipeline.ΦA (cfgs p).spec c) :
    Pipeline.RegionSeg (pcfgs (F := F)) Gen.adm (pdats m) () defs₀ 𝒱₀ L lv p :=
  mkReg m p V V' lf.win.to₀ lf.block_pos lf.stage_whole hbody howed hrec
    (fun c => Pipeline.arrays_of_unscopedBufs (pcfgs (F := F)) Gen.adm (pdats m) lf.win lf.arr_whole c (hshare c) (rd V c) (hA c))
    (fun c => Pipeline.unscopedBufs_of_arrays (pcfgs (F := F)) Gen.adm (Ix := Unit) (Name := ℕ) (U := UR sig nD τ) (Lvl := ℕ)
      lf.win lf.arr_whole c (pdats m) (hshare c) (rd V c) (rd V' c) _ (hF c) (hrest c))
    hfst hlst

def reg0 := mkWhole m 0 (W0 m) (W1 m) launch0 (fun c => (body_obligation0 (rd (W0 m)) c).loose) (fun _ _ => rfl) (fun _ => rfl)
  (fun c => (pdats m 0 c).share_full fun _ => rfl) (fun _ _ => rfl) (hF0 m) (hrest0 m) (hin0 (rd (W0 m))) (hout0 (rd (W0 m)))

def reg1 := mkWhole m 1 (W1 m) (W2 m) launch1 (fun c => (body_obligation1 (rd (W1 m)) c).loose) (fun _ _ => rfl) (fun _ => rfl)
  (fun c => (pdats m 1 c).share_full fun _ => rfl) (fun _ _ => rfl) (hF1 m) (hrest1 m) (fun _ => .rfl) (fun _ => .rfl)

-- Here two arrays each serve two windows: each is split in two halves at entry and the halves are rejoined at exit.
def reg2 := mkReg m 2 (W3 m) (W4 m) winFacts₀2 block_pos2 stage_whole2 (fun c => (body_obligation2 (rd (W3 m)) c).loose) (fun _ _ => rfl) (fun _ => rfl)
  (fun c => (Entails.of_eq (unscopedBufs_split2 c _)).trans
    (sep_mono (arrays_split2 c (pdats m 2 c) rfl rfl rfl rfl rfl rfl rfl (rd (W3 m) c) _ (A_eq2 (rd (W3 m)) c)) .rfl))
  (fun c => (BIClass.sep_mono (arrays_join2 c (pdats m 2 c) rfl rfl rfl rfl rfl rfl rfl (rd (W4 m) c) _ (hF2 m c))
    (Entails.of_eq (unscopedRest_congr spec2 c _ _ (hrest2 m c)))).trans (Entails.of_eq (unscopedBufs_split2 c _).symm))
  (hin2 (rd (W3 m))) (hout2 (rd (W3 m)))

def reg3 := mkWhole m 3 (W4 m) (W5 m) launch3 (fun c => (body_obligation3 (rd (W4 m)) c).loose) (fun _ _ => rfl) (fun _ => rfl)
  (fun c => (pdats m 3 c).share_full fun _ => rfl) (fun _ _ => rfl) (hF3 m) (hrest3 m) (fun _ => .rfl) (fun _ => .rfl)

-- As region 2.
def reg4 := mkReg m 4 (W6 m) (W7 m) winFacts₀4 block_pos4 stage_whole4 (fun c => (body_obligation4 (rd (W6 m)) c).loose) (fun _ _ => rfl) (fun _ => rfl)
  (fun c => (Entails.of_eq (unscopedBufs_split4 c _)).trans
    (sep_mono (arrays_split4 c (pdats m 4 c) rfl rfl rfl rfl rfl rfl rfl (rd (W6 m) c) _ (A_eq4 (rd (W6 m)) c)) .rfl))
  (fun c => (BIClass.sep_mono (arrays_join4 c (pdats m 4 c) rfl rfl rfl rfl rfl rfl rfl (rd (W7 m) c) _ (hF4 m c))
    (Entails.of_eq (unscopedRest_congr spec4 c _ _ (hrest4 m c)))).trans (Entails.of_eq (unscopedBufs_split4 c _).symm))
  (hin4 (rd (W6 m))) (hout4 (rd (W6 m)))

-- Equal valuations are held alike.
theorem held_eq {c : Dev nD} {V V' : Valuation τ sig (Elt F)} (h : V = V') :
    (iprop(StableHlo.held (c : Thread nD τ) (Pipeline.ucRefs τ sig) V ∗ R c) : sProp 𝕄)
      ⊢ iprop(StableHlo.held (c : Thread nD τ) (Pipeline.ucRefs τ sig) V' ∗ R c) := h ▸ .rfl

variable (ρ : Dev nD → PrngReg)

theorem V7_main_v6 (c : Dev nD) : Gen.V7 m (outs m) c main_v6 = o7 m c := by
  rw [V7_eq]
  show Function.update (W6 m c) (Proc.devRef .tc main_v6) (o7 m c) (Proc.devRef .tc main_v6) = o7 m c
  rw [Function.update_self]

set_option backward.isDefEq.respectTransparency.types false in
theorem run_value : θ_run defs (onTc (τ := τ) (main (F := F))) ⟨m, fun _ => 0, ρ⟩ (fun r => ∀ c : Dev nD,
      r.2.mem ((c.tc : Thread nD τ).loc main_v6) = o7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) Gen.adm (pdats m) () cellOf_inj (emb₁ : Emb (URounds (GSem nD τ sig) Unit) 𝕄) defs₀ 𝒱₀ L lv m ρ main
    (Gen.segs m (outs m) 𝒱₀ L lv (fun _ c => R c) () (pdats m) (reg0 m) (reg1 m) (reg2 m) (reg3 m) (reg4 m))
    (fun c Q => by rewrite [main_chain c, Pipeline.Seg.run_eq_chain]; exact .rfl)
    (fun c => by simp only [Gen.segs, Pipeline.Seg.pipes_host, Pipeline.Seg.pipes_region, Pipeline.Seg.pipes_nil]; decide)
    (fun _ => 0) (fun _ _ => rfl) (fun _ => (BI.emp : sProp 𝕄))
    (initOf (Pipeline.cells cfgs cellOf_inj) (Pipeline.launchToks cfgs cellOf_inj))
    (by
      rw [BI.bigSep_emp_const]; iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V7 m (outs m) c))
    (hch := fun c => ⟨.rfl, .rfl, held_eq (V2_eq m c).symm, held_eq (V3_eq m c), .rfl, held_eq (V5_eq m c).symm, held_eq (V6_eq m c),
      (held_eq (V7_eq m c).symm).trans (sep_mono .rfl (by iintro ⟨-, HO⟩; iexact HO))⟩)
    (hinit := ?_)
    (QY := _) (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (Gen.V7 m (outs m) c) s') $$ [Hh HSI]
    · isplitl [Hh] <;> iassumption
    icases Hr with ⟨%h, HSI⟩
    imodintro
    isplitr
    · ipureintro
      have g := fun (r : Ref sig .tc) (hr : ¬ (Proc.devRef (τ := τ) .tc r).isScoped) =>
        h (Proc.devRef .tc r) (Finset.mem_filter.mpr ⟨StableHlo.devRef_mem_tcRefs r, hr⟩)
      exact ⟨(g main_v6 (by decide)).trans (V7_main_v6 m c),
        (g main_arg0 (by decide)).trans (Gen.V7_main_arg0 m (outs m) c), (g main_arg1 (by decide)).trans (Gen.V7_main_arg1 m (outs m) c),
        (g main_arg2 (by decide)).trans (Gen.V7_main_arg2 m (outs m) c), (g main_arg3 (by decide)).trans (Gen.V7_main_arg3 m (outs m) c),
        (g main_arg4 (by decide)).trans (Gen.V7_main_arg4 m (outs m) c), (g main_arg5 (by decide)).trans (Gen.V7_main_arg5 m (outs m) c)⟩
    · iexact HSI

-- The frame is the run's claim with the result buffer's conjunct dropped.
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => (h c).2) (run_value m ρ)

end Cert.Kernel.Hand

end
-- ==== Proof.KIReg0Runs.lean ====
import proofs.«103262_j55946243997874_1_alg».proof.Proof.Gen.KernelIdeal.Launch
import proofs.«103262_j55946243997874_1_alg».proof.Proof.Gen.KernelIdeal.Skeleton
import proofs.«103262_j55946243997874_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 12 = 0 :=
  (by decide +kernel : ∀ t : Fin grid0.N, cond0_0 (grid0.coords t) ↔ t.val % 12 = 0)

abbrev cond0_1 (i : grid0.Coords) : Prop := k0_cond2 i = 1#1
theorem hcond0_1 : ∀ t : Fin cfg0.N, cond0_1 (grid0.coords t) ↔ t.val % 12 = 11 :=
  (by decide +kernel : ∀ t : Fin grid0.N, cond0_1 (grid0.coords t) ↔ t.val % 12 = 11)

theorem liveAt0_0 : ∀ t : Fin cfg0.N, cfg0.idle 0 (grid0.coords t) = false := by decide +kernel
theorem idle0_1 : ∀ t : Fin cfg0.N, ¬t.val % 12 = 11 → cfg0.idle 1 (grid0.coords t) = true := by decide +kernel
theorem live0_1 : ∀ t : Fin cfg0.N, t.val % 12 = 11 → cfg0.idle 1 (grid0.coords t) = false := by decide +kernel

abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1 .f32 := win0_1.stage (cfg0.slots t 1)
abbrev hs0_1 (t : Fin cfg0.N) : (ms0_1 t).IsWhole := hstage0_1 ((cfg0.slots t 1).cast nbuf0_1)
abbrev scM0_0 : Memref sig .tc .vmem S2048x1 .f32 := Memref.whole cc0_scratch0
abbrev VS0_0 : View sig .tc .vmem S2048x1 .f32 := scM0_0.view

theorem PhiA0_eq (c : Dev nD) :
    (Pipeline.ΦA spec0 c : sProp 𝕄)
      = iprop(iprop(iprop((∃ d, owns (c : Thread nD τ) scM0_0 fullShare d)) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

variable (c : Dev nD) (i : grid0.Coords) (arg2 : Memref sig .tc .vmem S2048x1024 .f32) (harg2 : arg2.IsWhole) (arg3 : Memref sig .tc .vmem S2048x1 .f32) (harg3 : arg3.IsWhole) (arg4 : Memref sig .tc .vmem S2048x1 .f32) (harg4 : arg4.IsWhole)

set_option maxHeartbeats 1000000 in
noncomputable def kernelRun0_A (hc0 : cond0_0 i) (hc1 : ¬cond0_1 i)
    (x0 : Vec F S2048x1024 .f32) :
    { LS0 : List (View.Piece (Elt F) S2048x1 .f32) //
      ∀ (xi1 : Vec F S2048x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨?_, fun xi1 E K => ?run⟩
  case run =>
    simp only [cc0__degree_kernel_eq_skeleton]; unfold cc0__degree_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
noncomputable def kernelRun0_B (hc0 : ¬cond0_0 i) (hc1 : ¬cond0_1 i)
    (x0 : Vec F S2048x1024 .f32) (xs0 : Vec F S2048x1 .f32) :
    { LS0 : List (View.Piece (Elt F) S2048x1 .f32) //
      ∀ (xi1 : Vec F S2048x1 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨?_, fun xi1 E K => ?run⟩
  case run =>
    simp only [cc0__degree_kernel_eq_skeleton]; unfold cc0__degree_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
noncomputable def kernelRun0_C (hc0 : ¬cond0_0 i) (hc1 : cond0_1 i)
    (x0 : Vec F S2048x1024 .f32) (xs0 : Vec F S2048x1 .f32) :
    Σ' (L1 : List (View.Piece (Elt F) S2048x1 .f32)), { LS0 : List (View.Piece (Elt F) S2048x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨?_, ?_, fun E K => ?run⟩
  case run =>
    simp only [cc0__degree_kernel_eq_skeleton]; unfold cc0__degree_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.KernelIdeal.Hand

end
-- ==== Proof.KIReg0.lean ====
import proofs.«103262_j55946243997874_1_alg».proof.Proof.KIReg0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def runA0 (c : Dev nD) (t : Fin cfg0.N) (h0 : t.val % 12 = 0) :=
  kernelRun0_A (F := F) c (grid0.coords t) (ms0_0 t) (hs0_0 t) (ms0_1 t) (hs0_1 t) scM0_0 (Memref.isWhole_whole _) ((hcond0_0 t).mpr h0) (fun h => by have := (hcond0_1 t).mp h; omega) (iblk0 V c 0 t)

def runB0 (c : Dev nD) (t : Fin cfg0.N) (h0 : ¬t.val % 12 = 0) (h1 : ¬t.val % 12 = 11) (xs : Vec F S2048x1 .f32) :=
  kernelRun0_B (F := F) c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) xs

def runC0 (c : Dev nD) (t : Fin cfg0.N) (h1 : t.val % 12 = 11) (xs : Vec F S2048x1 .f32) :=
  kernelRun0_C (F := F) c (grid0.coords t) (ms0_0 t) (hs0_0 t) (ms0_1 t) (hs0_1 t) scM0_0 (Memref.isWhole_whole _) (fun h => by have := (hcond0_0 t).mp h; omega) ((hcond0_1 t).mpr h1) (iblk0 V c 0 t) xs

-- What a list of stores leaves in a block of the accumulator's shape.
abbrev left0 (L : List (View.Piece (Elt F) S2048x1 .f32)) : Vec F S2048x1 .f32 :=
  VS0_0.read (Elt F) (VS0_0.writes (Elt F) VS0_0.junk L)

def accAt0 (c : Dev nD) : (n : ℕ) → n < cfg0.N → Vec F S2048x1 .f32
  | 0, hn => left0 (runA0 V c ⟨0, hn⟩ (Nat.zero_mod _)).1
  | n + 1, hn =>
    if h1 : (n + 1) % 12 = 11 then left0 (runC0 V c ⟨n + 1, hn⟩ h1 (accAt0 c n (Nat.lt_of_succ_lt hn))).2.1
    else if h0 : (n + 1) % 12 = 0 then left0 (runA0 V c ⟨n + 1, hn⟩ h0).1
    else left0 (runB0 V c ⟨n + 1, hn⟩ h0 h1 (accAt0 c n (Nat.lt_of_succ_lt hn))).1

abbrev prev0 (c : Dev nD) (t : Fin cfg0.N) : Vec F S2048x1 .f32 :=
  accAt0 V c (t.val - 1) (Nat.lt_of_le_of_lt (Nat.sub_le _ _) t.isLt)

theorem accAt0_A (c : Dev nD) (t : Fin cfg0.N) (h0 : t.val % 12 = 0) :
    accAt0 V c t.val t.isLt = left0 (runA0 V c t h0).1 := by
  obtain ⟨_ | n, hn⟩ := t
  · rfl
  · exact (dif_neg fun h => by have : (n + 1) % 12 = 0 := h0; omega).trans (dif_pos h0)

theorem accAt0_B (c : Dev nD) (t : Fin cfg0.N) (h0 : ¬t.val % 12 = 0) (h1 : ¬t.val % 12 = 11) :
    accAt0 V c t.val t.isLt = left0 (runB0 V c t h0 h1 (prev0 V c t)).1 := by
  obtain ⟨_ | n, hn⟩ := t
  · exact absurd (Nat.zero_mod _) h0
  · exact (dif_neg h1).trans (dif_neg h0)

theorem accAt0_C (c : Dev nD) (t : Fin cfg0.N) (h1 : t.val % 12 = 11) :
    accAt0 V c t.val t.isLt = left0 (runC0 V c t h1 (prev0 V c t)).2.1 := by
  obtain ⟨_ | n, hn⟩ := t
  · exact absurd h1 (by decide : ¬0 % 12 = 11)
  · exact dif_pos h1

abbrev inv0 (c : Dev nD) (x : Vec F S2048x1 .f32) : sProp 𝕄 :=
  iprop(iprop(owns (c : Thread nD τ) scM0_0 fullShare x ∗ Pipeline.scopedRestBut (Ix := Unit) (Name := ℕ) (U := UR sig nD τ) (Lvl := ℕ) (Val := Elt F) spec0 c [cc0_scratch0]) ∗ (∃ r, prngReg c r))

def PhiS0 (c : Dev nD) : (n : ℕ) → n ≤ cfg0.N → sProp 𝕄
  | 0, _ => Pipeline.ΦA spec0 c
  | n + 1, hn => inv0 c (accAt0 V c n hn)

-- Forgetting the accumulator's contents gives the entry invariant back.
theorem PhiS0_forget (c : Dev nD) : ∀ (n : ℕ) (h : n ≤ cfg0.N), PhiS0 V c n h ⊢ Pipeline.ΦA spec0 c
  | 0, _ => .rfl
  | n + 1, h => by
    rw [PhiA0_eq]; change inv0 c _ ⊢ _
    iintro ⟨⟨HS0, HR⟩, Hg⟩
    iframe HR Hg
    iexists _; iexact HS0

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => if h1 : t.val % 12 = 11 then left0 (runC0 V c t h1 (prev0 V c t)).1 else accAt0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := rfl

theorem Phi0_pos (c : Dev nD) (t : Fin cfg0.N) (hz : t.val ≠ 0) : (dat0 V c).Φ t.castSucc = inv0 c (prev0 V c t) := by
  obtain ⟨_ | n, hn⟩ := t
  · exact absurd rfl hz
  · rfl

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d

theorem sound_body0 (c : Dev nD) (t : Fin cfg0.N) :
    iprop((dat0 V c).Φ t.castSucc ∗ (dat0 V c).owesAt () t.castSucc
        ∗ (∃ d, owns (c : Thread nD τ) (ms0_0 t) fullShare ((dat0 V c).before 0 t d))
        ∗ (∃ d, owns (c : Thread nD τ) (ms0_1 t) fullShare ((dat0 V c).before 1 t d)))
      ⊢ wp frame (wpE (defs₀ (F := F)) Variants.none c none) Set.univ (bodyAt0 t) (fun _ =>
          iprop((dat0 V c).Φ t.succ ∗ (dat0 V c).owesAt () t.succ ∗ (dat0 V c).leavesExact 0 t ∗ (dat0 V c).leavesExact 1 t)) := by
  simp only [before0_0]
  rw [show (dat0 V c).owesAt () t.succ = (dat0 V c).owesAt () t.castSucc from rfl,
    show (dat0 V c).Φ t.succ = inv0 c (accAt0 V c t.val t.isLt) from rfl,
    show (dat0 V c).leavesExact 0 t = owns (c : Thread nD τ) (ms0_0 t) fullShare (iblk0 V c 0 t) from by
      unfold Dat.leavesExact; rw [liveAt0_0 t]; rfl]
  unfold inv0
  have hN : t.val < 72 := lt_of_lt_of_eq t.isLt (show cfg0.N = 72 from N_0)
  by_cases h1 : t.val % 12 = 11
  · rw [show (dat0 V c).leavesExact 1 t = owns (c : Thread nD τ) (ms0_1 t) fullShare ((dat0 V c).after 1 t) from by
        unfold Dat.leavesExact; rw [live0_1 t h1],
      show (dat0 V c).after 1 t = left0 (runC0 V c t h1 (prev0 V c t)).1 from dif_pos h1, accAt0_C V c t h1, Phi0_pos V c t (by omega)]
    iintro ⟨⟨⟨HS0, HR⟩, Hg⟩, Ho, ⟨%d0, H0⟩, ⟨%d1, H1⟩⟩
    iapply ((runC0 V c t h1 (prev0 V c t)).2.2 Set.univ _)
    iframe H0 HS0
    isplitl [H1]; · iexists _; iexact H1
    iintro ⟨H0, ⟨%e1, H1⟩, ⟨%es0, HS0⟩⟩
    iframe HR Hg Ho H0
    isplitl [HS0]
    · ihave H' := (Ring.owns_of_writes_tiledL VS0_0 S2048x1.size) $$ HS0; iapply H'; ipureintro; sl_kernel_rfl
    ihave H' := (Ring.owns_of_writes_tiledL VS0_0 S2048x1.size) $$ H1; iapply H'; ipureintro; sl_kernel_rfl
  · rw [Dat.leavesExact_idle (dat0 V c) 1 t (idle0_1 t h1) (Bool.eq_false_iff.mpr fun h => h1 ((flush0_1 t).mp h))]
    by_cases h0 : t.val % 12 = 0
    on_goal 1 =>
      rw [accAt0_A V c t h0]
      refine (sep_mono_left (PhiS0_forget V c t.val (Nat.le_of_lt t.isLt))).trans ?_
      rw [PhiA0_eq]
      iintro ⟨⟨⟨HS0, HR⟩, Hg⟩, Ho, ⟨%d0, H0⟩, ⟨%d1, H1⟩⟩
      iapply ((runA0 V c t h0).2 ((dat0 V c).before 1 t d1) Set.univ _)
    on_goal 2 =>
      rw [accAt0_B V c t h0 h1, Phi0_pos V c t (by omega)]
      iintro ⟨⟨⟨HS0, HR⟩, Hg⟩, Ho, ⟨%d0, H0⟩, ⟨%d1, H1⟩⟩
      iapply ((runB0 V c t h0 h1 (prev0 V c t)).2 ((dat0 V c).before 1 t d1) Set.univ _)
    all_goals
      iframe H0 H1 HS0
      iintro ⟨H0, H1, ⟨%es0, HS0⟩⟩
      iframe HR Hg Ho H0
      isplitl [HS0]
      · ihave H' := (Ring.owns_of_writes_tiledL VS0_0 S2048x1.size) $$ HS0; iapply H'; ipureintro; sl_kernel_rfl
      iexists _; iexact H1

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := .rfl

theorem hout0 (c : Dev nD) : (dat0 V c).Φ (Fin.last cfg0.N) ⊢ Pipeline.ΦA spec0 c := PhiS0_forget V c cfg0.N (Nat.le_refl _)

end Cert.KernelIdeal.Hand

end
-- ==== Proof.KIReg1.lean ====
import proofs.«103262_j55946243997874_1_alg».proof.Proof.Gen.KernelIdeal.Launch
import proofs.«103262_j55946243997874_1_alg».proof.Proof.Gen.KernelIdeal.Skeleton
import proofs.«103262_j55946243997874_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

set_option maxHeartbeats 4000000 in
theorem sound_kernel1 (c : Dev nD) (E : Set ℕ) (i : grid1.Coords)
    (arg1 : Memref sig .tc .vmem S2048x512 .f32) (harg1 : arg1.IsWhole) (arg2 : Memref sig .tc .vmem S512x16 .f32) (harg2 : arg2.IsWhole)
    (arg3 : Memref sig .tc .vmem S2048x16 .f32) (harg3 : arg3.IsWhole)
    (x0 : Vec F S2048x512 .f32) (x1 : Vec F S512x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (k1_pay1 x0 x1)) -∗ K ⟨⟩))
      ⊢ wp frame (wpE (defs₀ (F := F)) Variants.none c none) E (cc1__dense_matmul_kernel i arg1 harg1 arg2 harg2 arg3 harg3) K := by
  simp only [cc1__dense_matmul_kernel_eq_skeleton]; unfold cc1__dense_matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  have hz : (![0, 0] : Fin 2 → Nat) = fun _ => 0 := funext fun a => by fin_cases a <;> rfl
  refine (View.read_writes_eq_canon _ _ _ (View.cover_of_tiled _ S2048x16.size (by rfl))).trans ?_
  rw [View.canon_unit_zero hz]
  exact congrArg₂ k1_pay1 (View.ld_unit_zero (S := S2048x512) hz _ _) (View.ld_unit_zero (S := S512x16) hz _ _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := rfl

theorem after1_2 (c : Dev nD) (t : Fin cfg1.N) :
    (dat1 V c).after 2 t = k1_pay1 (iblk1 V c 0 t) (iblk1 V c 1 t) := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d

theorem sound_body1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d)))
      ⊢ wp frame (wpE (defs₀ (F := F)) Variants.none c none) Set.univ (bodyAt1 t) (fun _ =>
          iprop((dat1 V c).Φ t.succ ∗ (dat1 V c).owesAt () t.succ
            ∗ owns (c : Thread nD τ) (st1_0 t) fullShare ((dat1 V c).after 0 t)
            ∗ owns (c : Thread nD τ) (st1_1 t) fullShare ((dat1 V c).after 1 t)
            ∗ owns (c : Thread nD τ) (st1_2 t) fullShare ((dat1 V c).after 2 t))) := by
  simp only [before1_0, before1_1]
  dsimp only [dat1]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  iframe H0 H1
  isplitl [H2]; · iexists _; iexact H2
  iintro ⟨H0, H1, H2⟩
  iframe HΦ H0 H1 H2
  iexact Ho

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIReg2RunA.lean ====
import proofs.«103262_j55946243997874_1_alg».proof.Proof.Gen.KernelIdeal.Launch
import proofs.«103262_j55946243997874_1_alg».proof.Proof.Gen.KernelIdeal.Skeleton
import proofs.«103262_j55946243997874_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 12 = 0 :=
  (by decide +kernel : ∀ t : Fin grid2.N, cond2_0 (grid2.coords t) ↔ t.val % 12 = 0)

abbrev cond2_1 (i : grid2.Coords) : Prop := k2_cond2 i = 1#1
theorem hcond2_1 : ∀ t : Fin cfg2.N, cond2_1 (grid2.coords t) ↔ t.val % 12 = 11 :=
  (by decide +kernel : ∀ t : Fin grid2.N, cond2_1 (grid2.coords t) ↔ t.val % 12 = 11)

theorem live2 : ∀ (t : Fin cfg2.N) (w : Fin cfg2.W), w.val < 6 → cfg2.idle w (grid2.coords t) = false := by decide +kernel
theorem idle2_6 : ∀ t : Fin cfg2.N, ¬t.val % 12 = 11 → cfg2.idle 6 (grid2.coords t) = true := by decide +kernel
theorem live2_6 : ∀ t : Fin cfg2.N, t.val % 12 = 11 → cfg2.idle 6 (grid2.coords t) = false := by decide +kernel

abbrev ms2_0 (t : Fin cfg2.N) : Memref sig .tc .vmem S2048x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x16 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x16 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S2048x1 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x16 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S2048x16 .f32 := win2_6.stage (cfg2.slots t 6)
abbrev hs2_6 (t : Fin cfg2.N) : (ms2_6 t).IsWhole := hstage2_6 ((cfg2.slots t 6).cast nbuf2_6)
abbrev scM2 : Memref sig .tc .vmem S2048x16 .f32 := Memref.whole cc2_scratch0
abbrev VS2 : View sig .tc .vmem S2048x16 .f32 := scM2.view
-- What a list of stores leaves in a block of the accumulator's shape.
abbrev left2 (L : List (View.Piece (Elt F) S2048x16 .f32)) : Vec F S2048x16 .f32 :=
  VS2.read (Elt F) (VS2.writes (Elt F) VS2.junk L)

theorem PhiA2_eq (c : Dev nD) :
    (Pipeline.ΦA spec2 c : sProp 𝕄)
      = iprop(iprop(iprop((∃ d, owns (c : Thread nD τ) scM2 fullShare d)) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

-- A whole buffer still at the contents it was handed at reads them back.
theorem keep2 {s : Shape} (c : Dev nD) (m : Memref sig .tc .vmem s .f32) (h : m.IsWhole) (x : Vec F s .f32) :
    (m.view.loc (c : Thread nD τ) ↦[m.view.set]{fullShare} h.unread x : sProp 𝕄)
      ⊢ iprop(∃ f, ⌜m.view.read (Elt F) f = x⌝ ∗ (m.view.loc (c : Thread nD τ) ↦[m.view.set]{fullShare} f)) := by
  iintro H; iexists _; isplitr; · ipureintro; exact h.read_unread _
  iexact H

set_option maxHeartbeats 4000000 in
noncomputable def kernelRun2_A (c : Dev nD) (i : grid2.Coords) (arg2 : Memref sig .tc .vmem S2048x1024 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S2048x16 .f32) (harg5 : arg5.IsWhole) (arg6 : Memref sig .tc .vmem S2048x1 .f32) (harg6 : arg6.IsWhole) (arg7 : Memref sig .tc .vmem S1x16 .f32) (harg7 : arg7.IsWhole) (arg8 : Memref sig .tc .vmem S2048x16 .f32) (harg8 : arg8.IsWhole) (arg9 : Memref sig .tc .vmem S2048x16 .f32) (harg9 : arg9.IsWhole) (hc0 : cond2_0 i) (hc1 : ¬cond2_1 i)
    (x0 : Vec F S2048x1024 .f32) (x1 : Vec F S1024x16 .f32) (x2 : Vec F S1024x1 .f32) (x3 : Vec F S2048x16 .f32) (x4 : Vec F S2048x1 .f32) (x5 : Vec F S1x16 .f32) :
    { LS0 : List (View.Piece (Elt F) S2048x16 .f32) //
      ∀ (xi6 : Vec F S2048x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc2_kernel i arg2 harg2 arg3 harg3 arg4 harg4 arg5 harg5 arg6 harg6 arg7 harg7 arg8 harg8 arg9 harg9) K } := by
  refine ⟨?_, fun xi6 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    sl_exec (disch := first | exact hc0 | exact hc1)
    sl_step
    iapply Hk
    isplitl [H0]; · iapply keep2 c arg2 harg2 x0; iexact H0
    isplitl [H1]; · iapply keep2 c arg3 harg3 x1; iexact H1
    isplitl [H2]; · iapply keep2 c arg4 harg4 x2; iexact H2
    isplitl [H3]; · iapply keep2 c arg5 harg5 x3; iexact H3
    isplitl [H4]; · iapply keep2 c arg6 harg6 x4; iexact H4
    isplitl [H5]; · iapply keep2 c arg7 harg7 x5; iexact H5
    isplitl [H6]; · iapply keep2 c arg8 harg8 xi6; iexact H6
    iexists _; iexact HS0

end Cert.KernelIdeal.Hand

end
-- ==== Proof.KIReg2RunB.lean ====
import proofs.«103262_j55946243997874_1_alg».proof.Proof.KIReg2RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_B (c : Dev nD) (i : grid2.Coords) (arg2 : Memref sig .tc .vmem S2048x1024 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S2048x16 .f32) (harg5 : arg5.IsWhole) (arg6 : Memref sig .tc .vmem S2048x1 .f32) (harg6 : arg6.IsWhole) (arg7 : Memref sig .tc .vmem S1x16 .f32) (harg7 : arg7.IsWhole) (arg8 : Memref sig .tc .vmem S2048x16 .f32) (harg8 : arg8.IsWhole) (arg9 : Memref sig .tc .vmem S2048x16 .f32) (harg9 : arg9.IsWhole) (hc0 : ¬cond2_0 i) (hc1 : ¬cond2_1 i)
    (x0 : Vec F S2048x1024 .f32) (x1 : Vec F S1024x16 .f32) (x2 : Vec F S1024x1 .f32) (x3 : Vec F S2048x16 .f32) (x4 : Vec F S2048x1 .f32) (x5 : Vec F S1x16 .f32) (xs0 : Vec F S2048x16 .f32) :
    { LS0 : List (View.Piece (Elt F) S2048x16 .f32) //
      ∀ (xi6 : Vec F S2048x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc2_kernel i arg2 harg2 arg3 harg3 arg4 harg4 arg5 harg5 arg6 harg6 arg7 harg7 arg8 harg8 arg9 harg9) K } := by
  refine ⟨?_, fun xi6 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hfs0
    sl_exec (disch := first | exact hc0 | exact hc1)
    sl_step
    iapply Hk
    isplitl [H0]; · iapply keep2 c arg2 harg2 x0; iexact H0
    isplitl [H1]; · iapply keep2 c arg3 harg3 x1; iexact H1
    isplitl [H2]; · iapply keep2 c arg4 harg4 x2; iexact H2
    isplitl [H3]; · iapply keep2 c arg5 harg5 x3; iexact H3
    isplitl [H4]; · iapply keep2 c arg6 harg6 x4; iexact H4
    isplitl [H5]; · iapply keep2 c arg7 harg7 x5; iexact H5
    isplitl [H6]; · iapply keep2 c arg8 harg8 xi6; iexact H6
    iexists _; iexact HS0

end Cert.KernelIdeal.Hand

end
-- ==== Proof.KIReg2RunC.lean ====
import proofs.«103262_j55946243997874_1_alg».proof.Proof.KIReg2RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_C (c : Dev nD) (i : grid2.Coords) (arg2 : Memref sig .tc .vmem S2048x1024 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S2048x16 .f32) (harg5 : arg5.IsWhole) (arg6 : Memref sig .tc .vmem S2048x1 .f32) (harg6 : arg6.IsWhole) (arg7 : Memref sig .tc .vmem S1x16 .f32) (harg7 : arg7.IsWhole) (arg8 : Memref sig .tc .vmem S2048x16 .f32) (harg8 : arg8.IsWhole) (arg9 : Memref sig .tc .vmem S2048x16 .f32) (harg9 : arg9.IsWhole) (hc0 : ¬cond2_0 i) (hc1 : cond2_1 i)
    (x0 : Vec F S2048x1024 .f32) (x1 : Vec F S1024x16 .f32) (x2 : Vec F S1024x1 .f32) (x3 : Vec F S2048x16 .f32) (x4 : Vec F S2048x1 .f32) (x5 : Vec F S1x16 .f32) (xs0 : Vec F S2048x16 .f32) :
    Σ' (L6 : List (View.Piece (Elt F) S2048x16 .f32)), { LS0 : List (View.Piece (Elt F) S2048x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc2_kernel i arg2 harg2 arg3 harg3 arg4 harg4 arg5 harg5 arg6 harg6 arg7 harg7 arg8 harg8 arg9 harg9) K } := by
  refine ⟨?_, ?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hfs0
    sl_exec (disch := first | exact hc0 | exact hc1)
    sl_step
    iapply Hk
    isplitl [H0]; · iapply keep2 c arg2 harg2 x0; iexact H0
    isplitl [H1]; · iapply keep2 c arg3 harg3 x1; iexact H1
    isplitl [H2]; · iapply keep2 c arg4 harg4 x2; iexact H2
    isplitl [H3]; · iapply keep2 c arg5 harg5 x3; iexact H3
    isplitl [H4]; · iapply keep2 c arg6 harg6 x4; iexact H4
    isplitl [H5]; · iapply keep2 c arg7 harg7 x5; iexact H5
    isplitl [H6]; · iexists _; iexact H6
    iexists _; iexact HS0

end Cert.KernelIdeal.Hand

end
-- ==== Proof.KIReg2.lean ====
import proofs.«103262_j55946243997874_1_alg».proof.Proof.KIReg2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def runA2 (c : Dev nD) (t : Fin cfg2.N) (h0 : t.val % 12 = 0) :=
  kernelRun2_A (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) ((hcond2_0 t).mpr h0) (fun h => by have := (hcond2_1 t).mp h; omega) (iblk2 V c 0 t) (iblk2 V c 1 t) (iblk2 V c 2 t) (iblk2 V c 3 t) (iblk2 V c 4 t) (iblk2 V c 5 t)

def runB2 (c : Dev nD) (t : Fin cfg2.N) (h0 : ¬t.val % 12 = 0) (h1 : ¬t.val % 12 = 11) (xs : Vec F S2048x16 .f32) :=
  kernelRun2_B (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) xs

def runC2 (c : Dev nD) (t : Fin cfg2.N) (h1 : t.val % 12 = 11) (xs : Vec F S2048x16 .f32) :=
  kernelRun2_C (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) (fun h => by have := (hcond2_0 t).mp h; omega) ((hcond2_1 t).mpr h1) (iblk2 V c 0 t) (iblk2 V c 1 t) (iblk2 V c 2 t) (iblk2 V c 3 t) (iblk2 V c 4 t) (iblk2 V c 5 t) xs

def accAt2 (c : Dev nD) : (n : ℕ) → n < cfg2.N → Vec F S2048x16 .f32
  | 0, hn => left2 (runA2 V c ⟨0, hn⟩ (Nat.zero_mod _)).1
  | n + 1, hn =>
    if h1 : (n + 1) % 12 = 11 then left2 (runC2 V c ⟨n + 1, hn⟩ h1 (accAt2 c n (Nat.lt_of_succ_lt hn))).2.1
    else if h0 : (n + 1) % 12 = 0 then left2 (runA2 V c ⟨n + 1, hn⟩ h0).1
    else left2 (runB2 V c ⟨n + 1, hn⟩ h0 h1 (accAt2 c n (Nat.lt_of_succ_lt hn))).1

abbrev prev2 (c : Dev nD) (t : Fin cfg2.N) : Vec F S2048x16 .f32 :=
  accAt2 V c (t.val - 1) (Nat.lt_of_le_of_lt (Nat.sub_le _ _) t.isLt)

theorem accAt2_A (c : Dev nD) (t : Fin cfg2.N) (h0 : t.val % 12 = 0) :
    accAt2 V c t.val t.isLt = left2 (runA2 V c t h0).1 := by
  obtain ⟨_ | n, hn⟩ := t
  · rfl
  · exact (dif_neg fun h => by have : (n + 1) % 12 = 0 := h0; omega).trans (dif_pos h0)

theorem accAt2_B (c : Dev nD) (t : Fin cfg2.N) (h0 : ¬t.val % 12 = 0) (h1 : ¬t.val % 12 = 11) :
    accAt2 V c t.val t.isLt = left2 (runB2 V c t h0 h1 (prev2 V c t)).1 := by
  obtain ⟨_ | n, hn⟩ := t
  · exact absurd (Nat.zero_mod _) h0
  · exact (dif_neg h1).trans (dif_neg h0)

theorem accAt2_C (c : Dev nD) (t : Fin cfg2.N) (h1 : t.val % 12 = 11) :
    accAt2 V c t.val t.isLt = left2 (runC2 V c t h1 (prev2 V c t)).2.1 := by
  obtain ⟨_ | n, hn⟩ := t
  · exact absurd h1 (by decide : ¬0 % 12 = 11)
  · exact dif_pos h1

abbrev inv2 (c : Dev nD) (x : Vec F S2048x16 .f32) : sProp 𝕄 :=
  iprop(iprop(owns (c : Thread nD τ) scM2 fullShare x ∗ Pipeline.scopedRestBut (Ix := Unit) (Name := ℕ) (U := UR sig nD τ) (Lvl := ℕ) (Val := Elt F) spec2 c [cc2_scratch0]) ∗ (∃ r, prngReg c r))

def PhiS2 (c : Dev nD) : (n : ℕ) → n ≤ cfg2.N → sProp 𝕄
  | 0, _ => Pipeline.ΦA spec2 c
  | n + 1, hn => inv2 c (accAt2 V c n hn)

-- Forgetting the accumulator's contents gives the entry invariant back.
theorem PhiS2_forget (c : Dev nD) : ∀ (n : ℕ) (h : n ≤ cfg2.N), PhiS2 V c n h ⊢ Pipeline.ΦA spec2 c
  | 0, _ => .rfl
  | n + 1, h => by
    rw [PhiA2_eq]; change inv2 c _ ⊢ _
    iintro ⟨⟨HS0, HR⟩, Hg⟩
    iframe HR Hg
    iexists _; iexact HS0

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => if h1 : t.val % 12 = 11 then left2 (runC2 V c t h1 (prev2 V c t)).1 else accAt2 V c t.val t.isLt
  Φ t := PhiS2 V c t.val (Nat.le_of_lt_succ t.isLt)
  q w := match w with
    | ⟨1, _⟩ => fullShare.left
    | ⟨3, _⟩ => fullShare.right
    | ⟨2, _⟩ => fullShare.left
    | ⟨4, _⟩ => fullShare.right
    | _ => fullShare
  owed _ := 0

theorem A_eq2 (c : Dev nD) (w : Fin cfg2.W) : (dat2 V c).A w = V c (Pipeline.arrRef spec2 w) := rfl

theorem Phi2_pos (c : Dev nD) (t : Fin cfg2.N) (hz : t.val ≠ 0) : (dat2 V c).Φ t.castSucc = inv2 c (prev2 V c t) := by
  obtain ⟨_ | n, hn⟩ := t
  · exact absurd rfl hz
  · rfl

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d
theorem before2_4 (c : Dev nD) (t : Fin cfg2.N) (d) : (dat2 V c).before 4 t d = iblk2 V c 4 t :=
  (dat2 V c).before_in_eq_fetched 4 rfl (fun _ => rfl) (fun _ _ _ => rfl) (fun _ => rfl) t d
theorem before2_5 (c : Dev nD) (t : Fin cfg2.N) (d) : (dat2 V c).before 5 t d = iblk2 V c 5 t :=
  (dat2 V c).before_in_eq_fetched 5 rfl (fun _ => rfl) (fun _ _ _ => rfl) (fun _ => rfl) t d

theorem leaves2 (c : Dev nD) (t : Fin cfg2.N) (w : Fin cfg2.W) (hw : w.val < 6) :
    (dat2 V c).leavesExact w t = owns (c : Thread nD τ) ((cfg2.win w).stage (cfg2.slots t w)) fullShare ((dat2 V c).after w t) := by
  unfold Dat.leavesExact; rw [live2 t w hw]

theorem sound_body2 (c : Dev nD) (t : Fin cfg2.N) :
    iprop((dat2 V c).Φ t.castSucc ∗ (dat2 V c).owesAt () t.castSucc
        ∗ (∃ d, owns (c : Thread nD τ) (ms2_0 t) fullShare ((dat2 V c).before 0 t d))
        ∗ (∃ d, owns (c : Thread nD τ) (ms2_1 t) fullShare ((dat2 V c).before 1 t d))
        ∗ (∃ d, owns (c : Thread nD τ) (ms2_2 t) fullShare ((dat2 V c).before 2 t d))
        ∗ (∃ d, owns (c : Thread nD τ) (ms2_3 t) fullShare ((dat2 V c).before 3 t d))
        ∗ (∃ d, owns (c : Thread nD τ) (ms2_4 t) fullShare ((dat2 V c).before 4 t d))
        ∗ (∃ d, owns (c : Thread nD τ) (ms2_5 t) fullShare ((dat2 V c).before 5 t d))
        ∗ (∃ d, owns (c : Thread nD τ) (ms2_6 t) fullShare ((dat2 V c).before 6 t d)))
      ⊢ wp frame (wpE (defs₀ (F := F)) Variants.none c none) Set.univ (bodyAt2 t) (fun _ =>
          iprop((dat2 V c).Φ t.succ ∗ (dat2 V c).owesAt () t.succ ∗ (dat2 V c).leavesExact 0 t ∗ (dat2 V c).leavesExact 1 t
            ∗ (dat2 V c).leavesExact 2 t ∗ (dat2 V c).leavesExact 3 t ∗ (dat2 V c).leavesExact 4 t ∗ (dat2 V c).leavesExact 5 t
            ∗ (dat2 V c).leavesExact 6 t)) := by
  simp only [before2_0, before2_1, before2_2, before2_3, before2_4, before2_5]
  rw [show (dat2 V c).owesAt () t.succ = (dat2 V c).owesAt () t.castSucc from rfl,
    show (dat2 V c).Φ t.succ = inv2 c (accAt2 V c t.val t.isLt) from rfl,
    leaves2 V c t 0 (by decide), leaves2 V c t 1 (by decide), leaves2 V c t 2 (by decide), leaves2 V c t 3 (by decide),
    leaves2 V c t 4 (by decide), leaves2 V c t 5 (by decide)]
  unfold inv2
  have hN : t.val < 72 := lt_of_lt_of_eq t.isLt (show cfg2.N = 72 from N_2)
  by_cases h1 : t.val % 12 = 11
  · rw [show (dat2 V c).leavesExact 6 t = owns (c : Thread nD τ) (ms2_6 t) fullShare ((dat2 V c).after 6 t) from by
        unfold Dat.leavesExact; rw [live2_6 t h1],
      show (dat2 V c).after 6 t = left2 (runC2 V c t h1 (prev2 V c t)).1 from dif_pos h1, accAt2_C V c t h1, Phi2_pos V c t (by omega)]
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((runC2 V c t h1 (prev2 V c t)).2.2 Set.univ _)
    iframe H0 H1 H2 H3 H4 H5 HS0
    isplitl [H6]; · iexists _; iexact H6
    iintro ⟨H0, H1, H2, H3, H4, H5, ⟨%e6, H6⟩, ⟨%es0, HS0⟩⟩
    iframe HR Hg Ho
    isplitl [HS0]
    · ihave H' := (Ring.owns_of_writes_tiledL VS2 S2048x16.size) $$ HS0; iapply H'; ipureintro; sl_kernel_rfl
    isplitl [H0]; · iexact H0
    isplitl [H1]; · iexact H1
    isplitl [H2]; · iexact H2
    isplitl [H3]; · iexact H3
    isplitl [H4]; · iexact H4
    isplitl [H5]; · iexact H5
    ihave H' := (Ring.owns_of_writes_tiledL VS2 S2048x16.size) $$ H6; iapply H'; ipureintro; sl_kernel_rfl
  · rw [Dat.leavesExact_idle (dat2 V c) 6 t (idle2_6 t h1) (Bool.eq_false_iff.mpr fun h => h1 ((flush2_6 t).mp h))]
    by_cases h0 : t.val % 12 = 0
    on_goal 1 =>
      rw [accAt2_A V c t h0]
      refine (sep_mono_left (PhiS2_forget V c t.val (Nat.le_of_lt t.isLt))).trans ?_
      rw [PhiA2_eq]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runA2 V c t h0).2 ((dat2 V c).before 6 t d6) Set.univ _)
    on_goal 2 =>
      rw [accAt2_B V c t h0 h1, Phi2_pos V c t (by omega)]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runB2 V c t h0 h1 (prev2 V c t)).2 ((dat2 V c).before 6 t d6) Set.univ _)
    all_goals
      iframe H0 H1 H2 H3 H4 H5 H6 HS0
      iintro ⟨H0, H1, H2, H3, H4, H5, H6, ⟨%es0, HS0⟩⟩
      iframe HR Hg Ho
      isplitl [HS0]
      · ihave H' := (Ring.owns_of_writes_tiledL VS2 S2048x16.size) $$ HS0; iapply H'; ipureintro; sl_kernel_rfl
      isplitl [H0]; · iexact H0
      isplitl [H1]; · iexact H1
      isplitl [H2]; · iexact H2
      isplitl [H3]; · iexact H3
      isplitl [H4]; · iexact H4
      isplitl [H5]; · iexact H5
      iexists _; iexact H6

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := .rfl

theorem hout2 (c : Dev nD) : (dat2 V c).Φ (Fin.last cfg2.N) ⊢ Pipeline.ΦA spec2 c := PhiS2_forget V c cfg2.N (Nat.le_refl _)

end Cert.KernelIdeal.Hand

end
-- ==== Proof.KIReg3.lean ====
import proofs.«103262_j55946243997874_1_alg».proof.Proof.Gen.KernelIdeal.Launch
import proofs.«103262_j55946243997874_1_alg».proof.Proof.Gen.KernelIdeal.Skeleton
import proofs.«103262_j55946243997874_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

set_option maxHeartbeats 4000000 in
theorem sound_kernel3 (c : Dev nD) (E : Set ℕ) (i : grid3.Coords)
    (arg1 : Memref sig .tc .vmem S2048x16 .f32) (harg1 : arg1.IsWhole) (arg2 : Memref sig .tc .vmem S16x40 .f32) (harg2 : arg2.IsWhole)
    (arg3 : Memref sig .tc .vmem S2048x40 .f32) (harg3 : arg3.IsWhole)
    (x0 : Vec F S2048x16 .f32) (x1 : Vec F S16x40 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (k3_pay1 x0 x1)) -∗ K ⟨⟩))
      ⊢ wp frame (wpE (defs₀ (F := F)) Variants.none c none) E (cc3__dense_matmul_kernel i arg1 harg1 arg2 harg2 arg3 harg3) K := by
  simp only [cc3__dense_matmul_kernel_eq_skeleton]; unfold cc3__dense_matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  have hz : (![0, 0] : Fin 2 → Nat) = fun _ => 0 := funext fun a => by fin_cases a <;> rfl
  refine (View.read_writes_eq_canon _ _ _ (View.cover_of_tiled _ S2048x40.size (by rfl))).trans ?_
  rw [View.canon_unit_zero hz]
  exact congrArg₂ k3_pay1 (View.ld_unit_zero (S := S2048x16) hz _ _) (View.ld_unit_zero (S := S16x40) hz _ _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => k3_pay1 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := rfl

theorem after3_2 (c : Dev nD) (t : Fin cfg3.N) :
    (dat3 V c).after 2 t = k3_pay1 (iblk3 V c 0 t) (iblk3 V c 1 t) := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d

theorem sound_body3 (c : Dev nD) (t : Fin cfg3.N) :
    iprop((dat3 V c).Φ t.castSucc ∗ (dat3 V c).owesAt () t.castSucc
        ∗ (∃ d, owns (c : Thread nD τ) (st3_0 t) fullShare ((dat3 V c).before 0 t d))
        ∗ (∃ d, owns (c : Thread nD τ) (st3_1 t) fullShare ((dat3 V c).before 1 t d))
        ∗ (∃ d, owns (c : Thread nD τ) (st3_2 t) fullShare ((dat3 V c).before 2 t d)))
      ⊢ wp frame (wpE (defs₀ (F := F)) Variants.none c none) Set.univ (bodyAt3 t) (fun _ =>
          iprop((dat3 V c).Φ t.succ ∗ (dat3 V c).owesAt () t.succ
            ∗ owns (c : Thread nD τ) (st3_0 t) fullShare ((dat3 V c).after 0 t)
            ∗ owns (c : Thread nD τ) (st3_1 t) fullShare ((dat3 V c).after 1 t)
            ∗ owns (c : Thread nD τ) (st3_2 t) fullShare ((dat3 V c).after 2 t))) := by
  simp only [before3_0, before3_1]
  dsimp only [dat3]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  iframe H0 H1
  isplitl [H2]; · iexists _; iexact H2
  iintro ⟨H0, H1, H2⟩
  iframe HΦ H0 H1 H2
  iexact Ho

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KIReg4RunA.lean ====
import proofs.«103262_j55946243997874_1_alg».proof.Proof.Gen.KernelIdeal.Launch
import proofs.«103262_j55946243997874_1_alg».proof.Proof.Gen.KernelIdeal.Skeleton
import proofs.«103262_j55946243997874_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 12 = 0 :=
  (by decide +kernel : ∀ t : Fin grid4.N, cond4_0 (grid4.coords t) ↔ t.val % 12 = 0)

abbrev cond4_1 (i : grid4.Coords) : Prop := k4_cond2 i = 1#1
theorem hcond4_1 : ∀ t : Fin cfg4.N, cond4_1 (grid4.coords t) ↔ t.val % 12 = 11 :=
  (by decide +kernel : ∀ t : Fin grid4.N, cond4_1 (grid4.coords t) ↔ t.val % 12 = 11)

theorem live4 : ∀ (t : Fin cfg4.N) (w : Fin cfg4.W), w.val < 6 → cfg4.idle w (grid4.coords t) = false := by decide +kernel
theorem idle4_6 : ∀ t : Fin cfg4.N, ¬t.val % 12 = 11 → cfg4.idle 6 (grid4.coords t) = true := by decide +kernel
theorem live4_6 : ∀ t : Fin cfg4.N, t.val % 12 = 11 → cfg4.idle 6 (grid4.coords t) = false := by decide +kernel

abbrev ms4_0 (t : Fin cfg4.N) : Memref sig .tc .vmem S2048x1024 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x40 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x1 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S2048x40 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S2048x1 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x40 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S2048x40 .f32 := win4_6.stage (cfg4.slots t 6)
abbrev hs4_6 (t : Fin cfg4.N) : (ms4_6 t).IsWhole := hstage4_6 ((cfg4.slots t 6).cast nbuf4_6)
abbrev scM4 : Memref sig .tc .vmem S2048x40 .f32 := Memref.whole cc4_scratch0
abbrev VS4 : View sig .tc .vmem S2048x40 .f32 := scM4.view
-- What a list of stores leaves in a block of the accumulator's shape.
abbrev left4 (L : List (View.Piece (Elt F) S2048x40 .f32)) : Vec F S2048x40 .f32 :=
  VS4.read (Elt F) (VS4.writes (Elt F) VS4.junk L)

theorem PhiA4_eq (c : Dev nD) :
    (Pipeline.ΦA spec4 c : sProp 𝕄)
      = iprop(iprop(iprop((∃ d, owns (c : Thread nD τ) scM4 fullShare d)) ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

-- A whole buffer still at the contents it was handed at reads them back.
theorem keep4 {s : Shape} (c : Dev nD) (m : Memref sig .tc .vmem s .f32) (h : m.IsWhole) (x : Vec F s .f32) :
    (m.view.loc (c : Thread nD τ) ↦[m.view.set]{fullShare} h.unread x : sProp 𝕄)
      ⊢ iprop(∃ f, ⌜m.view.read (Elt F) f = x⌝ ∗ (m.view.loc (c : Thread nD τ) ↦[m.view.set]{fullShare} f)) := by
  iintro H; iexists _; isplitr; · ipureintro; exact h.read_unread _
  iexact H

set_option maxHeartbeats 4000000 in
noncomputable def kernelRun4_A (c : Dev nD) (i : grid4.Coords) (arg2 : Memref sig .tc .vmem S2048x1024 .f32) (harg2 : arg2.IsWhole) (arg3 : Memref sig .tc .vmem S1024x40 .f32) (harg3 : arg3.IsWhole) (arg4 : Memref sig .tc .vmem S1024x1 .f32) (harg4 : arg4.IsWhole) (arg5 : Memref sig .tc .vmem S2048x40 .f32) (harg5 : arg5.IsWhole) (arg6 : Memref sig .tc .vmem S2048x1 .f32) (harg6 : arg6.IsWhole) (arg7 : Memref sig .tc .vmem S1x40 .f32) (harg7 : arg7.IsWhole) (arg8 : Memref sig .tc .vmem S2048x40 .f32) (harg8 : arg8.IsWhole) (arg9 : Memref sig .tc .vmem S2048x40 .f32) (harg9 : arg9.IsWhole) (hc0 : cond4_0 i) (hc1 : ¬cond4_1 i)
    (x0 : Vec F S2048x1024 .f32) (x1 : Vec F S1024x40 .f32) (x2 : Vec F S1024x1 .f32) (x3 : Vec F S2048x40 .f32) (x4 : Vec F S2048x1 .f32) (x5 : Vec F S1x40 .f32) :
    { LS0 : List (View.Piece (Elt F) S2048x40 .f32) //
      ∀ (xi6 : Vec F S2048x40 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc4_kernel i arg2 harg2 arg3 harg3 arg4 harg4 arg5 harg5 arg6 harg6 arg7 harg7 arg8 harg8 arg9 harg9) K } := by
  refine ⟨?_, fun xi6 E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    sl_exec (disch := first | exact hc0 | exact hc1)
    sl_step
    iapply Hk
    isplitl [H0]; · iapply keep4 c arg2 harg2 x0; iexact H0
    isplitl [H1]; · iapply keep4 c arg3 harg3 x1; iexact H1
    isplitl [H2]; · iapply keep4 c arg4 harg4 x2; iexact H2
    isplitl [H3]; · iapply keep4 c arg5 harg5 x3; iexact H3
    isplitl [H4]; · iapply keep4 c arg6 harg6 x4; iexact H4
    isplitl [H5]; · iapply keep4 c arg7 harg7 x5; iexact H5
    isplitl [H6]; · iapply keep4 c arg8 harg8 xi6; iexact H6
    iexists _; iexact HS0

end Cert.KernelIdeal.Hand

end
-- ==== Proof.KIReg4RunB.lean ====
import proofs.«103262_j55946243997874_1_alg».proof.Proof.KIReg4RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun4_B (c : Dev nD) (i : grid4.Coords) (arg2 : Memref sig .tc .vmem S2048x1024 .f32) (harg2 : arg2.IsWhole) (arg3 : Memref sig .tc .vmem S1024x40 .f32) (harg3 : arg3.IsWhole) (arg4 : Memref sig .tc .vmem S1024x1 .f32) (harg4 : arg4.IsWhole) (arg5 : Memref sig .tc .vmem S2048x40 .f32) (harg5 : arg5.IsWhole) (arg6 : Memref sig .tc .vmem S2048x1 .f32) (harg6 : arg6.IsWhole) (arg7 : Memref sig .tc .vmem S1x40 .f32) (harg7 : arg7.IsWhole) (arg8 : Memref sig .tc .vmem S2048x40 .f32) (harg8 : arg8.IsWhole) (arg9 : Memref sig .tc .vmem S2048x40 .f32) (harg9 : arg9.IsWhole) (hc0 : ¬cond4_0 i) (hc1 : ¬cond4_1 i)
    (x0 : Vec F S2048x1024 .f32) (x1 : Vec F S1024x40 .f32) (x2 : Vec F S1024x1 .f32) (x3 : Vec F S2048x40 .f32) (x4 : Vec F S2048x1 .f32) (x5 : Vec F S1x40 .f32) (xs0 : Vec F S2048x40 .f32) :
    { LS0 : List (View.Piece (Elt F) S2048x40 .f32) //
      ∀ (xi6 : Vec F S2048x40 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc4_kernel i arg2 harg2 arg3 harg3 arg4 harg4 arg5 harg5 arg6 harg6 arg7 harg7 arg8 harg8 arg9 harg9) K } := by
  refine ⟨?_, fun xi6 E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hfs0
    sl_exec (disch := first | exact hc0 | exact hc1)
    sl_step
    iapply Hk
    isplitl [H0]; · iapply keep4 c arg2 harg2 x0; iexact H0
    isplitl [H1]; · iapply keep4 c arg3 harg3 x1; iexact H1
    isplitl [H2]; · iapply keep4 c arg4 harg4 x2; iexact H2
    isplitl [H3]; · iapply keep4 c arg5 harg5 x3; iexact H3
    isplitl [H4]; · iapply keep4 c arg6 harg6 x4; iexact H4
    isplitl [H5]; · iapply keep4 c arg7 harg7 x5; iexact H5
    isplitl [H6]; · iapply keep4 c arg8 harg8 xi6; iexact H6
    iexists _; iexact HS0

end Cert.KernelIdeal.Hand

end
-- ==== Proof.KIReg4RunC.lean ====
import proofs.«103262_j55946243997874_1_alg».proof.Proof.KIReg4RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun4_C (c : Dev nD) (i : grid4.Coords) (arg2 : Memref sig .tc .vmem S2048x1024 .f32) (harg2 : arg2.IsWhole) (arg3 : Memref sig .tc .vmem S1024x40 .f32) (harg3 : arg3.IsWhole) (arg4 : Memref sig .tc .vmem S1024x1 .f32) (harg4 : arg4.IsWhole) (arg5 : Memref sig .tc .vmem S2048x40 .f32) (harg5 : arg5.IsWhole) (arg6 : Memref sig .tc .vmem S2048x1 .f32) (harg6 : arg6.IsWhole) (arg7 : Memref sig .tc .vmem S1x40 .f32) (harg7 : arg7.IsWhole) (arg8 : Memref sig .tc .vmem S2048x40 .f32) (harg8 : arg8.IsWhole) (arg9 : Memref sig .tc .vmem S2048x40 .f32) (harg9 : arg9.IsWhole) (hc0 : ¬cond4_0 i) (hc1 : cond4_1 i)
    (x0 : Vec F S2048x1024 .f32) (x1 : Vec F S1024x40 .f32) (x2 : Vec F S1024x1 .f32) (x3 : Vec F S2048x40 .f32) (x4 : Vec F S2048x1 .f32) (x5 : Vec F S1x40 .f32) (xs0 : Vec F S2048x40 .f32) :
    Σ' (L6 : List (View.Piece (Elt F) S2048x40 .f32)), { LS0 : List (View.Piece (Elt F) S2048x40 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc4_kernel i arg2 harg2 arg3 harg3 arg4 harg4 arg5 harg5 arg6 harg6 arg7 harg7 arg8 harg8 arg9 harg9) K } := by
  refine ⟨?_, ?_, fun E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hfs0
    sl_exec (disch := first | exact hc0 | exact hc1)
    sl_step
    iapply Hk
    isplitl [H0]; · iapply keep4 c arg2 harg2 x0; iexact H0
    isplitl [H1]; · iapply keep4 c arg3 harg3 x1; iexact H1
    isplitl [H2]; · iapply keep4 c arg4 harg4 x2; iexact H2
    isplitl [H3]; · iapply keep4 c arg5 harg5 x3; iexact H3
    isplitl [H4]; · iapply keep4 c arg6 harg6 x4; iexact H4
    isplitl [H5]; · iapply keep4 c arg7 harg7 x5; iexact H5
    isplitl [H6]; · iexists _; iexact H6
    iexists _; iexact HS0

end Cert.KernelIdeal.Hand

end
-- ==== Proof.KIReg4.lean ====
import proofs.«103262_j55946243997874_1_alg».proof.Proof.KIReg4RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def runA4 (c : Dev nD) (t : Fin cfg4.N) (h0 : t.val % 12 = 0) :=
  kernelRun4_A (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4 (Memref.isWhole_whole _) ((hcond4_0 t).mpr h0) (fun h => by have := (hcond4_1 t).mp h; omega) (iblk4 V c 0 t) (iblk4 V c 1 t) (iblk4 V c 2 t) (iblk4 V c 3 t) (iblk4 V c 4 t) (iblk4 V c 5 t)

def runB4 (c : Dev nD) (t : Fin cfg4.N) (h0 : ¬t.val % 12 = 0) (h1 : ¬t.val % 12 = 11) (xs : Vec F S2048x40 .f32) :=
  kernelRun4_B (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) xs

def runC4 (c : Dev nD) (t : Fin cfg4.N) (h1 : t.val % 12 = 11) (xs : Vec F S2048x40 .f32) :=
  kernelRun4_C (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4 (Memref.isWhole_whole _) (fun h => by have := (hcond4_0 t).mp h; omega) ((hcond4_1 t).mpr h1) (iblk4 V c 0 t) (iblk4 V c 1 t) (iblk4 V c 2 t) (iblk4 V c 3 t) (iblk4 V c 4 t) (iblk4 V c 5 t) xs

def accAt4 (c : Dev nD) : (n : ℕ) → n < cfg4.N → Vec F S2048x40 .f32
  | 0, hn => left4 (runA4 V c ⟨0, hn⟩ (Nat.zero_mod _)).1
  | n + 1, hn =>
    if h1 : (n + 1) % 12 = 11 then left4 (runC4 V c ⟨n + 1, hn⟩ h1 (accAt4 c n (Nat.lt_of_succ_lt hn))).2.1
    else if h0 : (n + 1) % 12 = 0 then left4 (runA4 V c ⟨n + 1, hn⟩ h0).1
    else left4 (runB4 V c ⟨n + 1, hn⟩ h0 h1 (accAt4 c n (Nat.lt_of_succ_lt hn))).1

abbrev prev4 (c : Dev nD) (t : Fin cfg4.N) : Vec F S2048x40 .f32 :=
  accAt4 V c (t.val - 1) (Nat.lt_of_le_of_lt (Nat.sub_le _ _) t.isLt)

theorem accAt4_A (c : Dev nD) (t : Fin cfg4.N) (h0 : t.val % 12 = 0) :
    accAt4 V c t.val t.isLt = left4 (runA4 V c t h0).1 := by
  obtain ⟨_ | n, hn⟩ := t
  · rfl
  · exact (dif_neg fun h => by have : (n + 1) % 12 = 0 := h0; omega).trans (dif_pos h0)

theorem accAt4_B (c : Dev nD) (t : Fin cfg4.N) (h0 : ¬t.val % 12 = 0) (h1 : ¬t.val % 12 = 11) :
    accAt4 V c t.val t.isLt = left4 (runB4 V c t h0 h1 (prev4 V c t)).1 := by
  obtain ⟨_ | n, hn⟩ := t
  · exact absurd (Nat.zero_mod _) h0
  · exact (dif_neg h1).trans (dif_neg h0)

theorem accAt4_C (c : Dev nD) (t : Fin cfg4.N) (h1 : t.val % 12 = 11) :
    accAt4 V c t.val t.isLt = left4 (runC4 V c t h1 (prev4 V c t)).2.1 := by
  obtain ⟨_ | n, hn⟩ := t
  · exact absurd h1 (by decide : ¬0 % 12 = 11)
  · exact dif_pos h1

abbrev inv4 (c : Dev nD) (x : Vec F S2048x40 .f32) : sProp 𝕄 :=
  iprop(iprop(owns (c : Thread nD τ) scM4 fullShare x ∗ Pipeline.scopedRestBut (Ix := Unit) (Name := ℕ) (U := UR sig nD τ) (Lvl := ℕ) (Val := Elt F) spec4 c [cc4_scratch0]) ∗ (∃ r, prngReg c r))

def PhiS4 (c : Dev nD) : (n : ℕ) → n ≤ cfg4.N → sProp 𝕄
  | 0, _ => Pipeline.ΦA spec4 c
  | n + 1, hn => inv4 c (accAt4 V c n hn)

-- Forgetting the accumulator's contents gives the entry invariant back.
theorem PhiS4_forget (c : Dev nD) : ∀ (n : ℕ) (h : n ≤ cfg4.N), PhiS4 V c n h ⊢ Pipeline.ΦA spec4 c
  | 0, _ => .rfl
  | n + 1, h => by
    rw [PhiA4_eq]; change inv4 c _ ⊢ _
    iintro ⟨⟨HS0, HR⟩, Hg⟩
    iframe HR Hg
    iexists _; iexact HS0

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => if h1 : t.val % 12 = 11 then left4 (runC4 V c t h1 (prev4 V c t)).1 else accAt4 V c t.val t.isLt
  Φ t := PhiS4 V c t.val (Nat.le_of_lt_succ t.isLt)
  q w := match w with
    | ⟨1, _⟩ => fullShare.left
    | ⟨3, _⟩ => fullShare.right
    | ⟨2, _⟩ => fullShare.left
    | ⟨4, _⟩ => fullShare.right
    | _ => fullShare
  owed _ := 0

theorem A_eq4 (c : Dev nD) (w : Fin cfg4.W) : (dat4 V c).A w = V c (Pipeline.arrRef spec4 w) := rfl

theorem Phi4_pos (c : Dev nD) (t : Fin cfg4.N) (hz : t.val ≠ 0) : (dat4 V c).Φ t.castSucc = inv4 c (prev4 V c t) := by
  obtain ⟨_ | n, hn⟩ := t
  · exact absurd rfl hz
  · rfl

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d
theorem before4_3 (c : Dev nD) (t : Fin cfg4.N) (d) : (dat4 V c).before 3 t d = iblk4 V c 3 t :=
  (dat4 V c).before_in_eq_fetched 3 rfl (fun _ => rfl) (fun _ _ _ => rfl) (fun _ => rfl) t d
theorem before4_4 (c : Dev nD) (t : Fin cfg4.N) (d) : (dat4 V c).before 4 t d = iblk4 V c 4 t :=
  (dat4 V c).before_in_eq_fetched 4 rfl (fun _ => rfl) (fun _ _ _ => rfl) (fun _ => rfl) t d
theorem before4_5 (c : Dev nD) (t : Fin cfg4.N) (d) : (dat4 V c).before 5 t d = iblk4 V c 5 t :=
  (dat4 V c).before_in_eq_fetched 5 rfl (fun _ => rfl) (fun _ _ _ => rfl) (fun _ => rfl) t d

theorem leaves4 (c : Dev nD) (t : Fin cfg4.N) (w : Fin cfg4.W) (hw : w.val < 6) :
    (dat4 V c).leavesExact w t = owns (c : Thread nD τ) ((cfg4.win w).stage (cfg4.slots t w)) fullShare ((dat4 V c).after w t) := by
  unfold Dat.leavesExact; rw [live4 t w hw]

theorem sound_body4 (c : Dev nD) (t : Fin cfg4.N) :
    iprop((dat4 V c).Φ t.castSucc ∗ (dat4 V c).owesAt () t.castSucc
        ∗ (∃ d, owns (c : Thread nD τ) (ms4_0 t) fullShare ((dat4 V c).before 0 t d))
        ∗ (∃ d, owns (c : Thread nD τ) (ms4_1 t) fullShare ((dat4 V c).before 1 t d))
        ∗ (∃ d, owns (c : Thread nD τ) (ms4_2 t) fullShare ((dat4 V c).before 2 t d))
        ∗ (∃ d, owns (c : Thread nD τ) (ms4_3 t) fullShare ((dat4 V c).before 3 t d))
        ∗ (∃ d, owns (c : Thread nD τ) (ms4_4 t) fullShare ((dat4 V c).before 4 t d))
        ∗ (∃ d, owns (c : Thread nD τ) (ms4_5 t) fullShare ((dat4 V c).before 5 t d))
        ∗ (∃ d, owns (c : Thread nD τ) (ms4_6 t) fullShare ((dat4 V c).before 6 t d)))
      ⊢ wp frame (wpE (defs₀ (F := F)) Variants.none c none) Set.univ (bodyAt4 t) (fun _ =>
          iprop((dat4 V c).Φ t.succ ∗ (dat4 V c).owesAt () t.succ ∗ (dat4 V c).leavesExact 0 t ∗ (dat4 V c).leavesExact 1 t
            ∗ (dat4 V c).leavesExact 2 t ∗ (dat4 V c).leavesExact 3 t ∗ (dat4 V c).leavesExact 4 t ∗ (dat4 V c).leavesExact 5 t
            ∗ (dat4 V c).leavesExact 6 t)) := by
  simp only [before4_0, before4_1, before4_2, before4_3, before4_4, before4_5]
  rw [show (dat4 V c).owesAt () t.succ = (dat4 V c).owesAt () t.castSucc from rfl,
    show (dat4 V c).Φ t.succ = inv4 c (accAt4 V c t.val t.isLt) from rfl,
    leaves4 V c t 0 (by decide), leaves4 V c t 1 (by decide), leaves4 V c t 2 (by decide), leaves4 V c t 3 (by decide),
    leaves4 V c t 4 (by decide), leaves4 V c t 5 (by decide)]
  unfold inv4
  have hN : t.val < 72 := lt_of_lt_of_eq t.isLt (show cfg4.N = 72 from N_4)
  by_cases h1 : t.val % 12 = 11
  · rw [show (dat4 V c).leavesExact 6 t = owns (c : Thread nD τ) (ms4_6 t) fullShare ((dat4 V c).after 6 t) from by
        unfold Dat.leavesExact; rw [live4_6 t h1],
      show (dat4 V c).after 6 t = left4 (runC4 V c t h1 (prev4 V c t)).1 from dif_pos h1, accAt4_C V c t h1, Phi4_pos V c t (by omega)]
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((runC4 V c t h1 (prev4 V c t)).2.2 Set.univ _)
    iframe H0 H1 H2 H3 H4 H5 HS0
    isplitl [H6]; · iexists _; iexact H6
    iintro ⟨H0, H1, H2, H3, H4, H5, ⟨%e6, H6⟩, ⟨%es0, HS0⟩⟩
    iframe HR Hg Ho
    isplitl [HS0]
    · ihave H' := (Ring.owns_of_writes_tiledL VS4 S2048x40.size) $$ HS0; iapply H'; ipureintro; sl_kernel_rfl
    isplitl [H0]; · iexact H0
    isplitl [H1]; · iexact H1
    isplitl [H2]; · iexact H2
    isplitl [H3]; · iexact H3
    isplitl [H4]; · iexact H4
    isplitl [H5]; · iexact H5
    ihave H' := (Ring.owns_of_writes_tiledL VS4 S2048x40.size) $$ H6; iapply H'; ipureintro; sl_kernel_rfl
  · rw [Dat.leavesExact_idle (dat4 V c) 6 t (idle4_6 t h1) (Bool.eq_false_iff.mpr fun h => h1 ((flush4_6 t).mp h))]
    by_cases h0 : t.val % 12 = 0
    on_goal 1 =>
      rw [accAt4_A V c t h0]
      refine (sep_mono_left (PhiS4_forget V c t.val (Nat.le_of_lt t.isLt))).trans ?_
      rw [PhiA4_eq]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runA4 V c t h0).2 ((dat4 V c).before 6 t d6) Set.univ _)
    on_goal 2 =>
      rw [accAt4_B V c t h0 h1, Phi4_pos V c t (by omega)]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runB4 V c t h0 h1 (prev4 V c t)).2 ((dat4 V c).before 6 t d6) Set.univ _)
    all_goals
      iframe H0 H1 H2 H3 H4 H5 H6 HS0
      iintro ⟨H0, H1, H2, H3, H4, H5, H6, ⟨%es0, HS0⟩⟩
      iframe HR Hg Ho
      isplitl [HS0]
      · ihave H' := (Ring.owns_of_writes_tiledL VS4 S2048x40.size) $$ HS0; iapply H'; ipureintro; sl_kernel_rfl
      isplitl [H0]; · iexact H0
      isplitl [H1]; · iexact H1
      isplitl [H2]; · iexact H2
      isplitl [H3]; · iexact H3
      isplitl [H4]; · iexact H4
      isplitl [H5]; · iexact H5
      iexists _; iexact H6

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := .rfl

theorem hout4 (c : Dev nD) : (dat4 V c).Φ (Fin.last cfg4.N) ⊢ Pipeline.ΦA spec4 c := PhiS4_forget V c cfg4.N (Nat.le_refl _)

end Cert.KernelIdeal.Hand

end
-- ==== Proof.KIFold.lean ====
import proofs.«103262_j55946243997874_1_alg».proof.Proof.KIReg0
import proofs.«103262_j55946243997874_1_alg».proof.Proof.KIReg1
import proofs.«103262_j55946243997874_1_alg».proof.Proof.KIReg2
import proofs.«103262_j55946243997874_1_alg».proof.Proof.KIReg3
import proofs.«103262_j55946243997874_1_alg».proof.Proof.KIReg4
import proofs.«103262_j55946243997874_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev rd (W : Dev nD → Valuation τ sig (Elt F)) : (c : Dev nD) → (b : Ref sig .tc) → Buf (Elt F) ((c : Thread nD τ).loc b) :=
  fun c b => W c b

abbrev W0 : Dev nD → Valuation τ sig (Elt F) := fun c b => m (c, b)
def o1 (c : Dev nD) : Buf (Elt F) ((c : Thread nD τ).loc main_v0) := (dat0 (rd (W0 m)) c).arrAt 1 cfg0.N
abbrev W1 : Dev nD → Valuation τ sig (Elt F) := fun c => Function.update (W0 m c) main_v0 (o1 m c)
def o2 (c : Dev nD) : Buf (Elt F) ((c : Thread nD τ).loc main_v1) := (dat1 (rd (W1 m)) c).arrAt 2 cfg1.N
abbrev W2 : Dev nD → Valuation τ sig (Elt F) := fun c => Function.update (W1 m c) main_v1 (o2 m c)
abbrev W3 : Dev nD → Valuation τ sig (Elt F) := fun c => StableHlo.after hostOps2 (W2 m c)
def o4 (c : Dev nD) : Buf (Elt F) ((c : Thread nD τ).loc main_v3) := (dat2 (rd (W3 m)) c).arrAt 6 cfg2.N
abbrev W4 : Dev nD → Valuation τ sig (Elt F) := fun c => Function.update (W3 m c) main_v3 (o4 m c)
def o5 (c : Dev nD) : Buf (Elt F) ((c : Thread nD τ).loc main_v4) := (dat3 (rd (W4 m)) c).arrAt 2 cfg3.N
abbrev W5 : Dev nD → Valuation τ sig (Elt F) := fun c => Function.update (W4 m c) main_v4 (o5 m c)
abbrev W6 : Dev nD → Valuation τ sig (Elt F) := fun c => StableHlo.after hostOps4 (W5 m c)
def o7 (c : Dev nD) : Buf (Elt F) ((c : Thread nD τ).loc main_v6) := (dat4 (rd (W6 m)) c).arrAt 6 cfg4.N
abbrev W7 : Dev nD → Valuation τ sig (Elt F) := fun c => Function.update (W6 m c) main_v6 (o7 m c)

def outs : Gen.Outs (F := F) := fun _ r c =>
  if h0 : r = main_v0 then h0 ▸ o1 m c
  else if h1 : r = main_v1 then h1 ▸ o2 m c
  else if h3 : r = main_v3 then h3 ▸ o4 m c
  else if h4 : r = main_v4 then h4 ▸ o5 m c
  else if h6 : r = main_v6 then h6 ▸ o7 m c
  else m ((c : Thread nD τ).loc r)

theorem outs_v0 (J : ℕ) (c : Dev nD) : outs m J main_v0 c = o1 m c := dif_pos rfl
theorem outs_v1 (J : ℕ) (c : Dev nD) : outs m J main_v1 c = o2 m c := (dif_neg (by decide)).trans (dif_pos rfl)
theorem outs_v3 (J : ℕ) (c : Dev nD) : outs m J main_v3 c = o4 m c :=
  (dif_neg (by decide)).trans ((dif_neg (by decide)).trans (dif_pos rfl))
theorem outs_v4 (J : ℕ) (c : Dev nD) : outs m J main_v4 c = o5 m c :=
  (dif_neg (by decide)).trans ((dif_neg (by decide)).trans ((dif_neg (by decide)).trans (dif_pos rfl)))
theorem outs_v6 (J : ℕ) (c : Dev nD) : outs m J main_v6 c = o7 m c :=
  (dif_neg (by decide)).trans ((dif_neg (by decide)).trans ((dif_neg (by decide)).trans ((dif_neg (by decide)).trans (dif_pos rfl))))

theorem V0_eq (c : Dev nD) : Gen.V0 m c = W0 m c := rfl
theorem V1_eq (c : Dev nD) : Gen.V1 m (outs m) c = W1 m c := by
  show Function.update (Gen.V0 m c) main_v0 (outs m 1 main_v0 c) = _; rw [outs_v0]
theorem V2_eq (c : Dev nD) : Gen.V2 m (outs m) c = W2 m c := by
  show Function.update (Gen.V1 m (outs m) c) main_v1 (outs m 2 main_v1 c) = _; rw [outs_v1, V1_eq]
theorem V3_eq (c : Dev nD) : Gen.V3 m (outs m) c = W3 m c := by
  show StableHlo.after hostOps2 (Gen.V2 m (outs m) c) = _; rw [V2_eq]
theorem V4_eq (c : Dev nD) : Gen.V4 m (outs m) c = W4 m c := by
  show Function.update (Gen.V3 m (outs m) c) main_v3 (outs m 4 main_v3 c) = _; rw [outs_v3, V3_eq]
theorem V5_eq (c : Dev nD) : Gen.V5 m (outs m) c = W5 m c := by
  show Function.update (Gen.V4 m (outs m) c) main_v4 (outs m 5 main_v4 c) = _; rw [outs_v4, V4_eq]
theorem V6_eq (c : Dev nD) : Gen.V6 m (outs m) c = W6 m c := by
  show StableHlo.after hostOps4 (Gen.V5 m (outs m) c) = _; rw [V5_eq]
theorem V7_eq (c : Dev nD) : Gen.V7 m (outs m) c = W7 m c := by
  show Function.update (Gen.V6 m (outs m) c) main_v6 (outs m 7 main_v6 c) = _; rw [outs_v6, V6_eq]

def pdats : (p : Fin 5) → (c : Dev nD) → Dat τ (Elt F) Unit ℕ (UR sig nD τ) ℕ (cfgs p) c
  | ⟨0, _⟩ => fun c => dat0 (rd (W0 m)) c
  | ⟨1, _⟩ => fun c => dat1 (rd (W1 m)) c
  | ⟨2, _⟩ => fun c => dat2 (rd (W3 m)) c
  | ⟨3, _⟩ => fun c => dat3 (rd (W4 m)) c
  | ⟨4, _⟩ => fun c => dat4 (rd (W6 m)) c

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

-- A window that is not the output keeps its array from entry to exit; the output window's array is the updated entry.
theorem arrAt_update {cfg : Cfg sig Λ₀} {c : Dev nD} (dat : Dat τ (Elt F) Unit ℕ (UR sig nD τ) ℕ cfg c) (V : Valuation τ sig (Elt F))
    (hA : ∀ w, dat.A w = V (Pipeline.arrRef cfg.spec w)) (wo : Fin cfg.W) (n : ℕ)
    (hin : ∀ w, w ≠ wo → (cfg.win w).isOut = false ∧ Pipeline.arrRef cfg.spec w ≠ Pipeline.arrRef cfg.spec wo) (w : Fin cfg.W) :
    dat.arrAt w n = Function.update V (Pipeline.arrRef cfg.spec wo) (dat.arrAt wo n) (Pipeline.arrRef cfg.spec w) := by
  by_cases h : w = wo
  · subst h; rw [Function.update_self]
  · exact (dat.arrAt_in w (hin w h).1 n).trans ((hA w).trans (Function.update_of_ne (StableHlo.devRef_ne_of_ne (hin w h).2) _ _).symm)

-- Off the windows' arrays the update changes nothing.
theorem rest_update {gr W : ℕ} (spec : Fin W → Pipeline.WinSpec sig gr) (wo : Fin W) (V : Valuation τ sig (Elt F)) (o) (b : Ref sig .tc)
    (hb : b ∉ Finset.univ.image (Pipeline.arrRef spec)) : Function.update V (Pipeline.arrRef spec wo) o b = V b :=
  Function.update_of_ne (StableHlo.devRef_ne_of_ne fun (e : b = Pipeline.arrRef spec wo) => hb (e ▸ Finset.mem_image_of_mem _ (Finset.mem_univ wo))) _ _

theorem hF0 (c : Dev nD) : ∀ w : Fin cfg0.W, (pdats m 0 c).arrAt w cfg0.N = rd (W1 m) c (Pipeline.arrRef spec0 w) :=
  arrAt_update (dat0 (rd (W0 m)) c) (W0 m c) (A_eq0 (rd (W0 m)) c) 1 cfg0.N (by decide)
theorem hrest0 (c : Dev nD) : ∀ b, b ∉ Finset.univ.image (Pipeline.arrRef spec0) → rd (W1 m) c b = rd (W0 m) c b :=
  rest_update spec0 1 _ _

theorem hF1 (c : Dev nD) : ∀ w : Fin cfg1.W, (pdats m 1 c).arrAt w cfg1.N = rd (W2 m) c (Pipeline.arrRef spec1 w) :=
  arrAt_update (dat1 (rd (W1 m)) c) (W1 m c) (A_eq1 (rd (W1 m)) c) 2 cfg1.N (by decide)
theorem hrest1 (c : Dev nD) : ∀ b, b ∉ Finset.univ.image (Pipeline.arrRef spec1) → rd (W2 m) c b = rd (W1 m) c b :=
  rest_update spec1 2 _ _

theorem hF2 (c : Dev nD) : ∀ w : Fin cfg2.W, (pdats m 2 c).arrAt w cfg2.N = rd (W4 m) c (Pipeline.arrRef spec2 w) :=
  arrAt_update (dat2 (rd (W3 m)) c) (W3 m c) (A_eq2 (rd (W3 m)) c) 6 cfg2.N (by decide)
theorem hrest2 (c : Dev nD) : ∀ b, b ∉ Finset.univ.image (Pipeline.arrRef spec2) → rd (W4 m) c b = rd (W3 m) c b :=
  rest_update spec2 6 _ _

theorem hF3 (c : Dev nD) : ∀ w : Fin cfg3.W, (pdats m 3 c).arrAt w cfg3.N = rd (W5 m) c (Pipeline.arrRef spec3 w) :=
  arrAt_update (dat3 (rd (W4 m)) c) (W4 m c) (A_eq3 (rd (W4 m)) c) 2 cfg3.N (by decide)
theorem hrest3 (c : Dev nD) : ∀ b, b ∉ Finset.univ.image (Pipeline.arrRef spec3) → rd (W5 m) c b = rd (W4 m) c b :=
  rest_update spec3 2 _ _

theorem hF4 (c : Dev nD) : ∀ w : Fin cfg4.W, (pdats m 4 c).arrAt w cfg4.N = rd (W7 m) c (Pipeline.arrRef spec4 w) :=
  arrAt_update (dat4 (rd (W6 m)) c) (W6 m c) (A_eq4 (rd (W6 m)) c) 6 cfg4.N (by decide)
theorem hrest4 (c : Dev nD) : ∀ b, b ∉ Finset.univ.image (Pipeline.arrRef spec4) → rd (W7 m) c b = rd (W6 m) c b :=
  rest_update spec4 6 _ _

end Cert.KernelIdeal.Hand

end
-- ==== Proof.KIShare.lean ====
import proofs.«103262_j55946243997874_1_alg».proof.Proof.Gen.KernelIdeal.Launch
import Idealize.ShloMosaic.Lib.Pipeline.FrameBody
import Idealize.ShloMosaic.Lib.Pipeline.RegionsLoop
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable {c : Dev nD} (a t d b o : Ref sig .tc) (V : (r : Ref sig .tc) → Buf (Elt F) ((c : Thread nD τ).loc r))

-- Five buffers, each whole.
abbrev five : sProp 𝕄 :=
  iprop((((c : Thread nD τ).loc a) ↦{fullShare} V a) ∗ (((c : Thread nD τ).loc t) ↦{fullShare} V t)
    ∗ (((c : Thread nD τ).loc d) ↦{fullShare} V d) ∗ (((c : Thread nD τ).loc b) ↦{fullShare} V b) ∗ (((c : Thread nD τ).loc o) ↦{fullShare} V o))

-- The same five as seven holdings: `t` and `d` each in two halves.
abbrev seven : sProp 𝕄 :=
  iprop((((c : Thread nD τ).loc a) ↦{fullShare} V a) ∗ (((c : Thread nD τ).loc t) ↦{fullShare.left} V t)
    ∗ (((c : Thread nD τ).loc d) ↦{fullShare.left} V d) ∗ (((c : Thread nD τ).loc t) ↦{fullShare.right} V t)
    ∗ (((c : Thread nD τ).loc d) ↦{fullShare.right} V d) ∗ (((c : Thread nD τ).loc b) ↦{fullShare} V b) ∗ (((c : Thread nD τ).loc o) ↦{fullShare} V o))

-- A whole buffer is its two halves at the same contents.
theorem five_seven : (five a t d b o V : sProp 𝕄) ⊢ seven a t d b o V := by
  iintro ⟨Ha, Hm, Hd, Hb, Ho⟩
  ihave Hm' := (pointsTo_share (PosShare.mem_left_op_right fullShare)).1 $$ Hm
  icases Hm' with ⟨Hm1, Hm3⟩
  ihave Hd' := (pointsTo_share (PosShare.mem_left_op_right fullShare)).1 $$ Hd
  icases Hd' with ⟨Hd2, Hd4⟩
  isplitl [Ha]; · iexact Ha
  isplitl [Hm1]; · iexact Hm1
  isplitl [Hd2]; · iexact Hd2
  isplitl [Hm3]; · iexact Hm3
  isplitl [Hd4]; · iexact Hd4
  isplitl [Hb]; · iexact Hb
  iexact Ho

theorem seven_five : (seven a t d b o V : sProp 𝕄) ⊢ five a t d b o V := by
  iintro ⟨Ha, Hm1, Hd2, Hm3, Hd4, Hb, Ho⟩
  isplitl [Ha]; · iexact Ha
  isplitl [Hm1 Hm3]
  · iapply (pointsTo_share (PosShare.mem_left_op_right fullShare)).2
    isplitl [Hm1]; · iexact Hm1
    iexact Hm3
  isplitl [Hd2 Hd4]
  · iapply (pointsTo_share (PosShare.mem_left_op_right fullShare)).2
    isplitl [Hd2]; · iexact Hd2
    iexact Hd4
  isplitl [Hb]; · iexact Hb
  iexact Ho

end

-- The windows' arrays, each a whole buffer, at the contents `V` has at them.
theorem arrays_eq' {cfg : Cfg sig Λ₀} {c : Dev nD} (dat : Dat τ (Elt F) Unit ℕ (UR sig nD τ) ℕ cfg c) (harr : ∀ w, (cfg.spec w).arr.IsWhole)
    (V : (b : Ref sig .tc) → Buf (Elt F) ((c : Thread nD τ).loc b))
    (Fn : (w : Fin cfg.W) → Buf (Elt F) ((cfg.win w).arr.view.loc (c.tc : Thread nD τ))) (hF : ∀ w, Fn w = V (Pipeline.arrRef cfg.spec w)) :
    (dat.arrays Fn : sProp 𝕄)
      = bigSep Finset.univ fun w => (((c : Thread nD τ).loc (Pipeline.arrRef cfg.spec w)) ↦{dat.share w} V (Pipeline.arrRef cfg.spec w)) := by
  unfold Pipeline.Dat.arrays
  exact bigSep_congr fun w _ => by rw [(harr w).set_eq_univ, hF w]

-- The buffers behind no window do not see a change of contents at the windows' arrays.
theorem unscopedRest_congr {gr W : ℕ} (spec : Fin W → Pipeline.WinSpec sig gr) (c : Dev nD) (V V' : (b : Ref sig .tc) → Buf (Elt F) ((c : Thread nD τ).loc b))
    (hrest : ∀ b, b ∉ Finset.univ.image (Pipeline.arrRef spec) → V' b = V b) :
    (Pipeline.unscopedRest (Ix := Unit) (Name := ℕ) (U := UR sig nD τ) (Lvl := ℕ) spec c V : sProp 𝕄) = Pipeline.unscopedRest spec c V' := by
  unfold Pipeline.unscopedRest
  exact bigSep_congr fun b hb => by rw [hrest b (Finset.mem_sdiff.mp hb).2]

theorem arrBufs2_eq (c : Dev nD) (V : (b : Ref sig .tc) → Buf (Elt F) ((c : Thread nD τ).loc b)) :
    (Pipeline.arrBufs (Ix := Unit) (Name := ℕ) (U := UR sig nD τ) (Lvl := ℕ) spec2 c V : sProp 𝕄) = five main_arg1 main_v1 main_v0 main_v2 main_v3 V := by
  unfold Pipeline.arrBufs
  exact bigSep_eq_bigSepL_of_eq [main_arg1, main_v1, main_v0, main_v2, main_v3] (by decide) (by decide) _

section
variable (c : Dev nD) (dat : Dat τ (Elt F) Unit ℕ (UR sig nD τ) ℕ cfg2 c)
    (hs0 : dat.share 0 = fullShare) (hs1 : dat.share 1 = fullShare.left) (hs2 : dat.share 2 = fullShare.left)
    (hs3 : dat.share 3 = fullShare.right) (hs4 : dat.share 4 = fullShare.right) (hs5 : dat.share 5 = fullShare) (hs6 : dat.share 6 = fullShare)
    (V : (b : Ref sig .tc) → Buf (Elt F) ((c : Thread nD τ).loc b))
    (Fn : (w : Fin cfg2.W) → Buf (Elt F) ((cfg2.win w).arr.view.loc (c.tc : Thread nD τ)))
    (hF : ∀ w, Fn w = V (Pipeline.arrRef spec2 w))
include hs0 hs1 hs2 hs3 hs4 hs5 hs6 hF

theorem arrays2_eq : (dat.arrays Fn : sProp 𝕄) = seven main_arg1 main_v1 main_v0 main_v2 main_v3 V := by
  rw [arrays_eq' dat arr_whole2 V Fn hF, bigSep_W2, hs0, hs1, hs2, hs3, hs4, hs5, hs6]

theorem arrays_split2 :
    (Pipeline.arrBufs (Ix := Unit) (Name := ℕ) (U := UR sig nD τ) (Lvl := ℕ) spec2 c V : sProp 𝕄) ⊢ dat.arrays Fn := by
  rw [arrBufs2_eq, arrays2_eq c dat hs0 hs1 hs2 hs3 hs4 hs5 hs6 V Fn hF]; exact five_seven _ _ _ _ _ V

theorem arrays_join2 :
    (dat.arrays Fn : sProp 𝕄) ⊢ Pipeline.arrBufs (Ix := Unit) (Name := ℕ) (U := UR sig nD τ) (Lvl := ℕ) spec2 c V := by
  rw [arrBufs2_eq, arrays2_eq c dat hs0 hs1 hs2 hs3 hs4 hs5 hs6 V Fn hF]; exact seven_five _ _ _ _ _ V

end

theorem unscopedBufs_split2 (c : Dev nD) (V : (b : Ref sig .tc) → Buf (Elt F) ((c : Thread nD τ).loc b)) :
    (unscopedBufs c V : sProp 𝕄) = iprop(Pipeline.arrBufs spec2 c V ∗ Pipeline.unscopedRest spec2 c V) :=
  Pipeline.unscopedBufs_split₀ cfgs 2 winFacts₀2.arr_unscoped c V

theorem arrBufs4_eq (c : Dev nD) (V : (b : Ref sig .tc) → Buf (Elt F) ((c : Thread nD τ).loc b)) :
    (Pipeline.arrBufs (Ix := Unit) (Name := ℕ) (U := UR sig nD τ) (Lvl := ℕ) spec4 c V : sProp 𝕄) = five main_arg1 main_v4 main_v0 main_v5 main_v6 V := by
  unfold Pipeline.arrBufs
  exact bigSep_eq_bigSepL_of_eq [main_arg1, main_v4, main_v0, main_v5, main_v6] (by decide) (by decide) _

section
variable (c : Dev nD) (dat : Dat τ (Elt F) Unit ℕ (UR sig nD τ) ℕ cfg4 c)
    (hs0 : dat.share 0 = fullShare) (hs1 : dat.share 1 = fullShare.left) (hs2 : dat.share 2 = fullShare.left)
    (hs3 : dat.share 3 = fullShare.right) (hs4 : dat.share 4 = fullShare.right) (hs5 : dat.share 5 = fullShare) (hs6 : dat.share 6 = fullShare)
    (V : (b : Ref sig .tc) → Buf (Elt F) ((c : Thread nD τ).loc b))
    (Fn : (w : Fin cfg4.W) → Buf (Elt F) ((cfg4.win w).arr.view.loc (c.tc : Thread nD τ)))
    (hF : ∀ w, Fn w = V (Pipeline.arrRef spec4 w))
include hs0 hs1 hs2 hs3 hs4 hs5 hs6 hF

theorem arrays4_eq : (dat.arrays Fn : sProp 𝕄) = seven main_arg1 main_v4 main_v0 main_v5 main_v6 V := by
  rw [arrays_eq' dat arr_whole4 V Fn hF, bigSep_W4, hs0, hs1, hs2, hs3, hs4, hs5, hs6]

theorem arrays_split4 :
    (Pipeline.arrBufs (Ix := Unit) (Name := ℕ) (U := UR sig nD τ) (Lvl := ℕ) spec4 c V : sProp 𝕄) ⊢ dat.arrays Fn := by
  rw [arrBufs4_eq, arrays4_eq c dat hs0 hs1 hs2 hs3 hs4 hs5 hs6 V Fn hF]; exact five_seven _ _ _ _ _ V

theorem arrays_join4 :
    (dat.arrays Fn : sProp 𝕄) ⊢ Pipeline.arrBufs (Ix := Unit) (Name := ℕ) (U := UR sig nD τ) (Lvl := ℕ) spec4 c V := by
  rw [arrBufs4_eq, arrays4_eq c dat hs0 hs1 hs2 hs3 hs4 hs5 hs6 V Fn hF]; exact seven_five _ _ _ _ _ V

end

theorem unscopedBufs_split4 (c : Dev nD) (V : (b : Ref sig .tc) → Buf (Elt F) ((c : Thread nD τ).loc b)) :
    (unscopedBufs c V : sProp 𝕄) = iprop(Pipeline.arrBufs spec4 c V ∗ Pipeline.unscopedRest spec4 c V) :=
  Pipeline.unscopedBufs_split₀ cfgs 4 winFacts₀4.arr_unscoped c V

end Cert.KernelIdeal.Hand

end
-- ==== Proof.KIRun.lean ====
import proofs.«103262_j55946243997874_1_alg».proof.Proof.KIFold
import proofs.«103262_j55946243997874_1_alg».proof.Proof.KIShare

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
-- A region's four entailments, proved once for every region: its arrays are split off the unscoped buffers at entry and joined back at exit; the other buffers pass by unchanged.
def mkReg (p : Fin 5) (V V' : Dev nD → Valuation τ sig (Elt F))
    (win : Pipeline.WinFacts₀ (cfgs p).spec)
    (block_pos : ∀ w : Fin (cfgs p).W, 0 < ((cfgs p).spec w).block.numel)
    (stage_whole : ∀ (w : Fin (cfgs p).W) (s : Fin ((cfgs p).spec w).nbuf), (((cfgs p).spec w).stage s).IsWhole)
    (hbody : ∀ c, Pipeline.BodyObligationLoose (pdats m p c) defs₀ 𝒱₀ () Set.univ)
    (howed : ∀ c t, (pdats m p c).owed t = 0) (hrec : ∀ c, (pdats m p c).recorded 0 = Set.univ)
    (hsplit : ∀ c, (unscopedBufs c (rd V c) : sProp 𝕄)
      ⊢ iprop((pdats m p c).arrays ((pdats m p c).arrAt · 0) ∗ Pipeline.unscopedRest (cfgs p).spec c (rd V c)))
    (hjoin : ∀ c, iprop((pdats m p c).arrays ((pdats m p c).arrAt · (cfgs p).N) ∗ Pipeline.unscopedRest (cfgs p).spec c (rd V c))
      ⊢ (unscopedBufs c (rd V' c) : sProp 𝕄))
    (hfst : ∀ c, Pipeline.ΦA (cfgs p).spec c ⊢ (pdats m p c).Φ 0)
    (hlst : ∀ c, (pdats m p c).Φ (Fin.last (cfgs p).N) ⊢ Pipeline.ΦA (cfgs p).spec c) :
    Pipeline.RegionSeg (pcfgs (F := F)) Gen.adm (pdats m) () defs₀ 𝒱₀ L lv p where
  win := win
  block_pos := block_pos
  stage_whole := stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (V c) ∗ R c)
  post c := iprop(StableHlo.held (c : Thread nD τ) (Pipeline.ucRefs τ sig) (V' c) ∗ R c)
  X c := iprop(∃ r, prngReg c r)
  Y c := iprop(∃ r, prngReg c r)
  Z c := Pipeline.unscopedRest (Ix := Unit) (Name := ℕ) (U := UR sig nD τ) (Lvl := ℕ) (cfgs p).spec c (rd V c)
  hentry c := by
    rw [Pipeline.ownSems0_none]
    have h := hsplit c
    rw [Pipeline.unscopedBufs_held] at h
    iintro ⟨⟨Hub, Hp, HO⟩, -, -⟩
    ihave H := h $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun x _ => Or.inl ((hrec c).symm ▸ Set.mem_univ x)
      iexact HO
    isplitl [Hp]; · iexact Hp
    iexact Hrest
  hin c :=
    (show _ ⊢ (Pipeline.ΦA (cfgs p).spec c : sProp 𝕄) from by
      unfold Pipeline.ΦA
      iintro ⟨Hp, -, Hr⟩
      isplitl [Hr]; · iexact Hr
      iexact Hp).trans (hfst c)
  hout c := (hlst c).trans (by
    rw [Pipeline.ownSems0_none]
    unfold Pipeline.ΦA
    iintro ⟨Hr, Hp⟩
    isplitl [Hp]; · iexact Hp
    isplitr; · iempintro
    iexact Hr)
  hexit c := by
    have h := hjoin c
    rw [Pipeline.unscopedBufs_held] at h
    iintro ⟨Ha, HO, HY, Hrest⟩
    imodintro
    isplitl [Ha Hrest]
    · iapply h; isplitl [Ha] <;> iassumption
    isplitl [HY]; · iexact HY
    unfold Pipeline.Dat.owesAt Pipeline.owesWithin
    rw [howed c]
    icases HO with ⟨%W, -, HO⟩; iexists W; iexact HO

-- The case where each array is one whole buffer: splitting and joining are the library's lemmas.
def mkWhole (p : Fin 5) (V V' : Dev nD → Valuation τ sig (Elt F)) (lf : Pipeline.LaunchFacts (nD := nD) (τ := τ) cfgs p)
    (hbody : ∀ c, Pipeline.BodyObligationLoose (pdats m p c) defs₀ 𝒱₀ () Set.univ)
    (howed : ∀ c t, (pdats m p c).owed t = 0) (hrec : ∀ c, (pdats m p c).recorded 0 = Set.univ)
    (hshare : ∀ c w, (pdats m p c).share w = fullShare)
    (hA : ∀ c w, (pdats m p c).arrAt w 0 = rd V c (Pipeline.arrRef (cfgs p).spec w))
    (hF : ∀ c w, (pdats m p c).arrAt w (cfgs p).N = rd V' c (Pipeline.arrRef (cfgs p).spec w))
    (hrest : ∀ c b, b ∉ Finset.univ.image (Pipeline.arrRef (cfgs p).spec) → rd V' c b = rd V c b)
    (hfst : ∀ c, Pipeline.ΦA (cfgs p).spec c ⊢ (pdats m p c).Φ 0)
    (hlst : ∀ c, (pdats m p c).Φ (Fin.last (cfgs p).N) ⊢ Pipeline.ΦA (cfgs p).spec c) :
    Pipeline.RegionSeg (pcfgs (F := F)) Gen.adm (pdats m) () defs₀ 𝒱₀ L lv p :=
  mkReg m p V V' lf.win.to₀ lf.block_pos lf.stage_whole hbody howed hrec
    (fun c => Pipeline.arrays_of_unscopedBufs (pcfgs (F := F)) Gen.adm (pdats m) lf.win lf.arr_whole c (hshare c) (rd V c) (hA c))
    (fun c => Pipeline.unscopedBufs_of_arrays (pcfgs (F := F)) Gen.adm (Ix := Unit) (Name := ℕ) (U := UR sig nD τ) (Lvl := ℕ)
      lf.win lf.arr_whole c (pdats m) (hshare c) (rd V c) (rd V' c) _ (hF c) (hrest c))
    hfst hlst

def reg0 := mkWhole m 0 (W0 m) (W1 m) launch0 (fun c => (body_obligation0 (rd (W0 m)) c).loose) (fun _ _ => rfl) (fun _ => rfl)
  (fun c => (pdats m 0 c).share_full fun _ => rfl) (fun _ _ => rfl) (hF0 m) (hrest0 m) (hin0 (rd (W0 m))) (hout0 (rd (W0 m)))

def reg1 := mkWhole m 1 (W1 m) (W2 m) launch1 (fun c => (body_obligation1 (rd (W1 m)) c).loose) (fun _ _ => rfl) (fun _ => rfl)
  (fun c => (pdats m 1 c).share_full fun _ => rfl) (fun _ _ => rfl) (hF1 m) (hrest1 m) (fun _ => .rfl) (fun _ => .rfl)

-- Here two arrays each serve two windows: each is split in two halves at entry and the halves are rejoined at exit.
def reg2 := mkReg m 2 (W3 m) (W4 m) winFacts₀2 block_pos2 stage_whole2 (fun c => (body_obligation2 (rd (W3 m)) c).loose) (fun _ _ => rfl) (fun _ => rfl)
  (fun c => (Entails.of_eq (unscopedBufs_split2 c _)).trans
    (sep_mono (arrays_split2 c (pdats m 2 c) rfl rfl rfl rfl rfl rfl rfl (rd (W3 m) c) _ (A_eq2 (rd (W3 m)) c)) .rfl))
  (fun c => (BIClass.sep_mono (arrays_join2 c (pdats m 2 c) rfl rfl rfl rfl rfl rfl rfl (rd (W4 m) c) _ (hF2 m c))
    (Entails.of_eq (unscopedRest_congr spec2 c _ _ (hrest2 m c)))).trans (Entails.of_eq (unscopedBufs_split2 c _).symm))
  (hin2 (rd (W3 m))) (hout2 (rd (W3 m)))

def reg3 := mkWhole m 3 (W4 m) (W5 m) launch3 (fun c => (body_obligation3 (rd (W4 m)) c).loose) (fun _ _ => rfl) (fun _ => rfl)
  (fun c => (pdats m 3 c).share_full fun _ => rfl) (fun _ _ => rfl) (hF3 m) (hrest3 m) (fun _ => .rfl) (fun _ => .rfl)

-- As region 2.
def reg4 := mkReg m 4 (W6 m) (W7 m) winFacts₀4 block_pos4 stage_whole4 (fun c => (body_obligation4 (rd (W6 m)) c).loose) (fun _ _ => rfl) (fun _ => rfl)
  (fun c => (Entails.of_eq (unscopedBufs_split4 c _)).trans
    (sep_mono (arrays_split4 c (pdats m 4 c) rfl rfl rfl rfl rfl rfl rfl (rd (W6 m) c) _ (A_eq4 (rd (W6 m)) c)) .rfl))
  (fun c => (BIClass.sep_mono (arrays_join4 c (pdats m 4 c) rfl rfl rfl rfl rfl rfl rfl (rd (W7 m) c) _ (hF4 m c))
    (Entails.of_eq (unscopedRest_congr spec4 c _ _ (hrest4 m c)))).trans (Entails.of_eq (unscopedBufs_split4 c _).symm))
  (hin4 (rd (W6 m))) (hout4 (rd (W6 m)))

-- Equal valuations are held alike.
theorem held_eq {c : Dev nD} {V V' : Valuation τ sig (Elt F)} (h : V = V') :
    (iprop(StableHlo.held (c : Thread nD τ) (Pipeline.ucRefs τ sig) V ∗ R c) : sProp 𝕄)
      ⊢ iprop(StableHlo.held (c : Thread nD τ) (Pipeline.ucRefs τ sig) V' ∗ R c) := h ▸ .rfl

variable (ρ : Dev nD → PrngReg)

theorem V7_main_v6 (c : Dev nD) : Gen.V7 m (outs m) c main_v6 = o7 m c := by
  rw [V7_eq]
  show Function.update (W6 m c) (Proc.devRef .tc main_v6) (o7 m c) (Proc.devRef .tc main_v6) = o7 m c
  rw [Function.update_self]

set_option backward.isDefEq.respectTransparency.types false in
theorem run_value : θ_run defs (onTc (τ := τ) (main (F := F))) ⟨m, fun _ => 0, ρ⟩ (fun r => ∀ c : Dev nD,
      r.2.mem ((c.tc : Thread nD τ).loc main_v6) = o7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) Gen.adm (pdats m) () cellOf_inj (emb₁ : Emb (URounds (GSem nD τ sig) Unit) 𝕄) defs₀ 𝒱₀ L lv m ρ main
    (Gen.segs m (outs m) 𝒱₀ L lv (fun _ c => R c) () (pdats m) (reg0 m) (reg1 m) (reg2 m) (reg3 m) (reg4 m))
    (fun c Q => by rewrite [main_chain c, Pipeline.Seg.run_eq_chain]; exact .rfl)
    (fun c => by simp only [Gen.segs, Pipeline.Seg.pipes_host, Pipeline.Seg.pipes_region, Pipeline.Seg.pipes_nil]; decide)
    (fun _ => 0) (fun _ _ => rfl) (fun _ => (BI.emp : sProp 𝕄))
    (initOf (Pipeline.cells cfgs cellOf_inj) (Pipeline.launchToks cfgs cellOf_inj))
    (by
      rw [BI.bigSep_emp_const]; iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V7 m (outs m) c))
    (hch := fun c => ⟨.rfl, .rfl, held_eq (V2_eq m c).symm, held_eq (V3_eq m c), .rfl, held_eq (V5_eq m c).symm, held_eq (V6_eq m c),
      (held_eq (V7_eq m c).symm).trans (sep_mono .rfl (by iintro ⟨-, HO⟩; iexact HO))⟩)
    (hinit := ?_)
    (QY := _) (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (Gen.V7 m (outs m) c) s') $$ [Hh HSI]
    · isplitl [Hh] <;> iassumption
    icases Hr with ⟨%h, HSI⟩
    imodintro
    isplitr
    · ipureintro
      have g := fun (r : Ref sig .tc) (hr : ¬ (Proc.devRef (τ := τ) .tc r).isScoped) =>
        h (Proc.devRef .tc r) (Finset.mem_filter.mpr ⟨StableHlo.devRef_mem_tcRefs r, hr⟩)
      exact ⟨(g main_v6 (by decide)).trans (V7_main_v6 m c),
        (g main_arg0 (by decide)).trans (Gen.V7_main_arg0 m (outs m) c), (g main_arg1 (by decide)).trans (Gen.V7_main_arg1 m (outs m) c),
        (g main_arg2 (by decide)).trans (Gen.V7_main_arg2 m (outs m) c), (g main_arg3 (by decide)).trans (Gen.V7_main_arg3 m (outs m) c),
        (g main_arg4 (by decide)).trans (Gen.V7_main_arg4 m (outs m) c), (g main_arg5 (by decide)).trans (Gen.V7_main_arg5 m (outs m) c)⟩
    · iexact HSI

-- The frame is the run's claim with the result buffer's conjunct dropped.
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => (h c).2) (run_value m ρ)

end Cert.KernelIdeal.Hand

end
-- ==== Proof.Spec.lean ====
import Idealize.ShloMosaic.PureOps.Ideal
import Idealize.ShloMosaic.Lib.ValueIdx

noncomputable section

namespace Cert.Gcn

open Idealize.ShloMosaic Idealize.ShloMosaic.ValueIdx
open scoped BigOperators

abbrev Mat (m n : Nat) : Type := (⟨2, ![m, n]⟩ : Shape).Idx → EReal

def degK (a : Mat 12288 12288) (i : Fin 12288) : EReal := (∑ j : Fin 12288, a (ix2 i j)) + 1

def dinv (a : Mat 12288 12288) (i : Fin 12288) : EReal := Ideal.rsqrt (degK a i)

def lin {n k m : Nat} (x : Mat n k) (w : Mat k m) (i : Fin n) (c : Fin m) : EReal :=
  ∑ f : Fin k, x (ix2 i f) * w (ix2 f c)

def aggK {m : Nat} (a : Mat 12288 12288) (d : Fin 12288 → EReal) (M : Fin 12288 → Fin m → EReal) (b : Fin m → EReal)
    (i : Fin 12288) (c : Fin m) : EReal :=
  d i * (∑ j : Fin 12288, a (ix2 i j) * (M j c * d j)) + (d i * d i) * M i c + b c

def rowMax {m : Nat} (v : Fin m → EReal) : EReal := (Finset.univ : Finset (Fin m)).fold max ⊥ v

def logSoftmax {m : Nat} (v : Fin m → EReal) (c : Fin m) : EReal :=
  (v c - rowMax v) - Ideal.log (∑ c' : Fin m, Ideal.exp (v c' - rowMax v))

def hidK (x : Mat 12288 512) (a : Mat 12288 12288) (w1 : Mat 512 16) (b1 : Fin 16 → EReal) (i : Fin 12288) (c : Fin 16) : EReal :=
  max (aggK a (dinv a) (lin x w1) b1 i c) 0

def logitK (x : Mat 12288 512) (a : Mat 12288 12288) (w1 : Mat 512 16) (b1 : Fin 16 → EReal) (w2 : Mat 16 40) (b2 : Fin 40 → EReal)
    (i : Fin 12288) (c : Fin 40) : EReal :=
  aggK a (dinv a) (fun j c' => ∑ f : Fin 16, hidK x a w1 b1 j f * w2 (ix2 f c')) b2 i c

def out (x : Mat 12288 512) (a : Mat 12288 12288) (w1 : Mat 512 16) (b1 : Fin 16 → EReal) (w2 : Mat 16 40) (b2 : Fin 40 → EReal) :
    Mat 12288 40 :=
  fun idx => logSoftmax (fun c => logitK x a w1 b1 w2 b2 (idx 0) c) (idx 1)

def eye (i j : Fin 12288) : EReal := if i = j then 1 else 0

def degR (a : Mat 12288 12288) (i : Fin 12288) : EReal := ∑ j : Fin 12288, (a (ix2 i j) + eye i j)

def dinvR (a : Mat 12288 12288) (i : Fin 12288) : EReal := Ideal.rsqrt (degR a i)

def normR (a : Mat 12288 12288) (i j : Fin 12288) : EReal := ((a (ix2 i j) + eye i j) * dinvR a i) * dinvR a j

def aggR {m : Nat} (a : Mat 12288 12288) (M : Fin 12288 → Fin m → EReal) (b : Fin m → EReal) (i : Fin 12288) (c : Fin m) : EReal :=
  (∑ j : Fin 12288, normR a i j * M j c) + b c

def hidR (x : Mat 12288 512) (a : Mat 12288 12288) (w1 : Mat 512 16) (b1 : Fin 16 → EReal) (i : Fin 12288) (c : Fin 16) : EReal :=
  max (aggR a (lin x w1) b1 i c) 0

def logitR (x : Mat 12288 512) (a : Mat 12288 12288) (w1 : Mat 512 16) (b1 : Fin 16 → EReal) (w2 : Mat 16 40) (b2 : Fin 40 → EReal)
    (i : Fin 12288) (c : Fin 40) : EReal :=
  aggR a (fun j c' => ∑ f : Fin 16, hidR x a w1 b1 j f * w2 (ix2 f c')) b2 i c

def outR (x : Mat 12288 512) (a : Mat 12288 12288) (w1 : Mat 512 16) (b1 : Fin 16 → EReal) (w2 : Mat 16 40) (b2 : Fin 40 → EReal) :
    Mat 12288 40 :=
  fun idx => logSoftmax (fun c => logitR x a w1 b1 w2 b2 (idx 0) c) (idx 1)

def AllReal {ι : Type} (f : ι → EReal) : Prop := ∀ i, ∃ r : ℝ, f i = (r : EReal)

end Cert.Gcn

end
-- ==== Proof.KIVal0.lean ====
import proofs.«103262_j55946243997874_1_alg».proof.Proof.KIReg0
import proofs.«103262_j55946243997874_1_alg».proof.Proof.Spec
import Idealize.ShloMosaic.Lib.Pipeline.Value
import Idealize.ShloMosaic.Lib.ValueIdx
import Idealize.ShloMosaic.PureOps.Ideal.Laws
import Idealize.ShloMosaic.Lib.IdealHost

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)
open scoped BigOperators

section Pieces
variable {F : FTy → Type} [FloatOps F]
variable (c : Dev nD) (i : grid0.Coords) (arg2 : Memref sig .tc .vmem S2048x1024 .f32) (harg2 : arg2.IsWhole) (arg3 : Memref sig .tc .vmem S2048x1 .f32) (harg3 : arg3.IsWhole) (arg4 : Memref sig .tc .vmem S2048x1 .f32) (harg4 : arg4.IsWhole)
  (x0 : Vec F S2048x1024 .f32) (xs0 : Vec F S2048x1 .f32)

theorem hz0 : (![0, 0] : Fin 2 → Nat) = fun _ => 0 := funext fun a => by fin_cases a <;> rfl

theorem piecesA0 (hc0 : cond0_0 i) (hc1 : ¬cond0_1 i) :
    left0 (kernelRun0_A c i arg2 harg2 arg3 harg3 arg4 harg4 hc0 hc1 x0).1 = k0_pay2 (k0_pay1 (F := F)) x0 := by
  unfold left0
  rw [View.read_writes_junk_eq_canon]
  unfold kernelRun0_A
  dsimp only
  sl_unfold_words
  rw [View.canon_cons_unit_zero (S := S2048x1) hz0, View.readCov_unit_zero (S := S2048x1) _ hz0]
  simp only [View.readAt_eq_ld, harg2.read_unread, View.ld_unit_zero (S := S2048x1024) hz0]

theorem piecesB0 (hc0 : ¬cond0_0 i) (hc1 : ¬cond0_1 i) :
    left0 (kernelRun0_B c i arg2 harg2 arg3 harg3 arg4 harg4 hc0 hc1 x0 xs0).1 = k0_pay2 xs0 x0 := by
  unfold left0
  rw [View.read_writes_junk_eq_canon]
  unfold kernelRun0_B
  dsimp only
  try sl_unfold_words
  rw [View.canon_unit_zero hz0]
  simp only [View.readAt_eq_ld, harg2.read_unread, harg4.read_unread, View.ld_unit_zero (S := S2048x1024) hz0, View.ld_unit_zero (S := S2048x1) hz0]

theorem piecesC0 (hc0 : ¬cond0_0 i) (hc1 : cond0_1 i) :
    left0 (kernelRun0_C c i arg2 harg2 arg3 harg3 arg4 harg4 hc0 hc1 x0 xs0).2.1 = k0_pay2 xs0 x0
      ∧ left0 (kernelRun0_C c i arg2 harg2 arg3 harg3 arg4 harg4 hc0 hc1 x0 xs0).1 = k0_pay3 (k0_pay2 xs0 x0) := by
  unfold left0
  rw [View.read_writes_junk_eq_canon, View.read_writes_junk_eq_canon]
  unfold kernelRun0_C
  dsimp only
  try sl_unfold_words
  rw [View.canon_unit_zero hz0, View.canon_unit_zero hz0, View.readCov_unit_zero (S := S2048x1) _ hz0]
  simp only [View.readAt_eq_ld, harg2.read_unread, harg4.read_unread, View.ld_unit_zero (S := S2048x1024) hz0, View.ld_unit_zero (S := S2048x1) hz0, and_self]

end Pieces

theorem k0_pay1_apply (p : Fin 2048) : (k0_pay1 (F := Ideal) : S2048x1.Idx → EReal) (ix2 p 0) = 0 := by
  unfold k0_pay1
  refine (congrFun (shapeCast_self _ _) _).trans ?_
  exact Ideal.ofBits_zero_f32

theorem k0_pay2_apply (v3 : Vec Ideal S2048x1 .f32) (v4 : Vec Ideal S2048x1024 .f32) (p : Fin 2048) :
    (k0_pay2 v3 v4 : S2048x1.Idx → EReal) (ix2 p 0) = v3 (ix2 p 0) + ∑ j : Fin 1024, v4 (ix2 p j) := by
  unfold k0_pay2
  refine (congrFun (shapeCast_self _ _) _).trans ?_
  refine congrArg (v3 (ix2 p 0) + ·) ?_
  refine (shapeCast_apply _ _ (ix2 p 0) (ix1 p) ?_).trans ?_
  · rw [Shape.rowMajor_val_two, Shape.rowMajor_val_one]; show p.val = p.val * 1 + 0; omega
  refine (Ideal.multiReduction_add_single _ _ _ _ _ _).trans ?_
  refine Finset.sum_congr rfl fun k _ => ?_
  exact congrArg v4 (funext fun a => Fin.ext (by match a with | ⟨0, _⟩ => rfl | ⟨1, _⟩ => rfl))

theorem k0_pay3_apply (v14 : Vec Ideal S2048x1 .f32) (p : Fin 2048) :
    (k0_pay3 v14 : S2048x1.Idx → EReal) (ix2 p 0) = Ideal.rsqrt (v14 (ix2 p 0) + 1) := by
  unfold k0_pay3
  show Ideal.rsqrt (v14 (ix2 p 0) + Ideal.ofBits .f32 0x3F800000#32) = _
  rw [Ideal.ofBits_one_f32]

theorem sum_blocks0 (f : ℕ → EReal) :
    ∑ k ∈ Finset.range 12, ∑ j : Fin 1024, f (1024 * k + j.val) = ∑ j : Fin 12288, f j.val := by
  rw [Finset.sum_range (fun k => ∑ j : Fin 1024, f (1024 * k + j.val))]
  rw [← Fintype.sum_prod_type' (fun (k : Fin 12) (j : Fin 1024) => f (1024 * k.val + j.val))]
  exact Fintype.sum_equiv (finProdFinEquiv : Fin 12 × Fin 1024 ≃ Fin (12 * 1024)) (fun x : Fin 12 × Fin 1024 => f (1024 * x.1.val + x.2.val)) (fun y : Fin (12 * 1024) => f y.val) (fun x => by
    show f (1024 * x.1.val + x.2.val) = f (x.2.val + 1024 * x.1.val); rw [add_comm])

section Value
variable (V : (c : Dev nD) → (b : Ref sig .tc) → Buf (Elt Ideal) ((c : Thread nD τ).loc b))

abbrev adj0 (c : Dev nD) : Vec Ideal S12288x12288 .f32 := V c main_arg1
abbrev xblk0 (c : Dev nD) (t : Fin cfg0.N) : Vec Ideal S2048x1024 .f32 := iblk0 V c 0 t

def aN0 (a : Vec Ideal S12288x12288 .f32) (r k : ℕ) : EReal :=
  if h : r < 12288 ∧ k < 12288 then a (ix2 ⟨r, h.1⟩ ⟨k, h.2⟩) else 0

def colsum0 (a : Vec Ideal S12288x12288 .f32) (r k : ℕ) : EReal := ∑ j : Fin 1024, aN0 a r (1024 * k + j.val)

theorem idx_facts0 : ∀ t : Fin cfg0.N, win0_0.index t (0 : Fin 2) = t.val / 12 ∧ win0_0.index t (1 : Fin 2) = t.val % 12
    ∧ win0_1.index t (0 : Fin 2) = t.val / 12 ∧ win0_1.index t (1 : Fin 2) = 0 :=
  (by decide +kernel : ∀ t : Fin grid0.N, _)

theorem xblk0_apply (c : Dev nD) (t : Fin cfg0.N) (p : Fin 2048) (j : Fin 1024) :
    xblk0 V c t (ix2 p j) = aN0 (adj0 V c) (2048 * (t.val / 12) + p.val) (1024 * (t.val % 12) + j.val) := by
  obtain ⟨e0, e1, -, -⟩ := idx_facts0 t
  have hN : t.val < 72 := lt_of_lt_of_eq t.isLt (show cfg0.N = 72 from N_0)
  have hr : 2048 * (t.val / 12) + p.val < 12288 ∧ 1024 * (t.val % 12) + j.val < 12288 := by
    have := p.isLt; have := j.isLt; omega
  unfold aN0; rw [dif_pos hr]
  show iblk0 V c 0 t (ix2 p j) = _
  unfold iblk0
  rw [View.read_apply]
  show V c main_arg1 _ = V c main_arg1 _
  congr 1
  funext a
  apply Fin.ext
  match a with
  | ⟨0, _⟩ => show win0_0.index t 0 * 2048 + 1 * p.val = 2048 * (t.val / 12) + p.val; rw [e0]; omega
  | ⟨1, _⟩ => show win0_0.index t 1 * 1024 + 1 * j.val = 1024 * (t.val % 12) + j.val; rw [e1]; omega

theorem upd0_apply (c : Dev nD) (t : Fin cfg0.N) (acc : Vec Ideal S2048x1 .f32) (p : Fin 2048) :
    (k0_pay2 acc (xblk0 V c t) : S2048x1.Idx → EReal) (ix2 p 0) = acc (ix2 p 0) + colsum0 (adj0 V c) (2048 * (t.val / 12) + p.val) (t.val % 12) :=
  (k0_pay2_apply acc (xblk0 V c t) p).trans (congrArg (acc (ix2 p 0) + ·) (Finset.sum_congr rfl fun j _ => xblk0_apply V c t p j))

theorem runC0_eq (c : Dev nD) (t : Fin cfg0.N) (h1 : t.val % 12 = 11) (xs : Vec Ideal S2048x1 .f32) :
    left0 (runC0 V c t h1 xs).2.1 = k0_pay2 xs (xblk0 V c t) ∧ left0 (runC0 V c t h1 xs).1 = k0_pay3 (k0_pay2 xs (xblk0 V c t)) :=
  piecesC0 _ _ _ _ _ _ _ _ _ _ _ _

-- Each point adds its column block's row sums to what it starts from: zero at column index 0, else what the point before left.
theorem accAt0_step (c : Dev nD) (t : Fin cfg0.N) (p : Fin 2048) :
    (accAt0 V c t.val t.isLt : S2048x1.Idx → EReal) (ix2 p 0)
      = (if t.val % 12 = 0 then 0 else prev0 V c t (ix2 p 0)) + colsum0 (adj0 V c) (2048 * (t.val / 12) + p.val) (t.val % 12) := by
  have hN : t.val < 72 := lt_of_lt_of_eq t.isLt (show cfg0.N = 72 from N_0)
  by_cases h1 : t.val % 12 = 11
  · rw [accAt0_C V c t h1, if_neg (by omega)]
    exact (congrFun (runC0_eq V c t h1 _).1 _).trans (upd0_apply V c t _ p)
  · by_cases h0 : t.val % 12 = 0
    · rw [accAt0_A V c t h0, if_pos h0, ← k0_pay1_apply p]
      exact (congrFun (piecesA0 _ _ _ _ _ _ _ _ _ _ _) _).trans (upd0_apply V c t _ p)
    · rw [accAt0_B V c t h0 h1, if_neg h0]
      exact (congrFun (piecesB0 _ _ _ _ _ _ _ _ _ _ _ _) _).trans (upd0_apply V c t _ p)

-- After point `n` the accumulator's row `p` holds the sum of row 2048·(n / 12) + p of the adjacency over the column blocks 0 … n % 12.
theorem acc0_eq (c : Dev nD) (n : ℕ) : ∀ (h : n < cfg0.N) (p : Fin 2048),
    (accAt0 V c n h : S2048x1.Idx → EReal) (ix2 p 0)
      = ∑ k ∈ Finset.range (n % 12 + 1), colsum0 (adj0 V c) (2048 * (n / 12) + p.val) k := by
  induction n with
  | zero =>
    intro h p
    rw [accAt0_step V c ⟨0, h⟩ p, if_pos (Nat.zero_mod _), zero_add]
    exact (Finset.sum_range_one _).symm
  | succ n ih =>
    intro h p
    have hN : n + 1 < 72 := lt_of_lt_of_eq h (show cfg0.N = 72 from N_0)
    rw [accAt0_step V c ⟨n + 1, h⟩ p]
    dsimp only
    by_cases h0 : (n + 1) % 12 = 0
    · rw [if_pos h0, zero_add, h0, Finset.sum_range_one]
    · have hprev := ih (Nat.lt_of_succ_lt h) p
      rw [show n % 12 + 1 = (n + 1) % 12 by omega, show n / 12 = (n + 1) / 12 by omega] at hprev
      rw [if_neg h0, Finset.sum_range_succ]
      exact congrArg (· + _) hprev

theorem colsum0_all (a : Vec Ideal S12288x12288 .f32) (r : Fin 12288) :
    ∑ k ∈ Finset.range 12, colsum0 a r.val k = ∑ j : Fin 12288, a (ix2 r j) := by
  unfold colsum0
  rw [sum_blocks0 (fun k => aN0 a r.val k)]
  refine Finset.sum_congr rfl fun j _ => ?_
  unfold aN0
  rw [dif_pos ⟨r.isLt, j.isLt⟩]

abbrev deg0 (c : Dev nD) : Vec Ideal S12288x1 .f32 := fun idx => Cert.Gcn.dinv (adj0 V c) (idx 0)

-- The last point of a row block stores each row's inverse square root of its full row sum plus one.
theorem out0_C_apply (c : Dev nD) (t : Fin cfg0.N) (h1 : t.val % 12 = 11) (y : S2048x1.Idx) (r : Fin 12288)
    (hr : 2048 * (t.val / 12) + (y 0).val = r.val) :
    (left0 (runC0 V c t h1 (prev0 V c t)).1 : S2048x1.Idx → EReal) y = Cert.Gcn.dinv (adj0 V c) r := by
  obtain ⟨p, q, rfl⟩ : ∃ (p : Fin 2048) (q : Fin 1), y = ix2 p q := ⟨y 0, y 1, eq_ix2 y⟩
  obtain rfl : q = 0 := Subsingleton.elim _ _
  obtain ⟨hs, ho⟩ := runC0_eq V c t h1 (prev0 V c t)
  have hr' : 2048 * (t.val / 12) + p.val = r.val := hr
  refine (congrFun ho (ix2 p 0)).trans ((k0_pay3_apply _ p).trans ?_)
  rw [← congrFun hs (ix2 p 0), ← accAt0_C V c t h1, acc0_eq V c t.val t.isLt p, h1, hr', colsum0_all]
  rfl

theorem flushed0_eq (c : Dev nD) (t : Fin cfg0.N) (hf : (cfg0.win 1).flush t = true) :
    (dat0 V c).flushed 1 t = ((cfg0.win 1).blk t).view.read (Elt Ideal) (deg0 V c) := by
  have h1 : t.val % 12 = 11 := (flush0_1 t).mp hf
  have hN : t.val < 72 := lt_of_lt_of_eq t.isLt (show cfg0.N = 72 from N_0)
  obtain ⟨-, -, e2, e3⟩ := idx_facts0 t
  show (cfg0.win 1).cut (grid0.coords t) ((dat0 V c).after 1 t) = _
  rw [show (dat0 V c).after 1 t = left0 (runC0 V c t h1 (prev0 V c t)).1 from dif_pos h1]
  funext y
  rw [View.read_apply]
  have hy : (y 0).val < 2048 := (y 0).isLt
  refine (out0_C_apply V c t h1 y ⟨2048 * (t.val / 12) + (y 0).val, by omega⟩ rfl).trans ?_
  show Cert.Gcn.dinv (adj0 V c) _ = Cert.Gcn.dinv (adj0 V c) ((((cfg0.win 1).blk t).view.emb y) 0)
  congr 1
  apply Fin.ext
  show 2048 * (t.val / 12) + (y 0).val = win0_1.index t 0 * 2048 + 1 * (y 0).val
  rw [e2]; omega

theorem mem_blk0 (t : Fin cfg0.N) (i : S12288x1.Idx) :
    i ∈ ((cfg0.win 1).blk t).view.set ↔ ∀ a : Fin 2, win0_1.index t a * S2048x1.size a ≤ (i a).val ∧ (i a).val < win0_1.index t a * S2048x1.size a + S2048x1.size a := by
  show i ∈ ((View.whole main_v0).slice (win0_1.rect t)).set ↔ _
  rw [View.set_slice_whole, Rect.mem_set_unit]
  exact Iff.rfl

-- Row `r` lies in the block of point 12·(r / 2048) + 11, the last point of its row block.
theorem cover0 (i : S12288x1.Idx) : ∃ t : Fin cfg0.N, (cfg0.win 1).flush t = true ∧ i ∈ ((cfg0.win 1).blk t).view.set := by
  have hi0 : (i 0).val < 12288 := (i 0).isLt
  have hi1 : (i 1).val < 1 := (i 1).isLt
  obtain ⟨t, ht⟩ : ∃ t : Fin cfg0.N, t.val = 12 * ((i 0).val / 2048) + 11 := ⟨⟨_, by rw [show cfg0.N = 72 from N_0]; omega⟩, rfl⟩
  obtain ⟨-, -, e2, e3⟩ := idx_facts0 t
  refine ⟨t, (flush0_1 t).mpr (by omega), (mem_blk0 t i).mpr fun a => ?_⟩
  match a with
  | ⟨0, _⟩ => show win0_1.index t 0 * 2048 ≤ (i 0).val ∧ (i 0).val < win0_1.index t 0 * 2048 + 2048; rw [e2]; omega
  | ⟨1, _⟩ => show win0_1.index t 1 * 1 ≤ (i 1).val ∧ (i 1).val < win0_1.index t 1 * 1 + 1; rw [e3]; omega

theorem final0 (c : Dev nD) (i : Fin 12288) : ((dat0 (F := Ideal) V c).arrAt 1 cfg0.N : S12288x1.Idx → EReal) (ValueIdx.ix2 i 0) = Cert.Gcn.dinv (V c main_arg1) i :=
  congrFun ((dat0 V c).arrAt_eq_of_cover 1 (deg0 V c) (flushed0_eq V c) cover0) (ix2 i 0)

end Value

end Cert.KernelIdeal.Hand

end
-- ==== Proof.DotAt.lean ====
import Idealize.ShloMosaic.Lib.StackMember
import Idealize.ShloMosaic.PureOps.Ideal.Laws

namespace Cert

open Idealize.ShloMosaic Idealize.ShloMosaic.ValueIdx
open scoped BigOperators

-- A product into the zero accumulator is the plain product of the two matrices: the sum over the contracted coordinate.
theorem matmul_zero_at {m k n : ℕ} {φ₁ φ₂ : FTy} {d : DotDims ⟨2, ![m, k]⟩ ⟨2, ![k, n]⟩ ⟨2, ![m, n]⟩} (hd : d = DotDims.plain m k n)
    (prec : Option ContractPrecision) (l : FVec Ideal ⟨2, ![m, k]⟩ φ₁) (r : FVec Ideal ⟨2, ![k, n]⟩ φ₂) (p : Fin m) (q : Fin n) :
    FloatOps.matmul d prec l r (constant ⟨2, ![m, n]⟩ .f32 0x00000000#32) (ix2 p q) = ∑ f : Fin k, l (ix2 p f) * r (ix2 f q) := by
  subst hd
  exact (Ideal.matmul_constant_zero_apply _ prec l r _).trans
    ((Ideal.dotGeneral_apply _ prec _ l r _).symm.trans (StackMember.dotGeneral_plain_apply prec l r p q))

end Cert
-- ==== Proof.KIVal1.lean ====
import proofs.«103262_j55946243997874_1_alg».proof.Proof.KIReg1
import proofs.«103262_j55946243997874_1_alg».proof.Proof.Spec
import Idealize.ShloMosaic.Lib.Pipeline.Value
import Idealize.ShloMosaic.Lib.ValueIdx
import Idealize.ShloMosaic.PureOps.Ideal.Laws
import proofs.«103262_j55946243997874_1_alg».proof.Proof.DotAt

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx
open scoped BigOperators

variable (V : (c : Dev nD) → (b : Ref sig .tc) → Buf (Elt Ideal) ((c : Thread nD τ).loc b))

theorem pay1_apply (x0 : Vec Ideal S2048x512 .f32) (x1 : Vec Ideal S512x16 .f32) (p : Fin 2048) (q : Fin 16) :
    k1_pay1 (F := Ideal) x0 x1 (ix2 p q) = ∑ f : Fin 512, x0 (ix2 p f) * x1 (ix2 f q) :=
  matmul_zero_at rfl none _ _ p q

theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem iblk1_0_apply (c : Dev nD) (t : Fin cfg1.N) (x : S2048x512.Idx) (k : S12288x512.Idx)
    (hk0 : (k 0).val = t.val * 2048 + (x 0).val) (hk1 : (k 1).val = (x 1).val) :
    (iblk1 V c 0 t : Vec Ideal S2048x512 .f32) x = (V c main_arg0 : S12288x512.Idx → EReal) k := by
  obtain ⟨e0, e1, -⟩ := idx1 t
  unfold iblk1
  rw [View.read_apply]
  show V c main_arg0 _ = V c main_arg0 _
  congr 1
  funext a
  apply Fin.ext
  match a with
  | ⟨0, _⟩ => show win1_0.index t (0 : Fin 2) * 2048 + 1 * (x 0).val = (k 0).val; rw [e0, hk0]; omega
  | ⟨1, _⟩ => show win1_0.index t (1 : Fin 2) * 512 + 1 * (x 1).val = (k 1).val; rw [e1, hk1]; omega

theorem iblk1_1_apply (c : Dev nD) (t : Fin cfg1.N) (x : S512x16.Idx) :
    (iblk1 V c 1 t : Vec Ideal S512x16 .f32) x = (V c main_arg2 : S512x16.Idx → EReal) x := by
  obtain ⟨-, -, e0, e1, -⟩ := idx1 t
  unfold iblk1
  rw [View.read_apply]
  show V c main_arg2 _ = V c main_arg2 _
  congr 1
  funext a
  apply Fin.ext
  match a with
  | ⟨0, _⟩ => show win1_1.index t (0 : Fin 2) * 512 + 1 * (x 0).val = (x 0).val; rw [e0]; omega
  | ⟨1, _⟩ => show win1_1.index t (1 : Fin 2) * 16 + 1 * (x 1).val = (x 1).val; rw [e1]; omega

def G1 (a : Cert.Gcn.Mat 12288 512) (w : Cert.Gcn.Mat 512 16) : S12288x16.Idx → EReal :=
  fun i => Cert.Gcn.lin a w (i 0) (i 1)

theorem flushed1_eq (c : Dev nD) (t : Fin cfg1.N) :
    (dat1 V c).flushed 2 t = ((cfg1.win 2).blk t).view.read (Elt Ideal) (G1 (V c main_arg0) (V c main_arg2)) := by
  show (cfg1.win 2).cut (grid1.coords t) ((dat1 V c).after 2 t) = _
  rw [after1_2]
  obtain ⟨-, -, -, -, e0, e1⟩ := idx1 t
  funext j
  show k1_pay1 (F := Ideal) (iblk1 V c 0 t) (iblk1 V c 1 t) j
    = G1 (V c main_arg0) (V c main_arg2) (((cfg1.win 2).blk t).view.emb j)
  refine (congrArg (k1_pay1 (F := Ideal) (iblk1 V c 0 t) (iblk1 V c 1 t)) (eq_ix2 j)).trans ?_
  refine (pay1_apply (iblk1 V c 0 t) (iblk1 V c 1 t) (j 0) (j 1)).trans ?_
  unfold G1 Cert.Gcn.lin
  have h0 : ((((cfg1.win 2).blk t).view.emb j) 0).val = t.val * 2048 + (j 0).val := by
    show win1_2.index t (0 : Fin 2) * 2048 + 1 * (j 0).val = _
    rw [e0]; omega
  have h1 : ((((cfg1.win 2).blk t).view.emb j) 1).val = (j 1).val := by
    show win1_2.index t (1 : Fin 2) * 16 + 1 * (j 1).val = _
    rw [e1]; omega
  refine Finset.sum_congr rfl fun f _ => ?_
  refine congrArg₂ (· * ·) ?_ ?_
  · exact iblk1_0_apply V c t (ix2 (j 0) f) (ix2 ((((cfg1.win 2).blk t).view.emb j) 0) f) h0 rfl
  · refine (iblk1_1_apply V c t (ix2 f (j 1))).trans ?_
    exact congrArg (V c main_arg2 : S512x16.Idx → EReal) (funext fun a => Fin.ext (by
      match a with
      | ⟨0, _⟩ => rfl
      | ⟨1, _⟩ => exact h1.symm))

theorem cover1 (i : S12288x16.Idx) : ∃ t : Fin cfg1.N, (cfg1.win 2).flush t = true ∧ i ∈ ((cfg1.win 2).blk t).view.set := by
  have hi0 : (i 0).val < 12288 := (i 0).isLt
  have hi1 : (i 1).val < 16 := (i 1).isLt
  have ht : (i 0).val / 2048 < cfg1.N := by rw [show cfg1.N = 6 from N_1]; omega
  refine ⟨⟨_, ht⟩, flush1_2 _, ?_⟩
  show i ∈ ((View.whole main_v1).slice (win1_2.rect ⟨_, ht⟩)).set
  rw [View.set_slice_whole, Rect.mem_set_unit]
  obtain ⟨-, -, -, -, e0, e1⟩ := idx1 ⟨_, ht⟩
  intro a
  match a with
  | ⟨0, _⟩ =>
    show win1_2.index _ (0 : Fin 2) * 2048 ≤ (i 0).val ∧ (i 0).val < win1_2.index _ (0 : Fin 2) * 2048 + 2048
    rw [e0]; show (i 0).val / 2048 * 2048 ≤ (i 0).val ∧ (i 0).val < (i 0).val / 2048 * 2048 + 2048; omega
  | ⟨1, _⟩ =>
    show win1_2.index _ (1 : Fin 2) * 16 ≤ (i 1).val ∧ (i 1).val < win1_2.index _ (1 : Fin 2) * 16 + 16
    rw [e1]; omega

theorem final1 (c : Dev nD) (i : Fin 12288) (k : Fin 16) :
    ((dat1 (F := Ideal) V c).arrAt 2 cfg1.N : S12288x16.Idx → EReal) (ValueIdx.ix2 i k)
      = Cert.Gcn.lin (V c main_arg0) (V c main_arg2) i k :=
  congrFun ((dat1 V c).arrAt_eq_of_cover 2 (G1 (V c main_arg0) (V c main_arg2)) (fun t _ => flushed1_eq V c t) (cover1)) (ix2 i k)

end Cert.KernelIdeal.Hand

end
-- ==== Proof.KIVal2Pay.lean ====
import proofs.«103262_j55946243997874_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import proofs.«103262_j55946243997874_1_alg».proof.Proof.DotAt

set_option maxRecDepth 16384

noncomputable section

namespace Cert.KernelIdeal.Hand

open Cert.KernelIdeal Cert.KernelIdeal.Gen
open Idealize.ShloMosaic Idealize.ShloMosaic.ValueIdx
open scoped BigOperators

theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem pay1_apply2 (r : Fin 2048) (q : Fin 16) : k2_pay1 (F := Ideal) (ix2 r q) = 0 := by
  unfold k2_pay1
  refine (congrFun (shapeCast_self _ _) (ix2 r q)).trans ?_
  exact Ideal.ofBits_zero_f32

theorem pay2_apply2 (x0 : Vec Ideal S2048x1024 .f32) (x1 : Vec Ideal S1024x16 .f32) (x2 : Vec Ideal S1024x1 .f32) (acc : Vec Ideal S2048x16 .f32)
    (r : Fin 2048) (q : Fin 16) :
    k2_pay2 (F := Ideal) x0 x1 x2 acc (ix2 r q)
      = acc (ix2 r q) + ∑ j : Fin 1024, x0 (ix2 r j) * (x1 (ix2 j q) * x2 (ix2 j (0 : Fin 1))) := by
  unfold k2_pay2
  refine (congrFun (shapeCast_self _ _) (ix2 r q)).trans ?_
  refine (addf_apply _ _ _).trans ?_
  refine congrArg (acc (ix2 r q) + ·) ?_
  refine (matmul_zero_at rfl none _ _ r q).trans ?_
  refine Finset.sum_congr rfl fun j _ => ?_
  show x0 (ix2 r j) * (shapeCast S1024x16 x1 shapeCasts_S1024x16_S1024x16 (ix2 j q) * broadcastTo S1024x16 (shapeCast S1024x1 x2 shapeCasts_S1024x1_S1024x1) broadcasts_S1024x1_S1024x16 (ix2 j q)) = _
  rw [shapeCast_self, shapeCast_self, broadcastTo_a1_ab_apply]

theorem pay3_apply2 (dr : Vec Ideal S2048x1 .f32) (Mr : Vec Ideal S2048x16 .f32) (acc : Vec Ideal S2048x16 .f32) (b : Vec Ideal S1x16 .f32)
    (r : Fin 2048) (q : Fin 16) :
    k2_pay3 (F := Ideal) dr Mr acc b (ix2 r q)
      = max (dr (ix2 r (0 : Fin 1)) * acc (ix2 r q) + (dr (ix2 r (0 : Fin 1)) * dr (ix2 r (0 : Fin 1))) * Mr (ix2 r q) + b (ix2 (0 : Fin 1) q)) 0 := by
  unfold k2_pay3
  show max (broadcastTo S2048x16 (shapeCast S2048x1 dr shapeCasts_S2048x1_S2048x1) broadcasts_S2048x1_S2048x16 (ix2 r q) * acc (ix2 r q)
      + broadcastTo S2048x16 (mulf (F := Ideal) (shapeCast S2048x1 dr shapeCasts_S2048x1_S2048x1) (shapeCast S2048x1 dr shapeCasts_S2048x1_S2048x1)) broadcasts_S2048x1_S2048x16 (ix2 r q)
        * shapeCast S2048x16 Mr shapeCasts_S2048x16_S2048x16 (ix2 r q)
      + broadcastTo S2048x16 (shapeCast S1x16 b shapeCasts_S1x16_S1x16) broadcasts_S1x16_S2048x16 (ix2 r q)) (Ideal.ofBits .f32 0x00000000#32) = _
  rw [shapeCast_self, shapeCast_self, shapeCast_self, broadcastTo_a1_ab_apply, broadcastTo_a1_ab_apply, broadcastTo_1b_ab_apply, Ideal.ofBits_zero_f32]
  rfl

end Cert.KernelIdeal.Hand

end
-- ==== Proof.KIVal2.lean ====
import proofs.«103262_j55946243997874_1_alg».proof.Proof.KIReg2
import proofs.«103262_j55946243997874_1_alg».proof.Proof.KIVal2Pay
import proofs.«103262_j55946243997874_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

section Pieces

variable {F : FTy → Type} [FloatOps F]

theorem zeroOff2 : (![0, 0] : Fin 2 → Nat) = fun _ => 0 := funext fun a => by fin_cases a <;> rfl

variable (c : Dev nD) (i : grid2.Coords) (arg2 : Memref sig .tc .vmem S2048x1024 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S2048x16 .f32) (harg5 : arg5.IsWhole) (arg6 : Memref sig .tc .vmem S2048x1 .f32) (harg6 : arg6.IsWhole) (arg7 : Memref sig .tc .vmem S1x16 .f32) (harg7 : arg7.IsWhole) (arg8 : Memref sig .tc .vmem S2048x16 .f32) (harg8 : arg8.IsWhole) (arg9 : Memref sig .tc .vmem S2048x16 .f32) (harg9 : arg9.IsWhole)
    (x0 : Vec F S2048x1024 .f32) (x1 : Vec F S1024x16 .f32) (x2 : Vec F S1024x1 .f32) (x3 : Vec F S2048x16 .f32) (x4 : Vec F S2048x1 .f32) (x5 : Vec F S1x16 .f32) (xs0 : Vec F S2048x16 .f32)

theorem piecesA2 (hc0 : cond2_0 i) (hc1 : ¬cond2_1 i) :
    left2 (kernelRun2_A (F := F) c i arg2 harg2 arg3 harg3 arg4 harg4 arg5 harg5 arg6 harg6 arg7 harg7 arg8 harg8 arg9 harg9 hc0 hc1 x0 x1 x2 x3 x4 x5).1 = k2_pay2 x0 x1 x2 (k2_pay1 (F := F)) := by
  unfold left2
  rw [View.read_writes_junk_eq_canon]
  unfold kernelRun2_A
  dsimp only
  sl_unfold_words
  rw [View.canon_cons_unit_zero (S := S2048x16) zeroOff2, View.readCov_unit_zero (S := S2048x16) _ zeroOff2]
  simp only [View.readAt_eq_ld, harg2.read_unread, harg3.read_unread, harg4.read_unread, View.ld_unit_zero (S := S2048x1024) zeroOff2, View.ld_unit_zero (S := S1024x16) zeroOff2, View.ld_unit_zero (S := S1024x1) zeroOff2]

theorem piecesB2 (hc0 : ¬cond2_0 i) (hc1 : ¬cond2_1 i) :
    left2 (kernelRun2_B (F := F) c i arg2 harg2 arg3 harg3 arg4 harg4 arg5 harg5 arg6 harg6 arg7 harg7 arg8 harg8 arg9 harg9 hc0 hc1 x0 x1 x2 x3 x4 x5 xs0).1 = k2_pay2 x0 x1 x2 xs0 := by
  unfold left2
  rw [View.read_writes_junk_eq_canon]
  unfold kernelRun2_B
  dsimp only
  try sl_unfold_words
  rw [View.canon_unit_zero zeroOff2]
  simp only [View.readAt_eq_ld, harg2.read_unread, harg3.read_unread, harg4.read_unread, harg5.read_unread, harg6.read_unread, harg7.read_unread, harg9.read_unread, View.ld_unit_zero (S := S2048x1024) zeroOff2, View.ld_unit_zero (S := S1024x16) zeroOff2, View.ld_unit_zero (S := S1024x1) zeroOff2, View.ld_unit_zero (S := S2048x16) zeroOff2, View.ld_unit_zero (S := S2048x1) zeroOff2, View.ld_unit_zero (S := S1x16) zeroOff2]

theorem piecesC2s (hc0 : ¬cond2_0 i) (hc1 : cond2_1 i) :
    left2 (kernelRun2_C (F := F) c i arg2 harg2 arg3 harg3 arg4 harg4 arg5 harg5 arg6 harg6 arg7 harg7 arg8 harg8 arg9 harg9 hc0 hc1 x0 x1 x2 x3 x4 x5 xs0).2.1 = k2_pay2 x0 x1 x2 xs0 := by
  unfold left2
  rw [View.read_writes_junk_eq_canon]
  unfold kernelRun2_C
  dsimp only
  try sl_unfold_words
  rw [View.canon_unit_zero zeroOff2]
  simp only [View.readAt_eq_ld, harg2.read_unread, harg3.read_unread, harg4.read_unread, harg5.read_unread, harg6.read_unread, harg7.read_unread, harg9.read_unread, View.ld_unit_zero (S := S2048x1024) zeroOff2, View.ld_unit_zero (S := S1024x16) zeroOff2, View.ld_unit_zero (S := S1024x1) zeroOff2, View.ld_unit_zero (S := S2048x16) zeroOff2, View.ld_unit_zero (S := S2048x1) zeroOff2, View.ld_unit_zero (S := S1x16) zeroOff2]

theorem piecesC2o (hc0 : ¬cond2_0 i) (hc1 : cond2_1 i) :
    left2 (kernelRun2_C (F := F) c i arg2 harg2 arg3 harg3 arg4 harg4 arg5 harg5 arg6 harg6 arg7 harg7 arg8 harg8 arg9 harg9 hc0 hc1 x0 x1 x2 x3 x4 x5 xs0).1 = k2_pay3 x4 x3 (k2_pay2 x0 x1 x2 xs0) x5 := by
  unfold left2
  rw [View.read_writes_junk_eq_canon]
  unfold kernelRun2_C
  dsimp only
  try sl_unfold_words
  rw [View.canon_unit_zero zeroOff2]
  simp only [View.readCov_unit_zero (S := S2048x16) _ zeroOff2, View.readAt_eq_ld, harg2.read_unread, harg3.read_unread, harg4.read_unread, harg5.read_unread, harg6.read_unread, harg7.read_unread, harg9.read_unread, View.ld_unit_zero (S := S2048x1024) zeroOff2, View.ld_unit_zero (S := S1024x16) zeroOff2, View.ld_unit_zero (S := S1024x1) zeroOff2, View.ld_unit_zero (S := S2048x16) zeroOff2, View.ld_unit_zero (S := S2048x1) zeroOff2, View.ld_unit_zero (S := S1x16) zeroOff2]

end Pieces

section Value

variable (V : (c : Dev nD) → (b : Ref sig .tc) → Buf (Elt Ideal) ((c : Thread nD τ).loc b))

theorem idx_facts_r2 : ∀ t : Fin cfg2.N,
    win2_0.index t (0 : Fin 2) = t.val / 12 ∧ win2_0.index t (1 : Fin 2) = t.val % 12
    ∧ win2_1.index t (0 : Fin 2) = t.val % 12 ∧ win2_1.index t (1 : Fin 2) = 0
    ∧ win2_2.index t (0 : Fin 2) = t.val % 12 ∧ win2_2.index t (1 : Fin 2) = 0
    ∧ win2_3.index t (0 : Fin 2) = t.val / 12 ∧ win2_3.index t (1 : Fin 2) = 0
    ∧ win2_4.index t (0 : Fin 2) = t.val / 12 ∧ win2_4.index t (1 : Fin 2) = 0
    ∧ win2_5.index t (0 : Fin 2) = 0 ∧ win2_5.index t (1 : Fin 2) = 0
    ∧ win2_6.index t (0 : Fin 2) = t.val / 12 ∧ win2_6.index t (1 : Fin 2) = 0 :=
  (by decide +kernel : ∀ t : Fin grid2.N, _)

abbrev adjA (c : Dev nD) : S12288x12288.Idx → EReal := V c main_arg1
abbrev mA (c : Dev nD) : S12288x16.Idx → EReal := V c main_v1
abbrev dA (c : Dev nD) : S12288x1.Idx → EReal := V c main_v0
abbrev bA (c : Dev nD) : S1x16.Idx → EReal := V c main_v2
abbrev adjB (c : Dev nD) (t : Fin cfg2.N) : Vec Ideal S2048x1024 .f32 := iblk2 V c 0 t
abbrev mB (c : Dev nD) (t : Fin cfg2.N) : Vec Ideal S1024x16 .f32 := iblk2 V c 1 t
abbrev dB (c : Dev nD) (t : Fin cfg2.N) : Vec Ideal S1024x1 .f32 := iblk2 V c 2 t
abbrev mR (c : Dev nD) (t : Fin cfg2.N) : Vec Ideal S2048x16 .f32 := iblk2 V c 3 t
abbrev dR (c : Dev nD) (t : Fin cfg2.N) : Vec Ideal S2048x1 .f32 := iblk2 V c 4 t
abbrev bB (c : Dev nD) (t : Fin cfg2.N) : Vec Ideal S1x16 .f32 := iblk2 V c 5 t

-- A function of a rank-2 index takes the same value at two indices with the same coordinates.
theorem entry2 {n0 n1 : ℕ} (f : (⟨2, ![n0, n1]⟩ : Shape).Idx → EReal) {x k : (⟨2, ![n0, n1]⟩ : Shape).Idx}
    (h0 : (x 0).val = (k 0).val) (h1 : (x 1).val = (k 1).val) : f x = f k := by
  congr 1; funext a; apply Fin.ext
  match a with
  | ⟨0, _⟩ => exact h0
  | ⟨1, _⟩ => exact h1

theorem adjB_apply (c : Dev nD) (t : Fin cfg2.N) (r : Fin 2048) (j : Fin 1024) (k : S12288x12288.Idx)
    (hk0 : (k 0).val = 2048 * (t.val / 12) + r.val) (hk1 : (k 1).val = 1024 * (t.val % 12) + j.val) :
    adjB V c t (ix2 r j) = adjA V c k := by
  obtain ⟨e0, e1, -⟩ := idx_facts_r2 t
  exact entry2 (adjA V c) (by show win2_0.index t (0 : Fin 2) * 2048 + 1 * r.val = (k 0).val; rw [e0, hk0]; omega)
    (by show win2_0.index t (1 : Fin 2) * 1024 + 1 * j.val = (k 1).val; rw [e1, hk1]; omega)

theorem mB_apply (c : Dev nD) (t : Fin cfg2.N) (j : Fin 1024) (q : Fin 16) (k : S12288x16.Idx)
    (hk0 : (k 0).val = 1024 * (t.val % 12) + j.val) (hk1 : (k 1).val = q.val) :
    mB V c t (ix2 j q) = mA V c k := by
  obtain ⟨-, -, e0, e1, -⟩ := idx_facts_r2 t
  exact entry2 (mA V c) (by show win2_1.index t (0 : Fin 2) * 1024 + 1 * j.val = (k 0).val; rw [e0, hk0]; omega)
    (by show win2_1.index t (1 : Fin 2) * 16 + 1 * q.val = (k 1).val; rw [e1, hk1]; omega)

theorem dB_apply (c : Dev nD) (t : Fin cfg2.N) (j : Fin 1024) (k : S12288x1.Idx)
    (hk0 : (k 0).val = 1024 * (t.val % 12) + j.val) (hk1 : (k 1).val = 0) :
    dB V c t (ix2 j (0 : Fin 1)) = dA V c k := by
  obtain ⟨-, -, -, -, e0, e1, -⟩ := idx_facts_r2 t
  exact entry2 (dA V c) (by show win2_2.index t (0 : Fin 2) * 1024 + 1 * j.val = (k 0).val; rw [e0, hk0]; omega)
    (by show win2_2.index t (1 : Fin 2) * 1 + 1 * (0 : Fin 1).val = (k 1).val; rw [e1, hk1]; rfl)

theorem mR_apply (c : Dev nD) (t : Fin cfg2.N) (r : Fin 2048) (q : Fin 16) (k : S12288x16.Idx)
    (hk0 : (k 0).val = 2048 * (t.val / 12) + r.val) (hk1 : (k 1).val = q.val) :
    mR V c t (ix2 r q) = mA V c k := by
  obtain ⟨-, -, -, -, -, -, e0, e1, -⟩ := idx_facts_r2 t
  exact entry2 (mA V c) (by show win2_3.index t (0 : Fin 2) * 2048 + 1 * r.val = (k 0).val; rw [e0, hk0]; omega)
    (by show win2_3.index t (1 : Fin 2) * 16 + 1 * q.val = (k 1).val; rw [e1, hk1]; omega)

theorem dR_apply (c : Dev nD) (t : Fin cfg2.N) (r : Fin 2048) (k : S12288x1.Idx)
    (hk0 : (k 0).val = 2048 * (t.val / 12) + r.val) (hk1 : (k 1).val = 0) :
    dR V c t (ix2 r (0 : Fin 1)) = dA V c k := by
  obtain ⟨-, -, -, -, -, -, -, -, e0, e1, -⟩ := idx_facts_r2 t
  exact entry2 (dA V c) (by show win2_4.index t (0 : Fin 2) * 2048 + 1 * r.val = (k 0).val; rw [e0, hk0]; omega)
    (by show win2_4.index t (1 : Fin 2) * 1 + 1 * (0 : Fin 1).val = (k 1).val; rw [e1, hk1]; rfl)

theorem bB_apply (c : Dev nD) (t : Fin cfg2.N) (q : Fin 16) :
    bB V c t (ix2 (0 : Fin 1) q) = bA V c (ix2 (0 : Fin 1) q) := by
  obtain ⟨-, -, -, -, -, -, -, -, -, -, e0, e1, -⟩ := idx_facts_r2 t
  exact entry2 (bA V c) (by show win2_5.index t (0 : Fin 2) * 1 + 1 * (0 : Fin 1).val = (0 : Fin 1).val; rw [e0]; rfl)
    (by show win2_5.index t (1 : Fin 2) * 16 + 1 * q.val = q.val; rw [e1]; omega)

def term2 (c : Dev nD) (i : ℕ) (q : Fin 16) (jn : ℕ) : EReal :=
  if h : i < 12288 ∧ jn < 12288 then
    adjA V c (ix2 ⟨i, h.1⟩ ⟨jn, h.2⟩) * (mA V c (ix2 ⟨jn, h.2⟩ q) * dA V c (ix2 ⟨jn, h.2⟩ (0 : Fin 1)))
  else 0

def psum2 (c : Dev nD) (i : ℕ) (q : Fin 16) (m : ℕ) : EReal := ∑ jn ∈ Finset.range m, term2 V c i q jn

theorem psum2_succ (c : Dev nD) (i : ℕ) (q : Fin 16) (k : ℕ) :
    psum2 V c i q (1024 * (k + 1)) = psum2 V c i q (1024 * k) + ∑ jn ∈ Finset.range 1024, term2 V c i q (1024 * k + jn) := by
  unfold psum2
  rw [show 1024 * (k + 1) = 1024 * k + 1024 from by omega, Finset.sum_range_add]

theorem psum2_full (c : Dev nD) (i : Fin 12288) (q : Fin 16) :
    psum2 V c i.val q 12288 = ∑ j : Fin 12288, adjA V c (ix2 i j) * (mA V c (ix2 j q) * dA V c (ix2 j (0 : Fin 1))) := by
  unfold psum2
  rw [Finset.sum_range]
  refine Finset.sum_congr rfl fun j _ => ?_
  unfold term2
  rw [dif_pos ⟨i.isLt, j.isLt⟩]

theorem blockSum2 (c : Dev nD) (t : Fin cfg2.N) (r : Fin 2048) (q : Fin 16) :
    (∑ j : Fin 1024, adjB V c t (ix2 r j) * (mB V c t (ix2 j q) * dB V c t (ix2 j (0 : Fin 1))))
      = ∑ jn ∈ Finset.range 1024, term2 V c (2048 * (t.val / 12) + r.val) q (1024 * (t.val % 12) + jn) := by
  have hN : t.val < 72 := lt_of_lt_of_eq t.isLt (show cfg2.N = 72 from N_2)
  rw [Finset.sum_range]
  refine Finset.sum_congr rfl fun j _ => ?_
  have hi : 2048 * (t.val / 12) + r.val < 12288 := by have := r.isLt; omega
  have hj : 1024 * (t.val % 12) + j.val < 12288 := by have := j.isLt; omega
  unfold term2
  rw [dif_pos ⟨hi, hj⟩]
  rw [adjB_apply V c t r j (ix2 ⟨_, hi⟩ ⟨_, hj⟩) rfl rfl, mB_apply V c t j q (ix2 ⟨_, hj⟩ q) rfl rfl,
    dB_apply V c t j (ix2 ⟨_, hj⟩ (0 : Fin 1)) rfl rfl]

theorem sout2_A_eq (c : Dev nD) (t : Fin cfg2.N) (h0 : t.val % 12 = 0) :
    left2 (runA2 V c t h0).1 = k2_pay2 (F := Ideal) (adjB V c t) (mB V c t) (dB V c t) (k2_pay1 (F := Ideal)) :=
  piecesA2 ..

theorem sout2_B_eq (c : Dev nD) (t : Fin cfg2.N) (h0 : ¬t.val % 12 = 0) (h1 : ¬t.val % 12 = 11) (xs : Vec Ideal S2048x16 .f32) :
    left2 (runB2 V c t h0 h1 xs).1 = k2_pay2 (F := Ideal) (adjB V c t) (mB V c t) (dB V c t) xs :=
  piecesB2 ..

theorem sout2_C_eq (c : Dev nD) (t : Fin cfg2.N) (h1 : t.val % 12 = 11) (xs : Vec Ideal S2048x16 .f32) :
    left2 (runC2 V c t h1 xs).2.1 = k2_pay2 (F := Ideal) (adjB V c t) (mB V c t) (dB V c t) xs :=
  piecesC2s ..

theorem out2_C_eq (c : Dev nD) (t : Fin cfg2.N) (h1 : t.val % 12 = 11) (xs : Vec Ideal S2048x16 .f32) :
    left2 (runC2 V c t h1 xs).1 = k2_pay3 (F := Ideal) (dR V c t) (mR V c t) (k2_pay2 (F := Ideal) (adjB V c t) (mB V c t) (dB V c t) xs) (bB V c t) :=
  piecesC2o ..

theorem acc_step_A (c : Dev nD) (t : Fin cfg2.N) (h0 : t.val % 12 = 0) (r : Fin 2048) (q : Fin 16) :
    accAt2 V c t.val t.isLt (ix2 r q) = psum2 V c (2048 * (t.val / 12) + r.val) q (1024 * (t.val % 12 + 1)) := by
  rw [accAt2_A V c t h0]
  refine (congrFun (sout2_A_eq V c t h0) (ix2 r q)).trans ?_
  refine (pay2_apply2 (adjB V c t) (mB V c t) (dB V c t) (k2_pay1 (F := Ideal)) r q).trans ?_
  rw [pay1_apply2, zero_add, blockSum2 V c t r q, psum2_succ V c _ q (t.val % 12), h0,
    show psum2 V c (2048 * (t.val / 12) + r.val) q (1024 * 0) = 0 from by simp [psum2], zero_add]

theorem acc_step_BC (c : Dev nD) (t : Fin cfg2.N) (h0 : ¬t.val % 12 = 0)
    (prev : ∀ (r : Fin 2048) (q : Fin 16), (prev2 V c t) (ix2 r q)
      = psum2 V c (2048 * ((t.val - 1) / 12) + r.val) q (1024 * ((t.val - 1) % 12 + 1)))
    (r : Fin 2048) (q : Fin 16) :
    accAt2 V c t.val t.isLt (ix2 r q) = psum2 V c (2048 * (t.val / 12) + r.val) q (1024 * (t.val % 12 + 1)) := by
  have e1 : (t.val - 1) / 12 = t.val / 12 := by omega
  have e2 : (t.val - 1) % 12 + 1 = t.val % 12 := by omega
  have hstep : k2_pay2 (F := Ideal) (adjB V c t) (mB V c t) (dB V c t) (prev2 V c t) (ix2 r q)
      = psum2 V c (2048 * (t.val / 12) + r.val) q (1024 * (t.val % 12 + 1)) := by
    refine (pay2_apply2 (adjB V c t) (mB V c t) (dB V c t) (prev2 V c t) r q).trans ?_
    rw [prev r q, blockSum2 V c t r q, e1, e2, psum2_succ V c _ q (t.val % 12)]
  by_cases h1 : t.val % 12 = 11
  · rw [accAt2_C V c t h1]
    exact (congrFun (sout2_C_eq V c t h1 (prev2 V c t)) (ix2 r q)).trans hstep
  · rw [accAt2_B V c t h0 h1]
    exact (congrFun (sout2_B_eq V c t h0 h1 (prev2 V c t)) (ix2 r q)).trans hstep

theorem acc_inv2 (c : Dev nD) : ∀ (n : ℕ) (hn : n < cfg2.N) (r : Fin 2048) (q : Fin 16),
    accAt2 V c n hn (ix2 r q) = psum2 V c (2048 * (n / 12) + r.val) q (1024 * (n % 12 + 1)) := by
  intro n
  induction n with
  | zero => intro hn r q; exact acc_step_A V c ⟨0, hn⟩ rfl r q
  | succ n ih =>
    intro hn r q
    by_cases h0 : (n + 1) % 12 = 0
    · exact acc_step_A V c ⟨n + 1, hn⟩ h0 r q
    · exact acc_step_BC V c ⟨n + 1, hn⟩ h0 (fun r q => ih (Nat.lt_of_succ_lt hn) r q) r q

abbrev G2 (c : Dev nD) : S12288x16.Idx → EReal := fun idx =>
  max (Cert.Gcn.aggK (V c main_arg1) (fun j => V c main_v0 (ix2 j 0)) (fun j k' => V c main_v1 (ix2 j k')) (fun k' => V c main_v2 (ix2 0 k')) (idx 0) (idx 1)) 0

theorem flush_val2 (c : Dev nD) (t : Fin cfg2.N) (h1 : t.val % 12 = 11) (r : Fin 2048) (q : Fin 16)
    (i : Fin 12288) (hi : i.val = 2048 * (t.val / 12) + r.val) :
    left2 (runC2 V c t h1 (prev2 V c t)).1 (ix2 r q) = G2 V c (ix2 i q) := by
  have hacc := acc_inv2 V c t.val t.isLt r q
  rw [accAt2_C V c t h1] at hacc
  have hacc' : k2_pay2 (F := Ideal) (adjB V c t) (mB V c t) (dB V c t) (prev2 V c t) (ix2 r q)
      = psum2 V c i.val q 12288 := by
    rw [hi, show (12288 : ℕ) = 1024 * (t.val % 12 + 1) from by omega]
    exact (congrFun (sout2_C_eq V c t h1 (prev2 V c t)) (ix2 r q)).symm.trans hacc
  refine (congrFun (out2_C_eq V c t h1 (prev2 V c t)) (ix2 r q)).trans ?_
  refine (pay3_apply2 (dR V c t) (mR V c t) (k2_pay2 (F := Ideal) (adjB V c t) (mB V c t) (dB V c t) (prev2 V c t)) (bB V c t) r q).trans ?_
  rw [hacc', psum2_full V c i q, dR_apply V c t r (ix2 i (0 : Fin 1)) hi rfl, mR_apply V c t r q (ix2 i q) hi rfl, bB_apply V c t q]
  rfl

theorem flushed2_eq (c : Dev nD) (t : Fin cfg2.N) (hf : (cfg2.win 6).flush t = true) :
    (dat2 V c).flushed 6 t = ((cfg2.win 6).blk t).view.read (Elt Ideal) (G2 V c) := by
  have h1 : t.val % 12 = 11 := (flush2_6 t).mp hf
  have hN : t.val < 72 := lt_of_lt_of_eq t.isLt (show cfg2.N = 72 from N_2)
  obtain ⟨-, -, -, -, -, -, -, -, -, -, -, -, e0, e1⟩ := idx_facts_r2 t
  show (cfg2.win 6).cut (grid2.coords t) ((dat2 V c).after 6 t) = _
  rw [show (dat2 V c).after 6 t = left2 (runC2 V c t h1 (prev2 V c t)).1 from dif_pos h1]
  funext j
  obtain ⟨r, q, rfl⟩ : ∃ (r : Fin 2048) (q : Fin 16), j = ix2 r q := ⟨j 0, j 1, eq_ix2 j⟩
  have hi : 2048 * (t.val / 12) + r.val < 12288 := by have := r.isLt; omega
  have hemb : ((cfg2.win 6).blk t).view.emb (ix2 r q) = ix2 (⟨2048 * (t.val / 12) + r.val, hi⟩ : Fin 12288) q := by
    funext a; apply Fin.ext
    match a with
    | ⟨0, _⟩ => show win2_6.index t (0 : Fin 2) * 2048 + 1 * r.val = 2048 * (t.val / 12) + r.val; rw [e0]; omega
    | ⟨1, _⟩ => show win2_6.index t (1 : Fin 2) * 16 + 1 * q.val = q.val; rw [e1]; omega
  show left2 (runC2 V c t h1 (prev2 V c t)).1 (ix2 r q) = G2 V c (((cfg2.win 6).blk t).view.emb (ix2 r q))
  rw [hemb]
  exact flush_val2 V c t h1 r q ⟨_, hi⟩ rfl

theorem mem_blk2_6 (t : Fin cfg2.N) (i : S12288x16.Idx) :
    i ∈ ((cfg2.win 6).blk t).view.set ↔ ∀ a : Fin 2, win2_6.index t a * S2048x16.size a ≤ (i a).val ∧ (i a).val < win2_6.index t a * S2048x16.size a + S2048x16.size a := by
  show i ∈ ((View.whole main_v3).slice (win2_6.rect t)).set ↔ _
  rw [View.set_slice_whole, Rect.mem_set_unit]
  exact Iff.rfl

theorem cover2_6 (i : S12288x16.Idx) : ∃ t : Fin cfg2.N, (cfg2.win 6).flush t = true ∧ i ∈ ((cfg2.win 6).blk t).view.set := by
  have hi0 : (i 0).val < 12288 := (i 0).isLt
  have hi1 : (i 1).val < 16 := (i 1).isLt
  have hN : cfg2.N = 72 := N_2
  have ht : 12 * ((i 0).val / 2048) + 11 < cfg2.N := by omega
  refine ⟨⟨12 * ((i 0).val / 2048) + 11, ht⟩, (flush2_6 _).mpr (by dsimp only; omega), ?_⟩
  rw [mem_blk2_6]
  obtain ⟨-, -, -, -, -, -, -, -, -, -, -, -, e0, e1⟩ := idx_facts_r2 ⟨12 * ((i 0).val / 2048) + 11, ht⟩
  dsimp only at e0 e1
  intro a
  match a with
  | ⟨0, _⟩ => show win2_6.index _ (0 : Fin 2) * 2048 ≤ (i 0).val ∧ (i 0).val < win2_6.index _ (0 : Fin 2) * 2048 + 2048; rw [e0]; omega
  | ⟨1, _⟩ => show win2_6.index _ (1 : Fin 2) * 16 ≤ (i 1).val ∧ (i 1).val < win2_6.index _ (1 : Fin 2) * 16 + 16; rw [e1]; omega

theorem final2 (c : Dev nD) (i : Fin 12288) (k : Fin 16) :
    ((dat2 (F := Ideal) V c).arrAt 6 cfg2.N : S12288x16.Idx → EReal) (ValueIdx.ix2 i k)
      = max (Cert.Gcn.aggK (V c main_arg1) (fun j => V c main_v0 (ValueIdx.ix2 j 0)) (fun j k' => V c main_v1 (ValueIdx.ix2 j k')) (fun k' => V c main_v2 (ValueIdx.ix2 0 k')) i k) 0 := by
  rw [(dat2 V c).arrAt_eq_of_cover 6 (G2 V c) (flushed2_eq V c) cover2_6]

end Value

end Cert.KernelIdeal.Hand

end
-- ==== Proof.KIVal3.lean ====
import proofs.«103262_j55946243997874_1_alg».proof.Proof.KIReg3
import proofs.«103262_j55946243997874_1_alg».proof.Proof.Spec
import Idealize.ShloMosaic.Lib.Pipeline.Value
import Idealize.ShloMosaic.Lib.ValueIdx
import Idealize.ShloMosaic.PureOps.Ideal.Laws
import proofs.«103262_j55946243997874_1_alg».proof.Proof.DotAt

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx
open scoped BigOperators

variable (V : (c : Dev nD) → (b : Ref sig .tc) → Buf (Elt Ideal) ((c : Thread nD τ).loc b))

theorem pay3_apply (x0 : Vec Ideal S2048x16 .f32) (x1 : Vec Ideal S16x40 .f32) (p : Fin 2048) (q : Fin 40) :
    k3_pay1 (F := Ideal) x0 x1 (ix2 p q) = ∑ f : Fin 16, x0 (ix2 p f) * x1 (ix2 f q) := by
  unfold k3_pay1
  rw [shapeCast_self]
  exact matmul_zero_at rfl none _ _ p q

theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem iblk3_0_apply (c : Dev nD) (t : Fin cfg3.N) (x : S2048x16.Idx) (k : S12288x16.Idx)
    (hk0 : (k 0).val = t.val * 2048 + (x 0).val) (hk1 : (k 1).val = (x 1).val) :
    (iblk3 V c 0 t : Vec Ideal S2048x16 .f32) x = (V c main_v3 : S12288x16.Idx → EReal) k := by
  obtain ⟨e0, e1, -⟩ := idx3 t
  unfold iblk3
  rw [View.read_apply]
  show V c main_v3 _ = V c main_v3 _
  congr 1
  funext a
  apply Fin.ext
  match a with
  | ⟨0, _⟩ => show win3_0.index t (0 : Fin 2) * 2048 + 1 * (x 0).val = (k 0).val; rw [e0, hk0]; omega
  | ⟨1, _⟩ => show win3_0.index t (1 : Fin 2) * 16 + 1 * (x 1).val = (k 1).val; rw [e1, hk1]; omega

theorem iblk3_1_apply (c : Dev nD) (t : Fin cfg3.N) (x : S16x40.Idx) :
    (iblk3 V c 1 t : Vec Ideal S16x40 .f32) x = (V c main_arg4 : S16x40.Idx → EReal) x := by
  obtain ⟨-, -, e0, e1, -⟩ := idx3 t
  unfold iblk3
  rw [View.read_apply]
  show V c main_arg4 _ = V c main_arg4 _
  congr 1
  funext a
  apply Fin.ext
  match a with
  | ⟨0, _⟩ => show win3_1.index t (0 : Fin 2) * 16 + 1 * (x 0).val = (x 0).val; rw [e0]; omega
  | ⟨1, _⟩ => show win3_1.index t (1 : Fin 2) * 40 + 1 * (x 1).val = (x 1).val; rw [e1]; omega

def G3 (a : Cert.Gcn.Mat 12288 16) (w : Cert.Gcn.Mat 16 40) : S12288x40.Idx → EReal :=
  fun i => Cert.Gcn.lin a w (i 0) (i 1)

theorem flushed3_eq (c : Dev nD) (t : Fin cfg3.N) :
    (dat3 V c).flushed 2 t = ((cfg3.win 2).blk t).view.read (Elt Ideal) (G3 (V c main_v3) (V c main_arg4)) := by
  show (cfg3.win 2).cut (grid3.coords t) ((dat3 V c).after 2 t) = _
  rw [after3_2]
  obtain ⟨-, -, -, -, e0, e1⟩ := idx3 t
  funext j
  show k3_pay1 (F := Ideal) (iblk3 V c 0 t) (iblk3 V c 1 t) j
    = G3 (V c main_v3) (V c main_arg4) (((cfg3.win 2).blk t).view.emb j)
  refine (congrArg (k3_pay1 (F := Ideal) (iblk3 V c 0 t) (iblk3 V c 1 t)) (eq_ix2 j)).trans ?_
  refine (pay3_apply (iblk3 V c 0 t) (iblk3 V c 1 t) (j 0) (j 1)).trans ?_
  unfold G3 Cert.Gcn.lin
  have h0 : ((((cfg3.win 2).blk t).view.emb j) 0).val = t.val * 2048 + (j 0).val := by
    show win3_2.index t (0 : Fin 2) * 2048 + 1 * (j 0).val = _
    rw [e0]; omega
  have h1 : ((((cfg3.win 2).blk t).view.emb j) 1).val = (j 1).val := by
    show win3_2.index t (1 : Fin 2) * 40 + 1 * (j 1).val = _
    rw [e1]; omega
  refine Finset.sum_congr rfl fun f _ => ?_
  refine congrArg₂ (· * ·) ?_ ?_
  · exact iblk3_0_apply V c t (ix2 (j 0) f) (ix2 ((((cfg3.win 2).blk t).view.emb j) 0) f) h0 rfl
  · refine (iblk3_1_apply V c t (ix2 f (j 1))).trans ?_
    exact congrArg (V c main_arg4 : S16x40.Idx → EReal) (funext fun a => Fin.ext (by
      match a with
      | ⟨0, _⟩ => rfl
      | ⟨1, _⟩ => exact h1.symm))

theorem cover3 (i : S12288x40.Idx) : ∃ t : Fin cfg3.N, (cfg3.win 2).flush t = true ∧ i ∈ ((cfg3.win 2).blk t).view.set := by
  have hi0 : (i 0).val < 12288 := (i 0).isLt
  have hi1 : (i 1).val < 40 := (i 1).isLt
  have ht : (i 0).val / 2048 < cfg3.N := by rw [show cfg3.N = 6 from N_3]; omega
  refine ⟨⟨_, ht⟩, flush3_2 _, ?_⟩
  show i ∈ ((View.whole main_v4).slice (win3_2.rect ⟨_, ht⟩)).set
  rw [View.set_slice_whole, Rect.mem_set_unit]
  obtain ⟨-, -, -, -, e0, e1⟩ := idx3 ⟨_, ht⟩
  intro a
  match a with
  | ⟨0, _⟩ =>
    show win3_2.index _ (0 : Fin 2) * 2048 ≤ (i 0).val ∧ (i 0).val < win3_2.index _ (0 : Fin 2) * 2048 + 2048
    rw [e0]; show (i 0).val / 2048 * 2048 ≤ (i 0).val ∧ (i 0).val < (i 0).val / 2048 * 2048 + 2048; omega
  | ⟨1, _⟩ =>
    show win3_2.index _ (1 : Fin 2) * 40 ≤ (i 1).val ∧ (i 1).val < win3_2.index _ (1 : Fin 2) * 40 + 40
    rw [e1]; omega

theorem final3 (c : Dev nD) (i : Fin 12288) (k : Fin 40) :
    ((dat3 (F := Ideal) V c).arrAt 2 cfg3.N : S12288x40.Idx → EReal) (ValueIdx.ix2 i k)
      = Cert.Gcn.lin (V c main_v3) (V c main_arg4) i k :=
  congrFun ((dat3 V c).arrAt_eq_of_cover 2 (G3 (V c main_v3) (V c main_arg4)) (fun t _ => flushed3_eq V c t) (cover3)) (ix2 i k)

end Cert.KernelIdeal.Hand

end
-- ==== Proof.KIVal4Pieces.lean ====
import proofs.«103262_j55946243997874_1_alg».proof.Proof.KIReg4RunC
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open scoped BigOperators

variable {F : FTy → Type} [FloatOps F]

theorem hz4 : (![0, 0] : Fin 2 → Nat) = fun _ => 0 := funext fun a => by fin_cases a <;> rfl

variable (c : Dev nD) (i : grid4.Coords) (arg2 : Memref sig .tc .vmem S2048x1024 .f32) (harg2 : arg2.IsWhole) (arg3 : Memref sig .tc .vmem S1024x40 .f32) (harg3 : arg3.IsWhole) (arg4 : Memref sig .tc .vmem S1024x1 .f32) (harg4 : arg4.IsWhole) (arg5 : Memref sig .tc .vmem S2048x40 .f32) (harg5 : arg5.IsWhole) (arg6 : Memref sig .tc .vmem S2048x1 .f32) (harg6 : arg6.IsWhole) (arg7 : Memref sig .tc .vmem S1x40 .f32) (harg7 : arg7.IsWhole) (arg8 : Memref sig .tc .vmem S2048x40 .f32) (harg8 : arg8.IsWhole) (arg9 : Memref sig .tc .vmem S2048x40 .f32) (harg9 : arg9.IsWhole)
    (x0 : Vec F S2048x1024 .f32) (x1 : Vec F S1024x40 .f32) (x2 : Vec F S1024x1 .f32) (x3 : Vec F S2048x40 .f32) (x4 : Vec F S2048x1 .f32) (x5 : Vec F S1x40 .f32) (xs0 : Vec F S2048x40 .f32)

theorem piecesA4 (hc0 : cond4_0 i) (hc1 : ¬cond4_1 i) :
    left4 (kernelRun4_A (F := F) c i arg2 harg2 arg3 harg3 arg4 harg4 arg5 harg5 arg6 harg6 arg7 harg7 arg8 harg8 arg9 harg9 hc0 hc1 x0 x1 x2 x3 x4 x5).1 = k4_pay2 x0 x1 x2 (k4_pay1 (F := F)) := by
  unfold left4
  rw [View.read_writes_junk_eq_canon]
  unfold kernelRun4_A
  dsimp only
  sl_unfold_words
  rw [View.canon_cons_unit_zero (S := S2048x40) hz4, View.readCov_unit_zero (S := S2048x40) _ hz4]
  simp only [View.readAt_eq_ld, harg2.read_unread, harg3.read_unread, harg4.read_unread, View.ld_unit_zero (S := S2048x1024) hz4, View.ld_unit_zero (S := S1024x40) hz4, View.ld_unit_zero (S := S1024x1) hz4]

theorem piecesB4 (hc0 : ¬cond4_0 i) (hc1 : ¬cond4_1 i) :
    left4 (kernelRun4_B (F := F) c i arg2 harg2 arg3 harg3 arg4 harg4 arg5 harg5 arg6 harg6 arg7 harg7 arg8 harg8 arg9 harg9 hc0 hc1 x0 x1 x2 x3 x4 x5 xs0).1 = k4_pay2 x0 x1 x2 xs0 := by
  unfold left4
  rw [View.read_writes_junk_eq_canon]
  unfold kernelRun4_B
  dsimp only
  try sl_unfold_words
  rw [View.canon_unit_zero hz4]
  simp only [View.readAt_eq_ld, harg2.read_unread, harg3.read_unread, harg4.read_unread, harg5.read_unread, harg6.read_unread, harg7.read_unread, harg9.read_unread, View.ld_unit_zero (S := S2048x1024) hz4, View.ld_unit_zero (S := S1024x40) hz4, View.ld_unit_zero (S := S1024x1) hz4, View.ld_unit_zero (S := S2048x40) hz4, View.ld_unit_zero (S := S2048x1) hz4, View.ld_unit_zero (S := S1x40) hz4]

theorem piecesC4s (hc0 : ¬cond4_0 i) (hc1 : cond4_1 i) :
    left4 (kernelRun4_C (F := F) c i arg2 harg2 arg3 harg3 arg4 harg4 arg5 harg5 arg6 harg6 arg7 harg7 arg8 harg8 arg9 harg9 hc0 hc1 x0 x1 x2 x3 x4 x5 xs0).2.1 = k4_pay2 x0 x1 x2 xs0 := by
  unfold left4
  rw [View.read_writes_junk_eq_canon]
  unfold kernelRun4_C
  dsimp only
  try sl_unfold_words
  rw [View.canon_unit_zero hz4]
  simp only [View.readAt_eq_ld, harg2.read_unread, harg3.read_unread, harg4.read_unread, harg5.read_unread, harg6.read_unread, harg7.read_unread, harg9.read_unread, View.ld_unit_zero (S := S2048x1024) hz4, View.ld_unit_zero (S := S1024x40) hz4, View.ld_unit_zero (S := S1024x1) hz4, View.ld_unit_zero (S := S2048x40) hz4, View.ld_unit_zero (S := S2048x1) hz4, View.ld_unit_zero (S := S1x40) hz4]

theorem piecesC4o (hc0 : ¬cond4_0 i) (hc1 : cond4_1 i) :
    left4 (kernelRun4_C (F := F) c i arg2 harg2 arg3 harg3 arg4 harg4 arg5 harg5 arg6 harg6 arg7 harg7 arg8 harg8 arg9 harg9 hc0 hc1 x0 x1 x2 x3 x4 x5 xs0).1 = k4_pay3 x4 x3 (k4_pay2 x0 x1 x2 xs0) x5 := by
  unfold left4
  rw [View.read_writes_junk_eq_canon]
  unfold kernelRun4_C
  dsimp only
  try sl_unfold_words
  rw [View.canon_unit_zero hz4]
  simp only [View.readCov_unit_zero (S := S2048x40) _ hz4, View.readAt_eq_ld, harg2.read_unread, harg3.read_unread, harg4.read_unread, harg5.read_unread, harg6.read_unread, harg7.read_unread, harg9.read_unread, View.ld_unit_zero (S := S2048x1024) hz4, View.ld_unit_zero (S := S1024x40) hz4, View.ld_unit_zero (S := S1024x1) hz4, View.ld_unit_zero (S := S2048x40) hz4, View.ld_unit_zero (S := S2048x1) hz4, View.ld_unit_zero (S := S1x40) hz4]

end Cert.KernelIdeal.Hand

end
-- ==== Proof.KIVal4Pay.lean ====
import proofs.«103262_j55946243997874_1_alg».proof.Proof.Gen.KernelIdeal.Skeleton
import proofs.«103262_j55946243997874_1_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«103262_j55946243997874_1_alg».proof.Proof.DotAt

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open scoped BigOperators

theorem pay1_4_apply (r : Fin 2048) (k : Fin 40) : (k4_pay1 (F := Ideal)) (ix2 r k) = 0 := by
  unfold k4_pay1
  simp only [shapeCast_self]
  exact Ideal.ofBits_zero_f32

theorem pay2_4_apply (a : Vec Ideal S2048x1024 .f32) (M : Vec Ideal S1024x40 .f32) (d : Vec Ideal S1024x1 .f32) (acc : Vec Ideal S2048x40 .f32) (r : Fin 2048) (k : Fin 40) :
    k4_pay2 a M d acc (ix2 r k) = acc (ix2 r k) + ∑ j : Fin 1024, a (ix2 r j) * (M (ix2 j k) * d (ix2 j 0)) := by
  unfold k4_pay2
  simp only [shapeCast_self]
  show acc (ix2 r k) + _ = _
  congr 1
  refine (matmul_zero_at rfl none _ _ r k).trans ?_
  refine Finset.sum_congr rfl fun j _ => ?_
  show a (ix2 r j) * (M (ix2 j k) * broadcastTo S1024x40 d broadcasts_S1024x1_S1024x40 (ix2 j k)) = _
  rw [broadcastTo_apply d broadcasts_S1024x1_S1024x40 (ix2 j k) (ix2 j 0) (fun a => by
    match a with
    | ⟨0, _⟩ => rfl
    | ⟨1, _⟩ => rfl)]

theorem bcastCol4_apply (x : FVec Ideal S2048x1 .f32) (r : Fin 2048) (k : Fin 40) :
    broadcastTo S2048x40 x broadcasts_S2048x1_S2048x40 (ix2 r k) = x (ix2 r 0) :=
  broadcastTo_apply x broadcasts_S2048x1_S2048x40 (ix2 r k) (ix2 r 0) (fun a => by
    match a with
    | ⟨0, _⟩ => rfl
    | ⟨1, _⟩ => rfl)

theorem castCol4_apply (x : FVec Ideal S2048 .f32) (r : Fin 2048) :
    shapeCast S2048x1 x shapeCasts_S2048_S2048x1 (ix2 r 0) = x (ix1 r) :=
  shapeCast_apply x shapeCasts_S2048_S2048x1 (ix2 r 0) (ix1 r) (by
    rw [Shape.rowMajor_val_one, Shape.rowMajor_val_two]; simp)

def preAct4 (v21 : FVec Ideal S2048x1 .f32) (v24 : FVec Ideal S2048x40 .f32) (v28 : FVec Ideal S2048x40 .f32) (v32 : FVec Ideal S1x40 .f32) : FVec Ideal S2048x40 .f32 :=
  addf (addf (mulf (broadcastTo S2048x40 (shapeCast S2048x1 v21 shapeCasts_S2048x1_S2048x1) broadcasts_S2048x1_S2048x40) v28)
      (mulf (broadcastTo S2048x40 (mulf (shapeCast S2048x1 v21 shapeCasts_S2048x1_S2048x1) (shapeCast S2048x1 v21 shapeCasts_S2048x1_S2048x1)) broadcasts_S2048x1_S2048x40)
        (shapeCast S2048x40 v24 shapeCasts_S2048x40_S2048x40)))
    (broadcastTo S2048x40 (shapeCast S1x40 v32 shapeCasts_S1x40_S1x40) broadcasts_S1x40_S2048x40)

def lsm4 (v : FVec Ideal S2048x40 .f32) : FVec Ideal S2048x40 .f32 :=
  subf (subf v (broadcastTo S2048x40 (shapeCast S2048x1 (multiReduction .maximumf [1] S2048 v 0xFF800000#32 reduces_S2048x40_S2048 (.inl rfl) rfl) shapeCasts_S2048_S2048x1) broadcasts_S2048x1_S2048x40))
    (broadcastTo S2048x40 (log (shapeCast S2048x1 (multiReduction .add [1] S2048 (exp (subf v (broadcastTo S2048x40 (shapeCast S2048x1 (multiReduction .maximumf [1] S2048 v 0xFF800000#32 reduces_S2048x40_S2048 (.inl rfl) rfl) shapeCasts_S2048_S2048x1) broadcasts_S2048x1_S2048x40))) 0x00000000#32 reduces_S2048x40_S2048 (.inl rfl) rfl) shapeCasts_S2048_S2048x1)) broadcasts_S2048x1_S2048x40)

theorem pay3_4_split (v21 : Vec Ideal S2048x1 .f32) (v24 : Vec Ideal S2048x40 .f32) (v28 : Vec Ideal S2048x40 .f32) (v32 : Vec Ideal S1x40 .f32) :
    k4_pay3 v21 v24 v28 v32 = lsm4 (preAct4 v21 v24 v28 v32) := rfl

theorem preAct4_apply (d : FVec Ideal S2048x1 .f32) (M : FVec Ideal S2048x40 .f32) (acc : FVec Ideal S2048x40 .f32) (b : FVec Ideal S1x40 .f32) (r : Fin 2048) (k : Fin 40) :
    preAct4 d M acc b (ix2 r k) = d (ix2 r 0) * acc (ix2 r k) + (d (ix2 r 0) * d (ix2 r 0)) * M (ix2 r k) + b (ix2 0 k) := by
  unfold preAct4
  simp only [shapeCast_self]
  show broadcastTo S2048x40 d broadcasts_S2048x1_S2048x40 (ix2 r k) * acc (ix2 r k)
      + broadcastTo S2048x40 (mulf d d) broadcasts_S2048x1_S2048x40 (ix2 r k) * M (ix2 r k)
      + broadcastTo S2048x40 b broadcasts_S1x40_S2048x40 (ix2 r k) = _
  rw [bcastCol4_apply, bcastCol4_apply, broadcastTo_apply b broadcasts_S1x40_S2048x40 (ix2 r k) (ix2 0 k) (fun a => by
    match a with
    | ⟨0, _⟩ => rfl
    | ⟨1, _⟩ => rfl)]
  rfl

theorem lift4 (r : Fin 2048) (k' : Fin 40) : reduces_S2048x40_S2048.lift (ix1 r) k' = ix2 r k' :=
  funext fun a => by
    match a with
    | ⟨0, _⟩ => rfl
    | ⟨1, _⟩ => rfl

theorem rowMax4_apply (v : FVec Ideal S2048x40 .f32) (r : Fin 2048) (k : Fin 40) :
    (broadcastTo S2048x40 (shapeCast S2048x1 (multiReduction .maximumf [1] S2048 v 0xFF800000#32 reduces_S2048x40_S2048 (.inl rfl) rfl) shapeCasts_S2048_S2048x1) broadcasts_S2048x1_S2048x40) (ix2 r k) = Cert.Gcn.rowMax (fun k' : Fin 40 => v (ix2 r k')) := by
  rw [bcastCol4_apply, castCol4_apply]
  refine (Ideal.multiReduction_maximumf_single v _ reduces_S2048x40_S2048 _ _ (ix1 r)).trans ?_
  unfold Cert.Gcn.rowMax
  have hb : (FloatOps.ofBits (F := Ideal) .f32 0xFF800000#32 : EReal) = ⊥ := by
    show Ideal.ofBits .f32 0xFF800000#32 = ⊥
    simp [Ideal.ofBits, Ideal.ieee]
  rw [hb]
  exact congrArg (fun f => Finset.fold max ⊥ f Finset.univ) (funext fun k' => congrArg v (lift4 r k'))

theorem lsm4_apply (v : FVec Ideal S2048x40 .f32) (r : Fin 2048) (k : Fin 40) :
    lsm4 v (ix2 r k) = Cert.Gcn.logSoftmax (fun k' : Fin 40 => v (ix2 r k')) k := by
  unfold lsm4 Cert.Gcn.logSoftmax
  show (v (ix2 r k) - (broadcastTo S2048x40 (shapeCast S2048x1 (multiReduction .maximumf [1] S2048 v 0xFF800000#32 reduces_S2048x40_S2048 (.inl rfl) rfl) shapeCasts_S2048_S2048x1) broadcasts_S2048x1_S2048x40) (ix2 r k)) - broadcastTo S2048x40 (log (shapeCast S2048x1 (multiReduction .add [1] S2048 (exp (subf v (broadcastTo S2048x40 (shapeCast S2048x1 (multiReduction .maximumf [1] S2048 v 0xFF800000#32 reduces_S2048x40_S2048 (.inl rfl) rfl) shapeCasts_S2048_S2048x1) broadcasts_S2048x1_S2048x40))) 0x00000000#32 reduces_S2048x40_S2048 (.inl rfl) rfl) shapeCasts_S2048_S2048x1)) broadcasts_S2048x1_S2048x40 (ix2 r k) = _
  rw [rowMax4_apply, bcastCol4_apply]
  congr 1
  show Ideal.log (shapeCast S2048x1 (multiReduction .add [1] S2048 (exp (subf v (broadcastTo S2048x40 (shapeCast S2048x1 (multiReduction .maximumf [1] S2048 v 0xFF800000#32 reduces_S2048x40_S2048 (.inl rfl) rfl) shapeCasts_S2048_S2048x1) broadcasts_S2048x1_S2048x40))) 0x00000000#32 reduces_S2048x40_S2048 (.inl rfl) rfl) shapeCasts_S2048_S2048x1 (ix2 r 0)) = _
  rw [castCol4_apply]
  congr 1
  refine (Ideal.multiReduction_add_single _ _ reduces_S2048x40_S2048 _ _ (ix1 r)).trans ?_
  refine Finset.sum_congr rfl fun k' _ => ?_
  refine (congrArg (exp (subf v (broadcastTo S2048x40 (shapeCast S2048x1 (multiReduction .maximumf [1] S2048 v 0xFF800000#32 reduces_S2048x40_S2048 (.inl rfl) rfl) shapeCasts_S2048_S2048x1) broadcasts_S2048x1_S2048x40))) (lift4 r k')).trans ?_
  exact congrArg (fun z => Ideal.exp (v (ix2 r k') - z)) (rowMax4_apply v r k')

theorem pay3_4_apply (d : Vec Ideal S2048x1 .f32) (M : Vec Ideal S2048x40 .f32) (acc : Vec Ideal S2048x40 .f32) (b : Vec Ideal S1x40 .f32) (r : Fin 2048) (k : Fin 40) :
    k4_pay3 d M acc b (ix2 r k) = Cert.Gcn.logSoftmax (fun k' : Fin 40 => d (ix2 r 0) * acc (ix2 r k') + (d (ix2 r 0) * d (ix2 r 0)) * M (ix2 r k') + b (ix2 0 k')) k := by
  rw [pay3_4_split, lsm4_apply]
  congr 1
  funext k'
  exact preAct4_apply d M acc b r k'

end Cert.KernelIdeal.Hand

end
-- ==== Proof.KIVal4.lean ====
import proofs.«103262_j55946243997874_1_alg».proof.Proof.KIReg4
import proofs.«103262_j55946243997874_1_alg».proof.Proof.KIVal4Pieces
import proofs.«103262_j55946243997874_1_alg».proof.Proof.KIVal4Pay
import proofs.«103262_j55946243997874_1_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open scoped BigOperators

open Idealize.ShloMosaic.Pipeline (Dat)

variable (V : (c : Dev nD) → (b : Ref sig .tc) → Buf (Elt Ideal) ((c : Thread nD τ).loc b))

abbrev ablk4 (c : Dev nD) (t : Fin cfg4.N) : FVec Ideal S2048x1024 .f32 := iblk4 V c 0 t
abbrev Mblk4 (c : Dev nD) (t : Fin cfg4.N) : FVec Ideal S1024x40 .f32 := iblk4 V c 1 t
abbrev dblk4 (c : Dev nD) (t : Fin cfg4.N) : FVec Ideal S1024x1 .f32 := iblk4 V c 2 t
abbrev Mrow4 (c : Dev nD) (t : Fin cfg4.N) : FVec Ideal S2048x40 .f32 := iblk4 V c 3 t
abbrev drow4 (c : Dev nD) (t : Fin cfg4.N) : FVec Ideal S2048x1 .f32 := iblk4 V c 4 t
abbrev bias4 (c : Dev nD) (t : Fin cfg4.N) : FVec Ideal S1x40 .f32 := iblk4 V c 5 t
abbrev arrA4 (c : Dev nD) : FVec Ideal S12288x12288 .f32 := V c main_arg1
abbrev arrM4 (c : Dev nD) : FVec Ideal S12288x40 .f32 := V c main_v4
abbrev arrD4 (c : Dev nD) : FVec Ideal S12288x1 .f32 := V c main_v0
abbrev arrB4 (c : Dev nD) : FVec Ideal S1x40 .f32 := V c main_v5

theorem sout4_A_eq (c : Dev nD) (t : Fin cfg4.N) (h0 : t.val % 12 = 0) :
    left4 (runA4 V c t h0).1 = k4_pay2 (F := Ideal) (ablk4 V c t) (Mblk4 V c t) (dblk4 V c t) (k4_pay1 (F := Ideal)) :=
  piecesA4 ..

theorem sout4_B_eq (c : Dev nD) (t : Fin cfg4.N) (h0 : ¬t.val % 12 = 0) (h1 : ¬t.val % 12 = 11) (xs : Vec Ideal S2048x40 .f32) :
    left4 (runB4 V c t h0 h1 xs).1 = k4_pay2 (F := Ideal) (ablk4 V c t) (Mblk4 V c t) (dblk4 V c t) xs :=
  piecesB4 ..

theorem sout4_C_eq (c : Dev nD) (t : Fin cfg4.N) (h1 : t.val % 12 = 11) (xs : Vec Ideal S2048x40 .f32) :
    left4 (runC4 V c t h1 xs).2.1 = k4_pay2 (F := Ideal) (ablk4 V c t) (Mblk4 V c t) (dblk4 V c t) xs :=
  piecesC4s ..

theorem out4_C_eq (c : Dev nD) (t : Fin cfg4.N) (h1 : t.val % 12 = 11) (xs : Vec Ideal S2048x40 .f32) :
    left4 (runC4 V c t h1 xs).1 = k4_pay3 (F := Ideal) (drow4 V c t) (Mrow4 V c t) (k4_pay2 (F := Ideal) (ablk4 V c t) (Mblk4 V c t) (dblk4 V c t) xs) (bias4 V c t) :=
  piecesC4o ..

theorem idx4_facts : ∀ t : Fin cfg4.N,
    win4_0.index t (0 : Fin 2) = t.val / 12 ∧ win4_0.index t (1 : Fin 2) = t.val % 12
    ∧ win4_1.index t (0 : Fin 2) = t.val % 12 ∧ win4_1.index t (1 : Fin 2) = 0
    ∧ win4_2.index t (0 : Fin 2) = t.val % 12 ∧ win4_2.index t (1 : Fin 2) = 0
    ∧ win4_3.index t (0 : Fin 2) = t.val / 12 ∧ win4_3.index t (1 : Fin 2) = 0
    ∧ win4_4.index t (0 : Fin 2) = t.val / 12 ∧ win4_4.index t (1 : Fin 2) = 0
    ∧ win4_5.index t (0 : Fin 2) = 0 ∧ win4_5.index t (1 : Fin 2) = 0
    ∧ win4_6.index t (0 : Fin 2) = t.val / 12 ∧ win4_6.index t (1 : Fin 2) = 0 :=
  (by decide +kernel : ∀ t : Fin grid4.N, _)

-- A block's entry is the array's entry at the block's position of the index.
theorem iblk4_entry (c : Dev nD) (w : Fin cfg4.W) (t : Fin cfg4.N) (y : ((cfg4.win w).xblock (cfg4.grid.coords t)).Idx) (k)
    (hk : ((cfg4.win w).blk t).view.emb y = k) :
    iblk4 V c w t y = _root_.cast (congrArg (Elt Ideal) ((cfg4.win w).blk t).view.elt_eq) (V c (Pipeline.arrRef spec4 w) k) := hk ▸ rfl

theorem ablk4_apply (c : Dev nD) (t : Fin cfg4.N) (r : Fin 2048) (j : Fin 1024) (R C : Fin 12288)
    (hR : R.val = 2048 * (t.val / 12) + r.val) (hC : C.val = 1024 * (t.val % 12) + j.val) :
    ablk4 V c t (ix2 r j) = arrA4 V c (ix2 R C) := by
  obtain ⟨e0, e1, -⟩ := idx4_facts t
  refine iblk4_entry V c 0 t _ _ (Shape.idx_ext₂ ?_ ?_)
  · show win4_0.index t (0 : Fin 2) * 2048 + 1 * r.val = R.val; rw [e0, hR]; omega
  · show win4_0.index t (1 : Fin 2) * 1024 + 1 * j.val = C.val; rw [e1, hC]; omega

theorem Mblk4_apply (c : Dev nD) (t : Fin cfg4.N) (j : Fin 1024) (col : Fin 40) (J : Fin 12288)
    (hJ : J.val = 1024 * (t.val % 12) + j.val) :
    Mblk4 V c t (ix2 j col) = arrM4 V c (ix2 J col) := by
  obtain ⟨-, -, e0, e1, -⟩ := idx4_facts t
  refine iblk4_entry V c 1 t _ _ (Shape.idx_ext₂ ?_ ?_)
  · show win4_1.index t (0 : Fin 2) * 1024 + 1 * j.val = J.val; rw [e0, hJ]; omega
  · show win4_1.index t (1 : Fin 2) * 40 + 1 * col.val = col.val; rw [e1]; omega

theorem dblk4_apply (c : Dev nD) (t : Fin cfg4.N) (j : Fin 1024) (J : Fin 12288)
    (hJ : J.val = 1024 * (t.val % 12) + j.val) :
    dblk4 V c t (ix2 j 0) = arrD4 V c (ix2 J 0) := by
  obtain ⟨-, -, -, -, e0, e1, -⟩ := idx4_facts t
  refine iblk4_entry V c 2 t _ _ (Shape.idx_ext₂ ?_ ?_)
  · show win4_2.index t (0 : Fin 2) * 1024 + 1 * j.val = J.val; rw [e0, hJ]; omega
  · show win4_2.index t (1 : Fin 2) * 1 + 1 * 0 = 0; rw [e1]

theorem Mrow4_apply (c : Dev nD) (t : Fin cfg4.N) (r : Fin 2048) (col : Fin 40) (R : Fin 12288)
    (hR : R.val = 2048 * (t.val / 12) + r.val) :
    Mrow4 V c t (ix2 r col) = arrM4 V c (ix2 R col) := by
  obtain ⟨-, -, -, -, -, -, e0, e1, -⟩ := idx4_facts t
  refine iblk4_entry V c 3 t _ _ (Shape.idx_ext₂ ?_ ?_)
  · show win4_3.index t (0 : Fin 2) * 2048 + 1 * r.val = R.val; rw [e0, hR]; omega
  · show win4_3.index t (1 : Fin 2) * 40 + 1 * col.val = col.val; rw [e1]; omega

theorem drow4_apply (c : Dev nD) (t : Fin cfg4.N) (r : Fin 2048) (R : Fin 12288)
    (hR : R.val = 2048 * (t.val / 12) + r.val) :
    drow4 V c t (ix2 r 0) = arrD4 V c (ix2 R 0) := by
  obtain ⟨-, -, -, -, -, -, -, -, e0, e1, -⟩ := idx4_facts t
  refine iblk4_entry V c 4 t _ _ (Shape.idx_ext₂ ?_ ?_)
  · show win4_4.index t (0 : Fin 2) * 2048 + 1 * r.val = R.val; rw [e0, hR]; omega
  · show win4_4.index t (1 : Fin 2) * 1 + 1 * 0 = 0; rw [e1]

theorem bias4_apply (c : Dev nD) (t : Fin cfg4.N) (col : Fin 40) :
    bias4 V c t (ix2 0 col) = arrB4 V c (ix2 0 col) := by
  obtain ⟨-, -, -, -, -, -, -, -, -, -, e0, e1, -⟩ := idx4_facts t
  refine iblk4_entry V c 5 t _ _ (Shape.idx_ext₂ ?_ ?_)
  · show win4_5.index t (0 : Fin 2) * 1 + 1 * 0 = 0; rw [e0]
  · show win4_5.index t (1 : Fin 2) * 40 + 1 * col.val = col.val; rw [e1]; omega

def rowIx4 (i : ℕ) (r : Fin 2048) : Fin 12288 := ⟨(2048 * i + r.val) % 12288, Nat.mod_lt _ (by norm_num)⟩
def colIx4 (b : ℕ) (j : Fin 1024) : Fin 12288 := ⟨(1024 * b + j.val) % 12288, Nat.mod_lt _ (by norm_num)⟩

def blockSum4 (c : Dev nD) (R : Fin 12288) (col : Fin 40) (b : ℕ) : EReal :=
  ∑ j : Fin 1024, arrA4 V c (ix2 R (colIx4 b j)) * (arrM4 V c (ix2 (colIx4 b j) col) * arrD4 V c (ix2 (colIx4 b j) 0))

theorem step4_eq (c : Dev nD) (t : Fin cfg4.N) (r : Fin 2048) (col : Fin 40) :
    ∑ j : Fin 1024, ablk4 V c t (ix2 r j) * (Mblk4 V c t (ix2 j col) * dblk4 V c t (ix2 j 0))
      = blockSum4 V c (rowIx4 (t.val / 12) r) col (t.val % 12) := by
  have hN : t.val < 72 := lt_of_lt_of_eq t.isLt (show cfg4.N = 72 from N_4)
  unfold blockSum4
  refine Finset.sum_congr rfl fun j _ => ?_
  have hR : (rowIx4 (t.val / 12) r).val = 2048 * (t.val / 12) + r.val := by
    have := r.isLt; show (2048 * (t.val / 12) + r.val) % 12288 = _; omega
  have hC : (colIx4 (t.val % 12) j).val = 1024 * (t.val % 12) + j.val := by
    have := j.isLt; show (1024 * (t.val % 12) + j.val) % 12288 = _; omega
  rw [ablk4_apply V c t r j _ _ hR hC, Mblk4_apply V c t j col _ hC, dblk4_apply V c t j _ hC]

theorem acc4_apply (c : Dev nD) (t : Fin cfg4.N) (xs : FVec Ideal S2048x40 .f32) (r : Fin 2048) (col : Fin 40) :
    k4_pay2 (ablk4 V c t) (Mblk4 V c t) (dblk4 V c t) xs (ix2 r col)
      = xs (ix2 r col) + blockSum4 V c (rowIx4 (t.val / 12) r) col (t.val % 12) := by
  rw [pay2_4_apply, step4_eq]

theorem scratch4_eq (c : Dev nD) (n : ℕ) : ∀ (hn : n < cfg4.N) (r : Fin 2048) (col : Fin 40),
    accAt4 V c n hn (ix2 r col) = ∑ b ∈ Finset.range (n % 12 + 1), blockSum4 V c (rowIx4 (n / 12) r) col b := by
  induction n with
  | zero =>
    intro hn r col
    rw [accAt4_A V c ⟨0, hn⟩ (Nat.zero_mod _), sout4_A_eq, acc4_apply, pay1_4_apply, zero_add]
    show blockSum4 V c (rowIx4 (0 / 12) r) col (0 % 12) = ∑ b ∈ Finset.range (0 % 12 + 1), blockSum4 V c (rowIx4 (0 / 12) r) col b
    simp only [Nat.zero_mod, Nat.zero_div, zero_add, Finset.sum_range_one]
  | succ n ih =>
    intro hn r col
    have hN : n + 1 < 72 := lt_of_lt_of_eq hn (show cfg4.N = 72 from N_4)
    by_cases h0 : (n + 1) % 12 = 0
    · rw [accAt4_A V c ⟨n + 1, hn⟩ h0, sout4_A_eq, acc4_apply, pay1_4_apply, zero_add]
      show blockSum4 V c (rowIx4 ((n + 1) / 12) r) col ((n + 1) % 12) = _
      rw [h0, zero_add, Finset.sum_range_one]
    · have e1 : (n + 1) / 12 = n / 12 := by omega
      have e2 : (n + 1) % 12 = n % 12 + 1 := by omega
      by_cases h1 : (n + 1) % 12 = 11
      · rw [accAt4_C V c ⟨n + 1, hn⟩ h1, sout4_C_eq, acc4_apply]
        show accAt4 V c n _ (ix2 r col) + blockSum4 V c (rowIx4 ((n + 1) / 12) r) col ((n + 1) % 12) = _
        rw [ih (Nat.lt_of_succ_lt hn) r col, e1, e2]
        exact (Finset.sum_range_succ _ _).symm
      · rw [accAt4_B V c ⟨n + 1, hn⟩ h0 h1, sout4_B_eq, acc4_apply]
        show accAt4 V c n _ (ix2 r col) + blockSum4 V c (rowIx4 ((n + 1) / 12) r) col ((n + 1) % 12) = _
        rw [ih (Nat.lt_of_succ_lt hn) r col, e1, e2]
        exact (Finset.sum_range_succ _ _).symm

theorem fullSum4 (c : Dev nD) (R : Fin 12288) (col : Fin 40) :
    ∑ b ∈ Finset.range 12, blockSum4 V c R col b
      = ∑ j : Fin 12288, arrA4 V c (ix2 R j) * (arrM4 V c (ix2 j col) * arrD4 V c (ix2 j 0)) := by
  have e : (∑ j : Fin 12288, arrA4 V c (ix2 R j) * (arrM4 V c (ix2 j col) * arrD4 V c (ix2 j 0)))
      = ∑ p : Fin 12 × Fin 1024, (fun j : Fin 12288 => arrA4 V c (ix2 R j) * (arrM4 V c (ix2 j col) * arrD4 V c (ix2 j 0))) (finProdFinEquiv p) :=
    (Equiv.sum_comp (finProdFinEquiv : Fin 12 × Fin 1024 ≃ Fin (12 * 1024)) (fun j : Fin 12288 => arrA4 V c (ix2 R j) * (arrM4 V c (ix2 j col) * arrD4 V c (ix2 j 0)))).symm
  rw [e, Fintype.sum_prod_type, ← Fin.sum_univ_eq_sum_range (fun b => blockSum4 V c R col b) 12]
  refine Finset.sum_congr rfl fun b _ => ?_
  unfold blockSum4
  refine Finset.sum_congr rfl fun j _ => ?_
  have hj : colIx4 b.val j = (finProdFinEquiv (b, j) : Fin (12 * 1024)) := Fin.ext (by
    have := b.isLt; have := j.isLt
    show (1024 * b.val + j.val) % 12288 = j.val + 1024 * b.val
    omega)
  rw [hj]

def G4 (c : Dev nD) : S12288x40.Idx → EReal := fun idx =>
  Cert.Gcn.logSoftmax (fun k' => Cert.Gcn.aggK (V c main_arg1) (fun j => V c main_v0 (ix2 j 0)) (fun j k'' => V c main_v4 (ix2 j k'')) (fun k'' => V c main_v5 (ix2 0 k'')) (idx 0) k') (idx 1)

theorem out4_final (c : Dev nD) (t : Fin cfg4.N) (h1 : t.val % 12 = 11) (r : Fin 2048) (col : Fin 40) (R : Fin 12288)
    (hR : R.val = 2048 * (t.val / 12) + r.val) :
    left4 (runC4 V c t h1 (prev4 V c t)).1 (ix2 r col) = G4 V c (ix2 R col) := by
  have hN : t.val < 72 := lt_of_lt_of_eq t.isLt (show cfg4.N = 72 from N_4)
  have hRR : rowIx4 (t.val / 12) r = R := Fin.ext (by
    have := r.isLt; rw [hR]; show (2048 * (t.val / 12) + r.val) % 12288 = _; omega)
  rw [out4_C_eq, pay3_4_apply]
  show Cert.Gcn.logSoftmax _ col = Cert.Gcn.logSoftmax (fun k' => Cert.Gcn.aggK (V c main_arg1) (fun j => V c main_v0 (ix2 j 0)) (fun j k'' => V c main_v4 (ix2 j k'')) (fun k'' => V c main_v5 (ix2 0 k'')) R k') col
  congr 1
  funext k'
  have hp : prev4 V c t (ix2 r k') + blockSum4 V c (rowIx4 (t.val / 12) r) k' (t.val % 12)
      = ∑ j : Fin 12288, arrA4 V c (ix2 R j) * (arrM4 V c (ix2 j k') * arrD4 V c (ix2 j 0)) := by
    show accAt4 V c (t.val - 1) _ (ix2 r k') + _ = _
    rw [scratch4_eq V c (t.val - 1) _ r k', ← fullSum4 V c R k']
    have e1 : (t.val - 1) / 12 = t.val / 12 := by omega
    have e2 : (t.val - 1) % 12 + 1 = 11 := by omega
    rw [e1, e2, hRR, h1]
    exact (Finset.sum_range_succ _ 11).symm
  rw [acc4_apply, drow4_apply V c t r R hR, Mrow4_apply V c t r k' R hR, bias4_apply, hp]
  rfl

theorem out4_final' (c : Dev nD) (t : Fin cfg4.N) (h1 : t.val % 12 = 11) (y : S2048x40.Idx) (idx : S12288x40.Idx)
    (hi0 : (idx 0).val = 2048 * (t.val / 12) + (y 0).val) (hi1 : (idx 1).val = (y 1).val) :
    left4 (runC4 V c t h1 (prev4 V c t)).1 y = G4 V c idx := by
  obtain ⟨r, col, rfl⟩ : ∃ (r : Fin 2048) (col : Fin 40), y = ix2 r col := ⟨y 0, y 1, eq_ix2 y⟩
  obtain ⟨R, C, rfl⟩ : ∃ (R : Fin 12288) (C : Fin 40), idx = ix2 R C := ⟨idx 0, idx 1, eq_ix2 idx⟩
  obtain rfl : C = col := Fin.ext hi1
  exact out4_final V c t h1 r C R hi0

theorem flushed4_eq (c : Dev nD) (t : Fin cfg4.N) (hf : (cfg4.win 6).flush t = true) :
    (dat4 V c).flushed 6 t = ((cfg4.win 6).blk t).view.read (Elt Ideal) (G4 V c) := by
  have h1 : t.val % 12 = 11 := (flush4_6 t).mp hf
  obtain ⟨-, -, -, -, -, -, -, -, -, -, -, -, e0, e1⟩ := idx4_facts t
  show (cfg4.win 6).cut (grid4.coords t) ((dat4 V c).after 6 t) = _
  rw [show (dat4 V c).after 6 t = left4 (runC4 V c t h1 (prev4 V c t)).1 from dif_pos h1]
  funext y
  rw [View.read_apply]
  exact out4_final' V c t h1 y _
    (by show win4_6.index t (0 : Fin 2) * 2048 + 1 * (y 0).val = 2048 * (t.val / 12) + (y 0).val; rw [e0]; omega)
    (by show win4_6.index t (1 : Fin 2) * 40 + 1 * (y 1).val = (y 1).val; rw [e1]; omega)

theorem mem_blk4 (t : Fin cfg4.N) (i : S12288x40.Idx) :
    i ∈ ((cfg4.win 6).blk t).view.set ↔ ∀ a : Fin 2, win4_6.index t a * S2048x40.size a ≤ (i a).val ∧ (i a).val < win4_6.index t a * S2048x40.size a + S2048x40.size a := by
  show i ∈ ((View.whole main_v6).slice (win4_6.rect t)).set ↔ _
  rw [View.set_slice_whole, Rect.mem_set_unit]
  exact Iff.rfl

theorem arr4_final (c : Dev nD) : (dat4 V c).arrAt 6 cfg4.N = G4 V c :=
  (dat4 V c).arrAt_eq_of_cover 6 (G4 V c) (flushed4_eq V c) fun i => by
    have hi0 : (i 0 : Nat) < 12288 := (i 0).isLt
    have hi1 : (i 1 : Nat) < 40 := (i 1).isLt
    have hN : cfg4.N = 72 := N_4
    have ht : 12 * ((i 0 : Nat) / 2048) + 11 < cfg4.N := by rw [hN]; omega
    obtain ⟨-, -, -, -, -, -, -, -, -, -, -, -, e0, e1⟩ := idx4_facts ⟨12 * ((i 0 : Nat) / 2048) + 11, ht⟩
    refine ⟨⟨12 * ((i 0 : Nat) / 2048) + 11, ht⟩, (flush4_6 _).mpr (by show (12 * ((i 0 : Nat) / 2048) + 11) % 12 = 11; omega), ?_⟩
    rw [mem_blk4]
    intro a
    match a with
    | ⟨0, _⟩ =>
      show win4_6.index ⟨12 * ((i 0 : Nat) / 2048) + 11, ht⟩ (0 : Fin 2) * 2048 ≤ (i 0 : Nat) ∧ (i 0 : Nat) < win4_6.index ⟨12 * ((i 0 : Nat) / 2048) + 11, ht⟩ (0 : Fin 2) * 2048 + 2048
      rw [e0]; show (12 * ((i 0 : Nat) / 2048) + 11) / 12 * 2048 ≤ (i 0 : Nat) ∧ (i 0 : Nat) < (12 * ((i 0 : Nat) / 2048) + 11) / 12 * 2048 + 2048; omega
    | ⟨1, _⟩ =>
      show win4_6.index ⟨12 * ((i 0 : Nat) / 2048) + 11, ht⟩ (1 : Fin 2) * 40 ≤ (i 1 : Nat) ∧ (i 1 : Nat) < win4_6.index ⟨12 * ((i 0 : Nat) / 2048) + 11, ht⟩ (1 : Fin 2) * 40 + 40
      rw [e1]; omega

theorem final4 (c : Dev nD) (i : Fin 12288) (k : Fin 40) :
    ((dat4 (F := Ideal) V c).arrAt 6 cfg4.N : S12288x40.Idx → EReal) (ValueIdx.ix2 i k)
      = Cert.Gcn.logSoftmax (fun k' => Cert.Gcn.aggK (V c main_arg1) (fun j => V c main_v0 (ValueIdx.ix2 j 0)) (fun j k'' => V c main_v4 (ValueIdx.ix2 j k'')) (fun k'' => V c main_v5 (ValueIdx.ix2 0 k'')) i k') k := by
  rw [arr4_final V c]
  rfl

end Cert.KernelIdeal.Hand

end
-- ==== Proof.KIOut.lean ====
import proofs.«103262_j55946243997874_1_alg».proof.Proof.KIFold
import proofs.«103262_j55946243997874_1_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe
open Idealize.ShloMosaic.ValueIdx
open scoped BigOperators

theorem lin_congr {n k p : Nat} {x x' : Cert.Gcn.Mat n k} {w w' : Cert.Gcn.Mat k p} (hx : x = x') (hw : w = w')
    (i : Fin n) (q : Fin p) : Cert.Gcn.lin x w i q = Cert.Gcn.lin x' w' i q := by
  rw [hx, hw]

theorem aggK_congr {n : Nat} {a a' : Cert.Gcn.Mat 12288 12288} {d d' : Fin 12288 → EReal}
    {M M' : Fin 12288 → Fin n → EReal} {b b' : Fin n → EReal}
    (ha : a = a') (hd : ∀ j, d j = d' j) (hM : ∀ j k, M j k = M' j k) (hb : ∀ k, b k = b' k)
    (i : Fin 12288) (k : Fin n) : Cert.Gcn.aggK a d M b i k = Cert.Gcn.aggK a' d' M' b' i k := by
  have e1 : d = d' := funext hd
  have e2 : M = M' := funext fun j => funext (hM j)
  have e3 : b = b' := funext hb
  rw [ha, e1, e2, e3]

abbrev Vals : Type := (c : Dev nD) → (b : Ref sig .tc) → Buf (Elt Ideal) ((c : Thread nD τ).loc b)

abbrev Final0 : Prop := ∀ (V : Vals) (c : Dev nD) (i : Fin 12288),
  ((dat0 (F := Ideal) V c).arrAt 1 cfg0.N : S12288x1.Idx → EReal) (ix2 i 0) = Cert.Gcn.dinv (V c main_arg1) i
abbrev Final1 : Prop := ∀ (V : Vals) (c : Dev nD) (i : Fin 12288) (k : Fin 16),
  ((dat1 (F := Ideal) V c).arrAt 2 cfg1.N : S12288x16.Idx → EReal) (ix2 i k) = Cert.Gcn.lin (V c main_arg0) (V c main_arg2) i k
abbrev Final2 : Prop := ∀ (V : Vals) (c : Dev nD) (i : Fin 12288) (k : Fin 16),
  ((dat2 (F := Ideal) V c).arrAt 6 cfg2.N : S12288x16.Idx → EReal) (ix2 i k)
    = max (Cert.Gcn.aggK (V c main_arg1) (fun j => V c main_v0 (ix2 j 0)) (fun j k' => V c main_v1 (ix2 j k'))
        (fun k' => V c main_v2 (ix2 0 k')) i k) 0
abbrev Final3 : Prop := ∀ (V : Vals) (c : Dev nD) (i : Fin 12288) (k : Fin 40),
  ((dat3 (F := Ideal) V c).arrAt 2 cfg3.N : S12288x40.Idx → EReal) (ix2 i k) = Cert.Gcn.lin (V c main_v3) (V c main_arg4) i k
abbrev Final4 : Prop := ∀ (V : Vals) (c : Dev nD) (i : Fin 12288) (k : Fin 40),
  ((dat4 (F := Ideal) V c).arrAt 6 cfg4.N : S12288x40.Idx → EReal) (ix2 i k)
    = Cert.Gcn.logSoftmax (fun k' => Cert.Gcn.aggK (V c main_arg1) (fun j => V c main_v0 (ix2 j 0))
        (fun j k'' => V c main_v4 (ix2 j k'')) (fun k'' => V c main_v5 (ix2 0 k'')) i k') k

variable (m : (ℓ : Loc nD τ sig) → Buf (Elt Ideal) ℓ) (c : Dev nD)

section Unchanged

variable (r : Ref sig .tc)

theorem W1_of (h : r ≠ main_v0) : W1 m c r = W0 m c r :=
  Function.update_of_ne (StableHlo.devRef_ne_of_ne h) _ _
theorem W2_of (h : r ≠ main_v1) : W2 m c r = W1 m c r :=
  Function.update_of_ne (StableHlo.devRef_ne_of_ne h) _ _
theorem W3_of (h : r ∉ hostOps2_W) : W3 m c r = W2 m c r :=
  StableHlo.after_of_writes_sub hostOps2 _ hostOps2_writes h
theorem W4_of (h : r ≠ main_v3) : W4 m c r = W3 m c r :=
  Function.update_of_ne (StableHlo.devRef_ne_of_ne h) _ _
theorem W5_of (h : r ≠ main_v4) : W5 m c r = W4 m c r :=
  Function.update_of_ne (StableHlo.devRef_ne_of_ne h) _ _
theorem W6_of (h : r ∉ hostOps4_W) : W6 m c r = W5 m c r :=
  StableHlo.after_of_writes_sub hostOps4 _ hostOps4_writes h

end Unchanged

theorem W1_arg0 : rd (W1 m) c main_arg0 = m ((c.tc : Thread nD τ).loc main_arg0) :=
  (W1_of m c main_arg0 (by decide)).trans rfl
theorem W1_arg2 : rd (W1 m) c main_arg2 = m ((c.tc : Thread nD τ).loc main_arg2) :=
  (W1_of m c main_arg2 (by decide)).trans rfl
theorem W2_arg3 : rd (W2 m) c main_arg3 = m ((c.tc : Thread nD τ).loc main_arg3) :=
  (W2_of m c main_arg3 (by decide)).trans <| (W1_of m c main_arg3 (by decide)).trans rfl
theorem W3_arg1 : rd (W3 m) c main_arg1 = m ((c.tc : Thread nD τ).loc main_arg1) :=
  (W3_of m c main_arg1 (by decide)).trans <| (W2_of m c main_arg1 (by decide)).trans <|
    (W1_of m c main_arg1 (by decide)).trans rfl
theorem W4_arg4 : rd (W4 m) c main_arg4 = m ((c.tc : Thread nD τ).loc main_arg4) :=
  (W4_of m c main_arg4 (by decide)).trans <| (W3_of m c main_arg4 (by decide)).trans <|
    (W2_of m c main_arg4 (by decide)).trans <| (W1_of m c main_arg4 (by decide)).trans rfl
theorem W5_arg5 : rd (W5 m) c main_arg5 = m ((c.tc : Thread nD τ).loc main_arg5) :=
  (W5_of m c main_arg5 (by decide)).trans <| (W4_of m c main_arg5 (by decide)).trans <|
    (W3_of m c main_arg5 (by decide)).trans <| (W2_of m c main_arg5 (by decide)).trans <|
    (W1_of m c main_arg5 (by decide)).trans rfl
theorem W6_arg1 : rd (W6 m) c main_arg1 = m ((c.tc : Thread nD τ).loc main_arg1) :=
  (W6_of m c main_arg1 (by decide)).trans <| (W5_of m c main_arg1 (by decide)).trans <|
    (W4_of m c main_arg1 (by decide)).trans (W3_arg1 m c)

theorem W1_v0 : rd (W1 m) c main_v0 = o1 m c := by
  show Function.update (W0 m c) (Proc.devRef .tc main_v0) (o1 m c) (Proc.devRef .tc main_v0) = o1 m c
  rw [Function.update_self]
theorem W2_v1 : rd (W2 m) c main_v1 = o2 m c := by
  show Function.update (W1 m c) (Proc.devRef .tc main_v1) (o2 m c) (Proc.devRef .tc main_v1) = o2 m c
  rw [Function.update_self]
theorem W4_v3 : rd (W4 m) c main_v3 = o4 m c := by
  show Function.update (W3 m c) (Proc.devRef .tc main_v3) (o4 m c) (Proc.devRef .tc main_v3) = o4 m c
  rw [Function.update_self]
theorem W5_v4 : rd (W5 m) c main_v4 = o5 m c := by
  show Function.update (W4 m c) (Proc.devRef .tc main_v4) (o5 m c) (Proc.devRef .tc main_v4) = o5 m c
  rw [Function.update_self]

theorem W3_v0 : rd (W3 m) c main_v0 = o1 m c :=
  (W3_of m c main_v0 (by decide)).trans <| (W2_of m c main_v0 (by decide)).trans (W1_v0 m c)
theorem W3_v1 : rd (W3 m) c main_v1 = o2 m c :=
  (W3_of m c main_v1 (by decide)).trans (W2_v1 m c)
theorem W6_v0 : rd (W6 m) c main_v0 = o1 m c :=
  (W6_of m c main_v0 (by decide)).trans <| (W5_of m c main_v0 (by decide)).trans <|
    (W4_of m c main_v0 (by decide)).trans (W3_v0 m c)
theorem W6_v4 : rd (W6 m) c main_v4 = o5 m c :=
  (W6_of m c main_v4 (by decide)).trans (W5_v4 m c)

theorem W3_v2_apply (k' : Fin 16) :
    (rd (W3 m) c main_v2 : S1x16.Idx → EReal) (ix2 0 k')
      = (m ((c.tc : Thread nD τ).loc main_arg3) : S16.Idx → EReal) (ix1 k') := by
  have e : (rd (W3 m) c main_v2 : S1x16.Idx → EReal)
      = shapeCast S1x16 (rd (W2 m) c main_arg3 : S16.Idx → EReal) Gen.shapeCasts_S16_S1x16 := by
    show StableHlo.after hostOps2 (W2 m c) (Proc.devRef .tc main_v2) = _
    after_results <;> rfl
  exact (congrFun e (ix2 0 k')).trans
    ((shapeCast_a_1a_apply _ _ 0 k').trans (congrFun (W2_arg3 m c) (ix1 k')))

theorem W6_v5_apply (k' : Fin 40) :
    (rd (W6 m) c main_v5 : S1x40.Idx → EReal) (ix2 0 k')
      = (m ((c.tc : Thread nD τ).loc main_arg5) : S40.Idx → EReal) (ix1 k') := by
  have e : (rd (W6 m) c main_v5 : S1x40.Idx → EReal)
      = shapeCast S1x40 (rd (W5 m) c main_arg5 : S40.Idx → EReal) Gen.shapeCasts_S40_S1x40 := by
    show StableHlo.after hostOps4 (W5 m c) (Proc.devRef .tc main_v5) = _
    after_results <;> rfl
  exact (congrFun e (ix2 0 k')).trans
    ((shapeCast_a_1a_apply _ _ 0 k').trans (congrFun (W5_arg5 m c) (ix1 k')))

theorem o1_apply (f0 : Final0) (j : Fin 12288) :
    (o1 m c : S12288x1.Idx → EReal) (ix2 j 0) = Cert.Gcn.dinv (m ((c.tc : Thread nD τ).loc main_arg1)) j := by
  unfold o1
  exact f0 (rd (W0 m)) c j

theorem o2_apply (f1 : Final1) (j : Fin 12288) (f : Fin 16) :
    (o2 m c : S12288x16.Idx → EReal) (ix2 j f)
      = Cert.Gcn.lin (m ((c.tc : Thread nD τ).loc main_arg0)) (m ((c.tc : Thread nD τ).loc main_arg2)) j f := by
  unfold o2
  exact (f1 (rd (W1 m)) c j f).trans (lin_congr (W1_arg0 m c) (W1_arg2 m c) j f)

theorem o4_apply (f0 : Final0) (f1 : Final1) (f2 : Final2) (j : Fin 12288) (f : Fin 16) :
    (o4 m c : S12288x16.Idx → EReal) (ix2 j f)
      = Cert.Gcn.hidK (m ((c.tc : Thread nD τ).loc main_arg0)) (m ((c.tc : Thread nD τ).loc main_arg1))
          (m ((c.tc : Thread nD τ).loc main_arg2)) (fun k => m ((c.tc : Thread nD τ).loc main_arg3) (ix1 k)) j f := by
  unfold o4 Cert.Gcn.hidK
  refine Eq.trans (α := EReal) (f2 (rd (W3 m)) c j f) (congrArg (fun t : EReal => max t (0 : EReal)) ?_)
  refine aggK_congr (W3_arg1 m c) (fun j' => ?_) (fun j' k' => ?_) (fun k' => ?_) j f
  · exact (congrFun (W3_v0 m c) (ix2 j' 0)).trans (o1_apply m c f0 j')
  · exact (congrFun (W3_v1 m c) (ix2 j' k')).trans (o2_apply m c f1 j' k')
  · exact W3_v2_apply m c k'

theorem o5_apply (f0 : Final0) (f1 : Final1) (f2 : Final2) (f3 : Final3) (j : Fin 12288) (k' : Fin 40) :
    (o5 m c : S12288x40.Idx → EReal) (ix2 j k')
      = ∑ f : Fin 16, Cert.Gcn.hidK (m ((c.tc : Thread nD τ).loc main_arg0)) (m ((c.tc : Thread nD τ).loc main_arg1))
          (m ((c.tc : Thread nD τ).loc main_arg2)) (fun k => m ((c.tc : Thread nD τ).loc main_arg3) (ix1 k)) j f
            * m ((c.tc : Thread nD τ).loc main_arg4) (ix2 f k') := by
  unfold o5
  refine Eq.trans (α := EReal) (f3 (rd (W4 m)) c j k') ?_
  unfold Cert.Gcn.lin
  refine Finset.sum_congr rfl fun f _ => ?_
  exact congrArg₂ (fun s t : EReal => s * t) ((congrFun (W4_v3 m c) (ix2 j f)).trans (o4_apply m c f0 f1 f2 j f))
    (congrFun (W4_arg4 m c) (ix2 f k'))

theorem o7_eq (f0 : Final0) (f1 : Final1) (f2 : Final2) (f3 : Final3) (f4 : Final4)
    (m : (ℓ : Loc nD τ sig) → Buf (Elt Ideal) ℓ) (c : Dev nD) :
    (o7 (F := Ideal) m c : S12288x40.Idx → EReal)
      = Cert.Gcn.out (m ((c.tc : Thread nD τ).loc main_arg0)) (m ((c.tc : Thread nD τ).loc main_arg1))
          (m ((c.tc : Thread nD τ).loc main_arg2)) (fun k => m ((c.tc : Thread nD τ).loc main_arg3) (ValueIdx.ix1 k))
          (m ((c.tc : Thread nD τ).loc main_arg4)) (fun k => m ((c.tc : Thread nD τ).loc main_arg5) (ValueIdx.ix1 k)) := by
  funext idx
  obtain ⟨i, k, rfl⟩ : ∃ i k, idx = ix2 i k := ⟨idx 0, idx 1, eq_ix2 idx⟩
  unfold o7
  refine Eq.trans (α := EReal) (f4 (rd (W6 m)) c i k) ?_
  show _ = Cert.Gcn.logSoftmax (fun k' => Cert.Gcn.aggK _ (Cert.Gcn.dinv _)
    (fun j c' => ∑ f : Fin 16, Cert.Gcn.hidK _ _ _ _ j f * _) _ i k') k
  refine congrArg (fun v => Cert.Gcn.logSoftmax v k) (funext fun k' => ?_)
  refine aggK_congr (W6_arg1 m c) (fun j => ?_) (fun j k'' => ?_) (fun k'' => ?_) i k'
  · exact (congrFun (W6_v0 m c) (ix2 j 0)).trans (o1_apply m c f0 j)
  · exact (congrFun (W6_v4 m c) (ix2 j k'')).trans (o5_apply m c f0 f1 f2 f3 j k'')
  · exact W6_v5_apply m c k''

end Cert.KernelIdeal.Hand

end
-- ==== Proof.RefVal.lean ====
import proofs.«103262_j55946243997874_1_alg».proof.Proof.RefRead
import proofs.«103262_j55946243997874_1_alg».proof.Proof.Spec
import Idealize.ShloMosaic.PureOps.Reduce
import Idealize.ShloMosaic.PureOps.Ideal.Laws
import Idealize.ShloMosaic.Lib.StableHlo.Predicate

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx
open scoped BigOperators

variable (x0 : (⟨S12288x512, .f32⟩ : BufTy).Contents (Elt Ideal)) (x1 : (⟨S12288x12288, .f32⟩ : BufTy).Contents (Elt Ideal))
  (x2 : (⟨S512x16, .f32⟩ : BufTy).Contents (Elt Ideal)) (x3 : (⟨S16, .f32⟩ : BufTy).Contents (Elt Ideal))
  (x4 : (⟨S16x40, .f32⟩ : BufTy).Contents (Elt Ideal)) (x5 : (⟨S40, .f32⟩ : BufTy).Contents (Elt Ideal))

theorem ofNat_inj_small (a b : Nat) (ha : a < 12288) (hb : b < 12288) (h : BitVec.ofNat 32 a = BitVec.ofNat 32 b) : a = b := by
  have ha' : a < 2 ^ 32 := Nat.lt_trans ha (by decide)
  have hb' : b < 2 ^ 32 := Nat.lt_trans hb (by decide)
  have e := congrArg BitVec.toNat h
  rwa [BitVec.toNat_ofNat, BitVec.toNat_ofNat, Nat.mod_eq_of_lt ha', Nat.mod_eq_of_lt hb'] at e

theorem eye_at (p q : Fin 12288) : val_main_v5 (F := Ideal) (ix2 p q) = Gcn.eye p q := by
  rw [val_main_v5_apply, val_main_v4_apply, val_main_v3_apply, val_main_v0_apply, val_main_v2_apply, val_main_c_apply,
    val_main_v1_apply]
  show (((IntOp.cmpi .eq (IntOp.addi (BitVec.ofNat 32 p.val) 0#32) (BitVec.ofNat 32 q.val)).toNat : ℝ) : EReal)
    = if p = q then 1 else 0
  have h0 : IntOp.addi (BitVec.ofNat 32 p.val) 0#32 = BitVec.ofNat 32 p.val := by
    unfold IntOp.addi; exact BitVec.add_zero _
  rw [h0]
  by_cases hpq : p = q
  · subst hpq
    rw [if_pos rfl, Predicate.cmpi_eq_iff.mpr rfl]
    simp
  · rw [if_neg hpq]
    have hz : IntOp.cmpi .eq (BitVec.ofNat 32 p.val) (BitVec.ofNat 32 q.val) = 0#1 :=
      eq_zero_of_ne_one fun h => hpq (Fin.ext (ofNat_inj_small _ _ p.isLt q.isLt (Predicate.cmpi_eq_iff.mp h)))
    rw [hz]
    simp

theorem ahat_at (p q : Fin 12288) : val_main_v6 (F := Ideal) x1 (ix2 p q) = x1 (ix2 p q) + Gcn.eye p q := by
  rw [val_main_v6_apply, eye_at]; rfl

theorem idx7 (p k : Fin 12288) : idx_main_v7 (ix1 p) k = ix2 p k :=
  funext fun a => by match a with | ⟨0, _⟩ => rfl | ⟨1, _⟩ => rfl

theorem deg_at (p : Fin 12288) : val_main_v7 (F := Ideal) x1 (ix1 p) = Gcn.degR x1 p := by
  rw [val_main_v7_apply, val_main_cst_apply, Ideal.ofBits_def, Ideal.ofBits_zero_f32, zero_add]
  unfold Gcn.degR
  refine Finset.sum_congr rfl fun k _ => ?_
  rw [idx7, ahat_at]

theorem dinv_at (p : Fin 12288) : val_main_v8 (F := Ideal) x1 (ix1 p) = Gcn.dinvR x1 p := by
  rw [val_main_v8_apply, deg_at]; rfl

theorem idx9_10 (p q : Fin 12288) : idx_main_v9 (idx_main_v10 (ix2 p q)) = ix1 p :=
  funext fun a => by match a with | ⟨0, _⟩ => rfl

theorem idx12_13 (p q : Fin 12288) : idx_main_v12 (idx_main_v13 (ix2 p q)) = ix1 q :=
  funext fun a => by match a with | ⟨0, _⟩ => rfl

theorem norm_at (p q : Fin 12288) : val_main_v14 (F := Ideal) x1 (ix2 p q) = Gcn.normR x1 p q := by
  rw [val_main_v14_apply, val_main_v11_apply, val_main_v13_apply, val_main_v12_apply, val_main_v10_apply, val_main_v9_apply,
    idx9_10, idx12_13, ahat_at]
  rw [dinv_at x1 p, dinv_at x1 q]
  rfl

theorem lidx15 (p : Fin 12288) (c : Fin 16) (k : Fin 512) : lidx_main_v15 (ix2 p c) k = ix2 p k :=
  funext fun a => by match a with | ⟨0, _⟩ => rfl | ⟨1, _⟩ => rfl

theorem ridx15 (p : Fin 12288) (c : Fin 16) (k : Fin 512) : ridx_main_v15 (ix2 p c) k = ix2 k c :=
  funext fun a => by match a with | ⟨0, _⟩ => rfl | ⟨1, _⟩ => rfl

theorem xw1_at (p : Fin 12288) (c : Fin 16) : val_main_v15 (F := Ideal) x0 x2 (ix2 p c) = Gcn.lin x0 x2 p c := by
  rw [val_main_v15_apply]
  unfold Gcn.lin
  refine Finset.sum_congr rfl fun k _ => ?_
  rw [lidx15, ridx15]

theorem lidx16 (p : Fin 12288) (c : Fin 16) (k : Fin 12288) : lidx_main_v16 (ix2 p c) k = ix2 p k :=
  funext fun a => by match a with | ⟨0, _⟩ => rfl | ⟨1, _⟩ => rfl

theorem ridx16 (p : Fin 12288) (c : Fin 16) (k : Fin 12288) : ridx_main_v16 (ix2 p c) k = ix2 k c :=
  funext fun a => by match a with | ⟨0, _⟩ => rfl | ⟨1, _⟩ => rfl

theorem t1_at (p : Fin 12288) (c : Fin 16) :
    val_main_v16 (F := Ideal) x0 x1 x2 (ix2 p c) = ∑ j : Fin 12288, Gcn.normR x1 p j * Gcn.lin x0 x2 j c := by
  rw [val_main_v16_apply]
  refine Finset.sum_congr rfl fun k _ => ?_
  rw [lidx16, ridx16, norm_at, xw1_at]

theorem idx17_18 (p : Fin 12288) (c : Fin 16) : idx_main_v17 (idx_main_v18 (ix2 p c)) = ix1 c :=
  funext fun a => by match a with | ⟨0, _⟩ => rfl

theorem hid_at (p : Fin 12288) (c : Fin 16) :
    val_main_v20 (F := Ideal) x0 x1 x2 x3 (ix2 p c) = Gcn.hidR x0 x1 x2 (fun k => x3 (ix1 k)) p c := by
  rw [val_main_v20_apply, val_main_v19_apply, val_main_v18_apply, val_main_v17_apply, idx17_18, t1_at,
    val_main_call0_v0_apply, val_main_call0_cst_apply, Ideal.ofBits_def, Ideal.ofBits_zero_f32]
  rfl

theorem lidx21 (p : Fin 12288) (c : Fin 40) (k : Fin 16) : lidx_main_v21 (ix2 p c) k = ix2 p k :=
  funext fun a => by match a with | ⟨0, _⟩ => rfl | ⟨1, _⟩ => rfl

theorem ridx21 (p : Fin 12288) (c : Fin 40) (k : Fin 16) : ridx_main_v21 (ix2 p c) k = ix2 k c :=
  funext fun a => by match a with | ⟨0, _⟩ => rfl | ⟨1, _⟩ => rfl

theorem hw2_at (p : Fin 12288) (c : Fin 40) :
    val_main_v21 (F := Ideal) x0 x1 x2 x3 x4 (ix2 p c)
      = ∑ f : Fin 16, Gcn.hidR x0 x1 x2 (fun k => x3 (ix1 k)) p f * x4 (ix2 f c) := by
  rw [val_main_v21_apply]
  refine Finset.sum_congr rfl fun k _ => ?_
  rw [lidx21, ridx21, hid_at]

theorem lidx22 (p : Fin 12288) (c : Fin 40) (k : Fin 12288) : lidx_main_v22 (ix2 p c) k = ix2 p k :=
  funext fun a => by match a with | ⟨0, _⟩ => rfl | ⟨1, _⟩ => rfl

theorem ridx22 (p : Fin 12288) (c : Fin 40) (k : Fin 12288) : ridx_main_v22 (ix2 p c) k = ix2 k c :=
  funext fun a => by match a with | ⟨0, _⟩ => rfl | ⟨1, _⟩ => rfl

theorem idx23_24 (p : Fin 12288) (c : Fin 40) : idx_main_v23 (idx_main_v24 (ix2 p c)) = ix1 c :=
  funext fun a => by match a with | ⟨0, _⟩ => rfl

abbrev logits : Fin 12288 → Fin 40 → EReal :=
  Gcn.logitR x0 x1 x2 (fun k => x3 (ix1 k)) x4 (fun k => x5 (ix1 k))

theorem logit_at (p : Fin 12288) (c : Fin 40) :
    val_main_v25 (F := Ideal) x0 x1 x2 x3 x4 x5 (ix2 p c) = logits x0 x1 x2 x3 x4 x5 p c := by
  rw [val_main_v25_apply, val_main_v24_apply, val_main_v23_apply, idx23_24, val_main_v22_apply, Ideal.addf_def]
  unfold logits Gcn.logitR Gcn.aggR
  refine congrArg (· + x5 (ix1 c)) (Finset.sum_congr rfl fun k _ => ?_)
  rw [lidx22, ridx22, norm_at, hw2_at]

theorem reduceMax_at (y : (⟨S12288x40, .f32⟩ : BufTy).Contents (Elt Ideal)) (init : (⟨S_, .f32⟩ : BufTy).Contents (Elt Ideal))
    (p : Fin 12288) :
    Host.reduce (FloatOps.maximumf (F := Ideal) (φ := .f32)) y init reducesTo_S12288x40_S12288_d1 h_S_ (ix1 p)
      = (Finset.univ : Finset (Fin 40)).fold max (init (Shape.Idx.first h_S_)) (fun c => y (ix2 p c)) := by
  rw [Host.reduce_eq_fold_single (FloatOps.maximumf (F := Ideal) (φ := .f32)) y init reducesTo_S12288x40_S12288_d1
    (by decide) h_S_ (ix1 p)]
  exact Finset.fold_congr fun k _ =>
    congrArg y (funext fun a => Fin.ext (by match a with | ⟨0, _⟩ => rfl | ⟨1, _⟩ => rfl))

theorem ofBits_neg_inf : FloatOps.ofBits (F := Ideal) .f32 0xFF800000#32 = (⊥ : EReal) := by
  simp [Ideal.ofBits, Ideal.ieee]

theorem rowmax_at (p : Fin 12288) :
    val_main_call1_v2 (F := Ideal) x0 x1 x2 x3 x4 x5 (ix1 p) = Gcn.rowMax (fun c => logits x0 x1 x2 x3 x4 x5 p c) := by
  rw [val_main_call1_v2_apply, val_main_call1_v1_apply, val_main_call1_cst_0_apply]
  unfold val_main_call1_v0
  rw [reduceMax_at, val_main_call1_cst_apply, ofBits_neg_inf, Ideal.maximumf_def, max_bot_left]
  unfold Gcn.rowMax
  exact Finset.fold_congr fun c _ => logit_at x0 x1 x2 x3 x4 x5 p c

theorem idx_c3_c4 (p : Fin 12288) (c : Fin 40) : idx_main_call1_v3 (idx_main_call1_v4 (ix2 p c)) = ix1 p :=
  funext fun a => by match a with | ⟨0, _⟩ => rfl

theorem shift_at (p : Fin 12288) (c : Fin 40) :
    val_main_call1_v5 (F := Ideal) x0 x1 x2 x3 x4 x5 (ix2 p c)
      = logits x0 x1 x2 x3 x4 x5 p c - Gcn.rowMax (fun c => logits x0 x1 x2 x3 x4 x5 p c) := by
  rw [val_main_call1_v5_apply, val_main_call1_v4_apply, val_main_call1_v3_apply, idx_c3_c4, rowmax_at, logit_at]
  rfl

theorem idx_c7 (p : Fin 12288) (k : Fin 40) : idx_main_call1_v7 (ix1 p) k = ix2 p k :=
  funext fun a => by match a with | ⟨0, _⟩ => rfl | ⟨1, _⟩ => rfl

theorem idx_c8_c10 (p : Fin 12288) (c : Fin 40) : idx_main_call1_v8 (idx_main_call1_v10 (ix2 p c)) = ix1 p :=
  funext fun a => by match a with | ⟨0, _⟩ => rfl

theorem lse_at (p : Fin 12288) (c : Fin 40) :
    val_main_call1_v10 (F := Ideal) x0 x1 x2 x3 x4 x5 (ix2 p c)
      = Ideal.log (∑ c' : Fin 40, Ideal.exp (logits x0 x1 x2 x3 x4 x5 p c' - Gcn.rowMax (fun c => logits x0 x1 x2 x3 x4 x5 p c))) := by
  rw [val_main_call1_v10_apply, val_main_call1_v9_apply, val_main_call1_v8_apply, idx_c8_c10, val_main_call1_v7_apply,
    val_main_call1_cst_1_apply, Ideal.ofBits_def, Ideal.ofBits_zero_f32, zero_add, Ideal.hostUnary_log_def]
  refine congrArg Ideal.log (Finset.sum_congr rfl fun k _ => ?_)
  rw [idx_c7, val_main_call1_v6_apply, shift_at, Ideal.hostUnary_exp_def]

theorem out_at (p : Fin 12288) (c : Fin 40) :
    val_main_v26 (F := Ideal) x0 x1 x2 x3 x4 x5 (ix2 p c) = Gcn.logSoftmax (fun c => logits x0 x1 x2 x3 x4 x5 p c) c := by
  rw [val_main_v26_apply, shift_at, lse_at]
  rfl

theorem ref_out (m : (ℓ : Loc nD τ sig) → Buf (Elt Ideal) ℓ) (c : Dev nD) :
    (Cert.ReferenceIdeal.Value.res_out0 (F := Ideal) m c : S12288x40.Idx → EReal)
      = Gcn.outR (m ((c.tc : Thread nD τ).loc main_arg0)) (m ((c.tc : Thread nD τ).loc main_arg1))
          (m ((c.tc : Thread nD τ).loc main_arg2)) (fun k => m ((c.tc : Thread nD τ).loc main_arg3) (ix1 k))
          (m ((c.tc : Thread nD τ).loc main_arg4)) (fun k => m ((c.tc : Thread nD τ).loc main_arg5) (ix1 k)) := by
  refine (val_main_v26_eq m c).trans ?_
  funext idx
  obtain ⟨p, q, rfl⟩ : ∃ (p : Fin 12288) (q : Fin 40), idx = ix2 p q := ⟨idx 0, idx 1, eq_ix2 idx⟩
  rw [out_at]
  rfl

end Cert.ReferenceIdeal.RefValue

end
-- ==== Proof.Alg.lean ====
import proofs.«103262_j55946243997874_1_alg».proof.Proof.Spec
import Mathlib.Data.EReal.Basic
import Mathlib.Data.EReal.Operations
import Mathlib.Data.EReal.Inv
import Mathlib.Algebra.BigOperators.Ring.Finset
import Mathlib.Algebra.BigOperators.Group.Finset.Basic

noncomputable section

namespace Cert.Gcn

open Idealize.ShloMosaic Idealize.ShloMosaic.ValueIdx
open scoped BigOperators

theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

def IsReal (x : EReal) : Prop := ∃ r : ℝ, x = (r : EReal)

theorem isReal_zero : IsReal 0 := ⟨0, EReal.coe_zero.symm⟩

theorem isReal_one : IsReal 1 := ⟨1, EReal.coe_one.symm⟩

theorem IsReal.add {x y : EReal} (hx : IsReal x) (hy : IsReal y) : IsReal (x + y) := by
  obtain ⟨r, rfl⟩ := hx
  obtain ⟨s, rfl⟩ := hy
  exact ⟨r + s, (EReal.coe_add r s).symm⟩

theorem IsReal.mul {x y : EReal} (hx : IsReal x) (hy : IsReal y) : IsReal (x * y) := by
  obtain ⟨r, rfl⟩ := hx
  obtain ⟨s, rfl⟩ := hy
  exact ⟨r * s, (EReal.coe_mul r s).symm⟩

theorem IsReal.max {x y : EReal} (hx : IsReal x) (hy : IsReal y) : IsReal (max x y) := by
  rcases max_choice x y with h | h <;> rw [h] <;> assumption

theorem IsReal.sum {ι : Type} (s : Finset ι) (f : ι → EReal) (h : ∀ i ∈ s, IsReal (f i)) :
    IsReal (∑ i ∈ s, f i) :=
  Finset.sum_induction f IsReal (fun _ _ hx hy => hx.add hy) isReal_zero h

theorem isReal_delta {ι : Type} [DecidableEq ι] (i j : ι) : IsReal (if i = j then (1 : EReal) else 0) := by
  split_ifs
  · exact isReal_one
  · exact isReal_zero

theorem isReal_rsqrt {x : EReal} (hx : IsReal x) (hpos : 0 < x) : IsReal (Ideal.rsqrt x) := by
  obtain ⟨r, rfl⟩ := hx
  have hr : 0 < r := by exact_mod_cast hpos
  rw [Ideal.rsqrt_coe, if_neg (not_lt.mpr hr.le), if_neg hr.ne']
  exact ⟨_, rfl⟩

theorem degK_eq_degR (a : Mat 12288 12288) (i : Fin 12288) : degK a i = degR a i := by
  unfold degK degR eye
  rw [Finset.sum_add_distrib, Finset.sum_ite_eq]
  simp

theorem dinv_eq_dinvR (a : Mat 12288 12288) : dinv a = dinvR a := by
  funext i
  unfold dinv dinvR
  rw [degK_eq_degR]

theorem isReal_degR (a : Mat 12288 12288) (ha : AllReal a) (i : Fin 12288) : IsReal (degR a i) := by
  unfold degR eye
  exact IsReal.sum _ _ (fun j _ => IsReal.add (ha _) (isReal_delta i j))

theorem allReal_dinvR (a : Mat 12288 12288) (ha : AllReal a) (hdeg : ∀ i, 0 < degR a i) :
    AllReal (dinvR a) :=
  fun i => isReal_rsqrt (isReal_degR a ha i) (hdeg i)

theorem step_real {ι : Type} [Fintype ι] [DecidableEq ι] (a d M : ι → ℝ) (i : ι) :
    d i * (∑ j, a j * (M j * d j)) + (d i * d i) * M i
      = ∑ j, ((a j + (if i = j then (1 : ℝ) else 0)) * d i) * d j * M j := by
  have h : ∀ j, ((a j + (if i = j then (1 : ℝ) else 0)) * d i) * d j * M j
      = d i * (a j * (M j * d j)) + (if i = j then (d i * d i) * M i else 0) := by
    intro j
    split_ifs with hij
    · subst hij; ring
    · ring
  rw [Finset.sum_congr rfl (fun j _ => h j), Finset.sum_add_distrib, ← Finset.mul_sum, Finset.sum_ite_eq]
  simp

theorem step_ereal {ι : Type} [Fintype ι] [DecidableEq ι] (a d M : ι → ℝ) (i : ι) :
    (d i : EReal) * (∑ j, (a j : EReal) * ((M j : EReal) * (d j : EReal)))
        + ((d i : EReal) * (d i : EReal)) * (M i : EReal)
      = ∑ j, (((a j : EReal) + (if i = j then (1 : EReal) else 0)) * (d i : EReal)) * (d j : EReal) * (M j : EReal) := by
  have hite : ∀ j, (if i = j then (1 : EReal) else 0) = (((if i = j then (1 : ℝ) else 0) : ℝ) : EReal) := by
    intro j
    split_ifs <;> simp
  simp only [hite, ← EReal.coe_mul, ← EReal.coe_add, ← coe_sum]
  rw [step_real]

theorem aggK_eq_aggR {m : Nat} (a : Mat 12288 12288) (M : Fin 12288 → Fin m → EReal) (b : Fin m → EReal)
    (ha : AllReal a) (hd : AllReal (dinvR a)) (hM : ∀ j c, IsReal (M j c)) (i : Fin 12288) (c : Fin m) :
    aggK a (dinvR a) M b i c = aggR a M b i c := by
  choose a' ha' using ha
  choose d' hd' using hd
  choose M' hM' using hM
  unfold aggK aggR normR eye
  simp only [ha', hd', hM']
  rw [step_ereal (fun j => a' (ix2 i j)) d' (fun j => M' j c) i]

theorem isReal_lin {n k m : Nat} (x : Mat n k) (w : Mat k m) (hx : AllReal x) (hw : AllReal w)
    (i : Fin n) (c : Fin m) : IsReal (lin x w i c) := by
  unfold lin
  exact IsReal.sum _ _ (fun f _ => IsReal.mul (hx _) (hw _))

theorem isReal_aggR {m : Nat} (a : Mat 12288 12288) (M : Fin 12288 → Fin m → EReal) (b : Fin m → EReal)
    (ha : AllReal a) (hd : AllReal (dinvR a)) (hM : ∀ j c, IsReal (M j c)) (hb : AllReal b)
    (i : Fin 12288) (c : Fin m) : IsReal (aggR a M b i c) := by
  unfold aggR normR eye
  exact IsReal.add
    (IsReal.sum _ _ (fun j _ =>
      IsReal.mul (IsReal.mul (IsReal.mul (IsReal.add (ha _) (isReal_delta i j)) (hd _)) (hd _)) (hM _ _)))
    (hb _)

section Network

variable (x : Mat 12288 512) (a : Mat 12288 12288) (w1 : Mat 512 16) (b1 : Fin 16 → EReal)
  (w2 : Mat 16 40) (b2 : Fin 40 → EReal)

theorem hidK_eq_hidR (hx : AllReal x) (ha : AllReal a) (hw1 : AllReal w1) (hd : AllReal (dinvR a)) :
    hidK x a w1 b1 = hidR x a w1 b1 := by
  funext i c
  unfold hidK hidR
  rw [dinv_eq_dinvR, aggK_eq_aggR a _ b1 ha hd (isReal_lin x w1 hx hw1) i c]

theorem isReal_hidR (hx : AllReal x) (ha : AllReal a) (hw1 : AllReal w1) (hb1 : AllReal b1)
    (hd : AllReal (dinvR a)) (i : Fin 12288) (c : Fin 16) : IsReal (hidR x a w1 b1 i c) := by
  unfold hidR
  exact IsReal.max (isReal_aggR a _ b1 ha hd (isReal_lin x w1 hx hw1) hb1 i c) isReal_zero

theorem logitK_eq_logitR (hx : AllReal x) (ha : AllReal a) (hw1 : AllReal w1) (hb1 : AllReal b1)
    (hw2 : AllReal w2) (hd : AllReal (dinvR a)) :
    logitK x a w1 b1 w2 b2 = logitR x a w1 b1 w2 b2 := by
  funext i c
  unfold logitK logitR
  rw [hidK_eq_hidR x a w1 b1 hx ha hw1 hd, dinv_eq_dinvR]
  exact aggK_eq_aggR a _ b2 ha hd
    (fun j c' => IsReal.sum _ _ (fun f _ => IsReal.mul (isReal_hidR x a w1 b1 hx ha hw1 hb1 hd j f) (hw2 _))) i c

end Network

theorem out_eq_outR (x : Mat 12288 512) (a : Mat 12288 12288) (w1 : Mat 512 16) (b1 : Fin 16 → EReal)
    (w2 : Mat 16 40) (b2 : Fin 40 → EReal)
    (hx : AllReal x) (ha : AllReal a) (hw1 : AllReal w1) (hb1 : AllReal b1) (hw2 : AllReal w2) (hb2 : AllReal b2)
    (hdeg : ∀ i, 0 < degR a i) : out x a w1 b1 w2 b2 = outR x a w1 b1 w2 b2 := by
  have hd : AllReal (dinvR a) := allReal_dinvR a ha hdeg
  funext idx
  unfold out outR
  rw [logitK_eq_logitR x a w1 b1 w2 b2 hx ha hw1 hb1 hw2 hd]

end Cert.Gcn

end
-- ==== Proof.PreFacts.lean ====
import proofs.«103262_j55946243997874_1_alg».proof.Defs
import proofs.«103262_j55946243997874_1_alg».proof.Proof.Gen.Pre_finite_inputs
import proofs.«103262_j55946243997874_1_alg».proof.Proof.Spec
import Idealize.ShloMosaic.Lib.ReduceAll
import Idealize.ShloMosaic.Lib.StableHlo.Predicate
import Idealize.ShloMosaic.Lib.ValueIdx
import Idealize.ShloMosaic.PureOps.Ideal.Laws

noncomputable section

namespace Cert.PreFacts

open Idealize.ShloMosaic Idealize.ShloMosaic.ValueIdx
open Cert.Pre_finite_inputs
open scoped BigOperators

instance : Subsingleton S_.Idx := ⟨fun a b => funext fun d => d.elim0⟩

theorem ofBits_inf_f32 : Ideal.ofBits .f32 0x7F800000#32 = (⊤ : EReal) := by
  simp [Ideal.ofBits, Ideal.ieee]

theorem real_of_abs_lt_top (x : EReal) (h : max x (-x) < ⊤) : ∃ r : ℝ, x = (r : EReal) := by
  induction x using EReal.rec with
  | bot => simp at h
  | coe r => exact ⟨r, rfl⟩
  | top => simp at h

theorem real_of_test (x : EReal)
    (h : FloatOps.cmpf (F := Ideal) (φ := .f32) .olt (FloatOps.hostAbsf x) (Ideal.ofBits .f32 0x7F800000#32) = 1#1) :
    ∃ r : ℝ, x = (r : EReal) := by
  refine real_of_abs_lt_top x ?_
  rw [Ideal.cmpf_def, ofBits_inf_f32] at h
  unfold Ideal.cmp at h
  rw [StableHlo.Predicate.ofBool_eq_one_iff, decide_eq_true_eq] at h
  exact h

theorem allReal_of_all {s : Shape} {axes : List (Fin s.rank)} (x : FVec Ideal s .f32)
    (hb : S_.BroadcastsInDim s (![] : Fin 0 → Fin s.rank)) (hr : s.ReducesTo axes S_) (h0 : 0 < S_.numel)
    (h : Host.reduce IntOp.andi (cmpf .olt (Host.absf x) (broadcastInDim s ![] hb (constant S_ .f32 0x7F800000#32)))
      (constantI S_ 1 1#1) hr h0 ix0 = 1#1) : Cert.Gcn.AllReal x := by
  intro i
  exact real_of_test (x i) (Host.reduce_andi_all _ _ hr h0 ix0 h i)

theorem eye_word (i k : Fin 12288) :
    ((IntOp.cmpi .eq (IntOp.addi (BitVec.ofNat 32 i.val) 0#32) (BitVec.ofNat 32 k.val)).toNat : ℝ)
      = if i = k then 1 else 0 := by
  have hadd : IntOp.addi (BitVec.ofNat 32 i.val) 0#32 = BitVec.ofNat 32 i.val := by simp [IntOp.addi]
  rw [hadd]
  by_cases h : i = k
  · subst h
    rw [StableHlo.Predicate.cmpi_eq_iff.2 rfl, if_pos rfl]; simp
  · have hne : ¬ IntOp.cmpi .eq (BitVec.ofNat 32 i.val) (BitVec.ofNat 32 k.val) = 1#1 := by
      rw [StableHlo.Predicate.cmpi_eq_iff]
      intro e
      apply h
      have e' := congrArg BitVec.toNat e
      simp only [BitVec.toNat_ofNat] at e'
      have hi := i.isLt
      have hk := k.isLt
      exact Fin.ext (by omega)
    rw [eq_zero_of_ne_one hne, if_neg h]; simp

theorem eye_apply (hb : S_.BroadcastsInDim S12288x12288 (![] : Fin 0 → Fin S12288x12288.rank)) (i k : Fin 12288) :
    (uitofp .f32 (cmpi .eq (addi (iotaInDim S12288x12288 32 0) (broadcastInDim S12288x12288 ![] hb (constantI S_ 32 0#32)))
      (iotaInDim S12288x12288 32 1)) : FVec Ideal S12288x12288 .f32) (ix2 i k) = Cert.Gcn.eye i k := by
  show (((IntOp.cmpi .eq (IntOp.addi (BitVec.ofNat 32 i.val) 0#32) (BitVec.ofNat 32 k.val)).toNat : ℝ) : EReal) = _
  rw [eye_word]
  unfold Cert.Gcn.eye
  split <;> simp

theorem hRed : S12288x12288.Reduces [1] S12288 := by decide

theorem lift_row (i k : Fin 12288) : hRed.lift (ix1 i) k = ix2 i k := by
  funext d
  match d with
  | ⟨0, _⟩ => exact Fin.ext rfl
  | ⟨1, _⟩ => exact Fin.ext rfl

theorem deg_pos_of_all (a E : FVec Ideal S12288x12288 .f32) (hE : ∀ i k, E (ix2 i k) = Cert.Gcn.eye i k)
    (hr1 : S12288x12288.ReducesTo [1] S12288) (h0 : 0 < S_.numel)
    (hb : S_.BroadcastsInDim S12288 (![] : Fin 0 → Fin S12288.rank)) (hr : S12288.ReducesTo [0] S_)
    (h : Host.reduce IntOp.andi
      (cmpf .ogt (Host.reduceAdd (addf a E) (constant S_ .f32 0x00000000#32) hr1 h0)
        (broadcastInDim S12288 ![] hb (constant S_ .f32 0x00000000#32)))
      (constantI S_ 1 1#1) hr h0 ix0 = 1#1) (i : Fin 12288) : 0 < Cert.Gcn.degR a i := by
  have e := Host.reduce_andi_all _ _ hr h0 ix0 h (ix1 i)
  change Ideal.cmp .ogt (Ideal.hostReduceAdd hr1 (addf a E) (Ideal.ofBits .f32 0x00000000#32) (ix1 i))
    (Ideal.ofBits .f32 0x00000000#32) = 1#1 at e
  rw [Ideal.hostReduceAdd_single hr1 hRed, Ideal.ofBits_zero_f32, zero_add] at e
  unfold Ideal.cmp at e
  rw [StableHlo.Predicate.ofBool_eq_one_iff, decide_eq_true_eq] at e
  have e' : 0 < ∑ k : Fin 12288, addf a E (hRed.lift (ix1 i) k) := e
  have hs : (∑ k : Fin 12288, addf a E (hRed.lift (ix1 i) k)) = Cert.Gcn.degR a i := by
    unfold Cert.Gcn.degR
    refine Finset.sum_congr rfl fun k _ => ?_
    rw [lift_row, addf_apply, hE]
  rw [hs] at e'
  exact e'

theorem of_fn [Cert.Pre_finite_inputs.Facts] (x : FVec Ideal Cert.Pre_finite_inputs.S12288x512 .f32)
    (a : FVec Ideal Cert.Pre_finite_inputs.S12288x12288 .f32) (w1 : FVec Ideal Cert.Pre_finite_inputs.S512x16 .f32)
    (b1 : FVec Ideal Cert.Pre_finite_inputs.S16 .f32) (w2 : FVec Ideal Cert.Pre_finite_inputs.S16x40 .f32)
    (b2 : FVec Ideal Cert.Pre_finite_inputs.S40 .f32)
    (h : Cert.Pre_finite_inputs.fn (F := Ideal) x a w1 b1 w2 b2 = fun _ => 1#1) :
    Cert.Gcn.AllReal x ∧ Cert.Gcn.AllReal a ∧ Cert.Gcn.AllReal w1 ∧ Cert.Gcn.AllReal b1 ∧ Cert.Gcn.AllReal w2 ∧
      Cert.Gcn.AllReal b2 ∧ ∀ i : Fin 12288, 0 < Cert.Gcn.degR a i := by
  have e := congrFun h ix0
  dsimp only [fn, fn_part1, fn_part2] at e
  obtain ⟨e, hdeg⟩ := IntOp.andi_eq_one.1 e
  obtain ⟨e, hb2⟩ := IntOp.andi_eq_one.1 e
  obtain ⟨e, hw2⟩ := IntOp.andi_eq_one.1 e
  obtain ⟨e, hb1⟩ := IntOp.andi_eq_one.1 e
  obtain ⟨e, hw1⟩ := IntOp.andi_eq_one.1 e
  obtain ⟨hx, ha⟩ := IntOp.andi_eq_one.1 e
  exact ⟨allReal_of_all x _ _ _ hx, allReal_of_all a _ _ _ ha, allReal_of_all w1 _ _ _ hw1,
    allReal_of_all b1 _ _ _ hb1, allReal_of_all w2 _ _ _ hw2, allReal_of_all b2 _ _ _ hb2,
    deg_pos_of_all a _ (fun i k => eye_apply _ i k) _ _ _ _ hdeg⟩

end Cert.PreFacts

end
-- ==== Proof.lean ====
import proofs.«103262_j55946243997874_1_alg».proof.Defs
import proofs.«103262_j55946243997874_1_alg».proof.Proof.Gen.Kernel
import proofs.«103262_j55946243997874_1_alg».proof.Proof.Gen.KernelIdeal
import proofs.«103262_j55946243997874_1_alg».proof.Proof.Gen.ReferenceIdeal
import proofs.«103262_j55946243997874_1_alg».proof.Proof.Gen.Pre_finite_inputs
import proofs.«103262_j55946243997874_1_alg».proof.Proof.KRun
import proofs.«103262_j55946243997874_1_alg».proof.Proof.KIRun
import proofs.«103262_j55946243997874_1_alg».proof.Proof.KIVal0
import proofs.«103262_j55946243997874_1_alg».proof.Proof.KIVal1
import proofs.«103262_j55946243997874_1_alg».proof.Proof.KIVal2
import proofs.«103262_j55946243997874_1_alg».proof.Proof.KIVal3
import proofs.«103262_j55946243997874_1_alg».proof.Proof.KIVal4
import proofs.«103262_j55946243997874_1_alg».proof.Proof.KIOut
import proofs.«103262_j55946243997874_1_alg».proof.Proof.RefVal
import proofs.«103262_j55946243997874_1_alg».proof.Proof.Alg
import proofs.«103262_j55946243997874_1_alg».proof.Proof.PreFacts
import Idealize.ShloMosaic.Adequacy
import Idealize.ShloMosaic.Init

noncomputable section

namespace Cert.Proof

open Idealize.ShloMosaic Idealize.ShloMosaic.TcCoe Idealize.SL.Sem

theorem frame_k : Cert.frame_Kernel := fun m g _ => Cert.Kernel.Hand.frame m g

theorem frame_ki : Cert.frame_KernelIdeal := fun m g _ => Cert.KernelIdeal.Hand.frame m g

theorem frame_ri : Cert.frame_ReferenceIdeal := fun m g _ =>
  (θ_run Cert.ReferenceIdeal.defs _ _).mono (fun _ h c => (h c).2) (Cert.ReferenceIdeal.Value.run (F := Ideal) m g)

theorem algebraic : Cert.algebraic_KernelIdeal_ReferenceIdeal := by
  intro m g m' g' hpre hagree
  refine ⟨fun c => Cert.KernelIdeal.Hand.o7 (F := Ideal) m c, Cert.KernelIdeal.Hand.run_value m g, ?_⟩
  refine (θ_run Cert.ReferenceIdeal.defs _ _).mono (fun _ h c => ⟨(h c).1.trans ?_, (h c).2⟩)
    (Cert.ReferenceIdeal.Value.run (F := Ideal) m' g')
  obtain ⟨hx, ha, hw1, hb1, hw2, hb2, hdeg⟩ := Cert.PreFacts.of_fn _ _ _ _ _ _ (hpre c)
  have href := Cert.ReferenceIdeal.RefValue.ref_out m' c
  rw [(hagree c).1, (hagree c).2.1, (hagree c).2.2.1, (hagree c).2.2.2.1, (hagree c).2.2.2.2.1, (hagree c).2.2.2.2.2] at href
  have hker := Cert.KernelIdeal.Hand.o7_eq Cert.KernelIdeal.Hand.final0 Cert.KernelIdeal.Hand.final1 Cert.KernelIdeal.Hand.final2
    Cert.KernelIdeal.Hand.final3 Cert.KernelIdeal.Hand.final4 m c
  exact href.trans ((Cert.Gcn.out_eq_outR _ _ _ _ _ _ hx ha hw1 (fun k => hb1 _) hw2 (fun k => hb2 _) hdeg).symm.trans hker.symm)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
